-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg4 : IVec S800000 32) (main_arg6 : IVec S800000 32) (main_v46 : IVec S_ 1) (main_v49 : IVec S_ 1) : IVec S_ 1 :=
  let main_v50 : IVec S_ 1 := andi main_v46 main_v49
  let main_c_20 : IVec S_ 32 := constantI S_ 32 50000#32
  let main_v51 : IVec S800000 32 := broadcastInDim S800000 ![] bcast_S_S800000 main_c_20
  let main_v52 : IVec S800000 1 := cmpi .slt main_arg4 main_v51
  let main_c_21 : IVec S_ 1 := constantI S_ 1 1#1
  let main_v53 : IVec S_ 1 := (fun x v => Host.reduce IntOp.andi x v reducesTo_S800000_S_d0 h_S_) main_v52 main_c_21
  let main_v54 : IVec S_ 1 := andi main_v50 main_v53
  let main_c_22 : IVec S_ 32 := constantI S_ 32 0#32
  let main_v55 : IVec S800000 32 := broadcastInDim S800000 ![] bcast_S_S800000 main_c_22
  let main_v56 : IVec S800000 1 := cmpi .sge main_arg6 main_v55
  let main_c_23 : IVec S_ 1 := constantI S_ 1 1#1
  let main_v57 : IVec S_ 1 := (fun x v => Host.reduce IntOp.andi x v reducesTo_S800000_S_d0 h_S_) main_v56 main_c_23
  let main_v58 : IVec S_ 1 := andi main_v54 main_v57
  let main_c_24 : IVec S_ 32 := constantI S_ 32 50000#32
  let main_v59 : IVec S800000 32 := broadcastInDim S800000 ![] bcast_S_S800000 main_c_24
  let main_v60 : IVec S800000 1 := cmpi .slt main_arg6 main_v59
  let main_c_25 : IVec S_ 1 := constantI S_ 1 1#1
  let main_v61 : IVec S_ 1 := (fun x v => Host.reduce IntOp.andi x v reducesTo_S800000_S_d0 h_S_) main_v60 main_c_25
  let main_v62 : IVec S_ 1 := andi main_v58 main_v61
  main_v62

def fn_part2 {F : FTy → Type} [FloatOps F] (main_arg2 : IVec S800000 32) (main_arg4 : IVec S800000 32) (main_arg6 : IVec S800000 32) (main_arg13 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg2 main_v39
  let main_c_15 : IVec S_ 1 := constantI S_ 1 1#1
  let main_v41 : IVec S_ 1 := (fun x v => Host.reduce IntOp.andi x v reducesTo_S800000_S_d0 h_S_) main_v40 main_c_15
  let main_v42 : IVec S_ 1 := andi main_v38 main_v41
  let main_c_16 : IVec S_ 32 := constantI S_ 32 50000#32
  let main_v43 : IVec S800000 32 := broadcastInDim S800000 ![] bcast_S_S800000 main_c_16
  let main_v44 : IVec S800000 1 := cmpi .slt main_arg2 main_v43
  let main_c_17 : IVec S_ 1 := constantI S_ 1 1#1
  let main_v45 : IVec S_ 1 := (fun x v => Host.reduce IntOp.andi x v reducesTo_S800000_S_d0 h_S_) main_v44 main_c_17
  let main_v46 : IVec S_ 1 := andi main_v42 main_v45
  let main_c_18 : IVec S_ 32 := constantI S_ 32 0#32
  let main_v47 : IVec S800000 32 := broadcastInDim S800000 ![] bcast_S_S800000 main_c_18
  let main_v48 : IVec S800000 1 := cmpi .sge main_arg4 main_v47
  let main_c_19 : IVec S_ 1 := constantI S_ 1 1#1
  let main_v49 : IVec S_ 1 := (fun x v => Host.reduce IntOp.andi x v reducesTo_S800000_S_d0 h_S_) main_v48 main_c_19
  fn_part3 (F := F) main_arg4 main_arg6 main_v46 main_v49

def fn_part1 {F : FTy → Type} [FloatOps F] (main_arg2 : IVec S800000 32) (main_arg4 : IVec S800000 32) (main_arg6 : IVec S800000 32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg4 main_arg6 main_arg13 main_v33

def fn {F : FTy → Type} [FloatOps F] (main_arg0 : FVec F S50000x128 .f32) (main_arg1 : FVec F S50000x128 .f32) (main_arg2 : IVec S800000 32) (main_arg3 : IVec S800000 32) (main_arg4 : IVec S800000 32) (main_arg5 : IVec S800000 32) (main_arg6 : IVec S800000 32) (main_arg7 : IVec S800000 32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg4 main_arg6 main_arg10 main_arg11 main_arg12 main_arg13 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S1000x128 : Shape := ⟨2, ![1000, 128]⟩
abbrev S_ : Shape := ⟨0, ![]⟩
abbrev S50176x128 : Shape := ⟨2, ![50176, 128]⟩
abbrev S800000x1 : Shape := ⟨2, ![800000, 1]⟩
abbrev S800000x128 : Shape := ⟨2, ![800000, 128]⟩
abbrev S3200x1 : Shape := ⟨2, ![3200, 1]⟩
abbrev S512x128 : Shape := ⟨2, ![512, 128]⟩
abbrev S3200x128 : Shape := ⟨2, ![3200, 128]⟩
abbrev S3200x512 : Shape := ⟨2, ![3200, 512]⟩
abbrev S1x800000 : Shape := ⟨2, ![1, 800000]⟩
abbrev S1x3200 : Shape := ⟨2, ![1, 3200]⟩
abbrev S512x3200 : Shape := ⟨2, ![512, 3200]⟩
abbrev S50000 : Shape := ⟨1, ![50000]⟩
abbrev S50000x1 : Shape := ⟨2, ![50000, 1]⟩
abbrev S1x50000x128 : Shape := ⟨3, ![1, 50000, 128]⟩
abbrev S2x50000x128 : Shape := ⟨3, ![2, 50000, 128]⟩

abbrev nBuf : Space → Nat
  | .hbm => 108
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x128, .f32⟩
  | .hbm, ⟨15, _⟩ => ⟨S50000x128, .bf16⟩
  | .hbm, ⟨16, _⟩ => ⟨S1x128, .f32⟩
  | .hbm, ⟨17, _⟩ => ⟨S50000x128, .bf16⟩
  | .hbm, ⟨18, _⟩ => ⟨S1x128, .f32⟩
  | .hbm, ⟨19, _⟩ => ⟨S50000x128, .bf16⟩
  | .hbm, ⟨20, _⟩ => ⟨S_, .i32⟩
  | .hbm, ⟨21, _⟩ => ⟨S_, .bf16⟩
  | .hbm, ⟨22, _⟩ => ⟨S50176x128, .bf16⟩
  | .hbm, ⟨23, _⟩ => ⟨S800000x1, .i32⟩
  | .hbm, ⟨24, _⟩ => ⟨S800000x128, .bf16⟩
  | .hbm, ⟨25, _⟩ => ⟨S1x800000, .i32⟩
  | .hbm, ⟨26, _⟩ => ⟨S50176x128, .f32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .i1⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .i1⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S_, .bf16⟩
  | .hbm, ⟨50, _⟩ => ⟨S50176x128, .bf16⟩
  | .hbm, ⟨51, _⟩ => ⟨S800000x1, .i32⟩
  | .hbm, ⟨52, _⟩ => ⟨S800000x128, .bf16⟩
  | .hbm, ⟨53, _⟩ => ⟨S1x800000, .i32⟩
  | .hbm, ⟨54, _⟩ => ⟨S50176x128, .f32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .i1⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .i1⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S_, .bf16⟩
  | .hbm, ⟨79, _⟩ => ⟨S50176x128, .bf16⟩
  | .hbm, ⟨80, _⟩ => ⟨S800000x1, .i32⟩
  | .hbm, ⟨81, _⟩ => ⟨S800000x128, .bf16⟩
  | .hbm, ⟨82, _⟩ => ⟨S1x800000, .i32⟩
  | .hbm, ⟨83, _⟩ => ⟨S50176x128, .f32⟩
  | .hbm, ⟨84, _⟩ => ⟨S50000x128, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S50000, .f32⟩
  | .hbm, ⟨89, _⟩ => ⟨S800000x1, .i32⟩
  | .hbm, ⟨90, _⟩ => ⟨S50000, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .i1⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .i1⟩
  | .hbm, ⟨103, _⟩ => ⟨S50000x128, .f32⟩
  | .hbm, ⟨104, _⟩ => ⟨S50000x128, .f32⟩
  | .hbm, ⟨105, _⟩ => ⟨S1x50000x128, .f32⟩
  | .hbm, ⟨106, _⟩ => ⟨S1x50000x128, .f32⟩
  | .hbm, ⟨107, _⟩ => ⟨S2x50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .bf16⟩
  | .local _ .vmem, ⟨5, _⟩ => ⟨S1000x128, .bf16⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S1x128, .f32⟩
  | .local _ .vmem, ⟨10, _⟩ => ⟨S1000x128, .bf16⟩
  | .local _ .vmem, ⟨11, _⟩ => ⟨S1000x128, .bf16⟩
  | .local _ .vmem, ⟨12, _⟩ => ⟨S1000x128, .f32⟩
  | .local _ .vmem, ⟨13, _⟩ => ⟨S1000x128, .f32⟩
  | .local _ .vmem, ⟨14, _⟩ => ⟨S128x128, .f32⟩
  | .local _ .vmem, ⟨15, _⟩ => ⟨S1x128, .f32⟩
  | .local _ .vmem, ⟨16, _⟩ => ⟨S1000x128, .bf16⟩
  | .local _ .vmem, ⟨17, _⟩ => ⟨S1000x128, .bf16⟩
  | .local _ .vmem, ⟨18, _⟩ => ⟨S3200x1, .i32⟩
  | .local _ .vmem, ⟨19, _⟩ => ⟨S3200x1, .i32⟩
  | .local _ .vmem, ⟨20, _⟩ => ⟨S512x128, .bf16⟩
  | .local _ .vmem, ⟨21, _⟩ => ⟨S512x128, .bf16⟩
  | .local _ .vmem, ⟨22, _⟩ => ⟨S3200x128, .bf16⟩
  | .local _ .vmem, ⟨23, _⟩ => ⟨S3200x128, .bf16⟩
  | .local _ .vmem, ⟨24, _⟩ => ⟨S3200x128, .f32⟩
  | .local _ .vmem, ⟨25, _⟩ => ⟨S1x3200, .i32⟩
  | .local _ .vmem, ⟨26, _⟩ => ⟨S1x3200, .i32⟩
  | .local _ .vmem, ⟨27, _⟩ => ⟨S3200x128, .bf16⟩
  | .local _ .vmem, ⟨28, _⟩ => ⟨S3200x128, .bf16⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S3200x1, .i32⟩
  | .local _ .vmem, ⟨33, _⟩ => ⟨S3200x1, .i32⟩
  | .local _ .vmem, ⟨34, _⟩ => ⟨S512x128, .bf16⟩
  | .local _ .vmem, ⟨35, _⟩ => ⟨S512x128, .bf16⟩
  | .local _ .vmem, ⟨36, _⟩ => ⟨S3200x128, .bf16⟩
  | .local _ .vmem, ⟨37, _⟩ => ⟨S3200x128, .bf16⟩
  | .local _ .vmem, ⟨38, _⟩ => ⟨S3200x128, .f32⟩
  | .local _ .vmem, ⟨39, _⟩ => ⟨S1x3200, .i32⟩
  | .local _ .vmem, ⟨40, _⟩ => ⟨S1x3200, .i32⟩
  | .local _ .vmem, ⟨41, _⟩ => ⟨S3200x128, .bf16⟩
  | .local _ .vmem, ⟨42, _⟩ => ⟨S3200x128, .bf16⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S3200x1, .i32⟩
  | .local _ .vmem, ⟨47, _⟩ => ⟨S3200x1, .i32⟩
  | .local _ .vmem, ⟨48, _⟩ => ⟨S512x128, .bf16⟩
  | .local _ .vmem, ⟨49, _⟩ => ⟨S512x128, .bf16⟩
  | .local _ .vmem, ⟨50, _⟩ => ⟨S3200x128, .bf16⟩
  | .local _ .vmem, ⟨51, _⟩ => ⟨S3200x128, .bf16⟩
  | .local _ .vmem, ⟨52, _⟩ => ⟨S3200x128, .f32⟩
  | .local _ .vmem, ⟨53, _⟩ => ⟨S1x3200, .i32⟩
  | .local _ .vmem, ⟨54, _⟩ => ⟨S1x3200, .i32⟩
  | .local _ .vmem, ⟨55, _⟩ => ⟨S3200x128, .bf16⟩
  | .local _ .vmem, ⟨56, _⟩ => ⟨S3200x128, .bf16⟩
  | .local _ .vmem, ⟨57, _⟩ => ⟨S512x128, .f32⟩
  | .local _ .vmem, ⟨58, _⟩ => ⟨S512x128, .f32⟩
  | .local _ .vmem, ⟨59, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v24 : Ref sig .tc := ⟨.hbm, 47, rfl⟩
abbrev main_c_4 : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_call4_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_v56 : Ref sig .tc := ⟨.hbm, 93, rfl⟩
abbrev main_v57 : Ref sig .tc := ⟨.hbm, 94, rfl⟩
abbrev main_cst_14 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_15 : Ref sig .tc := ⟨.hbm, 101, rfl⟩
abbrev main_call5_v0 : Ref sig .tc := ⟨.hbm, 102, rfl⟩
abbrev main_call5_v1 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_scratch0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_scratch0 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_scratch0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![250, 98], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S3200x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S3200x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![98, 250], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x3200 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S3200x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![250, 98], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S3200x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S3200x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![98, 250], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1x3200 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S3200x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![250, 98], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S3200x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S3200x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![98, 250], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1x3200 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S3200x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

class Facts₀ : Prop where
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  packedbf16_S1000x128_S1000x128_0_0 : (Rect.unit (s := S1000x128) ![0, 0] S1000x128.size inb_S1000x128_S1000x128_0_0).PackedRows (EltTy.packing .bf16)
  pads_S50000x128_S50176x128_01760_000 : S50000x128.Pads (![0, 0] : Fin 2 → Nat) ![176, 0] ![0, 0] S50176x128
  h_S_ : 0 < S_.numel
  shapeCasts_S800000_S800000x1 : S800000.ShapeCasts S800000x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  iota_S3200x512_d1_w32 : S3200x512.Iotas .tc 32 [1]
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  broadcasts_S3200x1_S3200x512 : S3200x1.Broadcasts S3200x512
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  packedbf16_S3200x128_S3200x128_0_0 : (Rect.unit (s := S3200x128) ![0, 0] S3200x128.size inb_S3200x128_S3200x128_0_0).PackedRows (EltTy.packing .bf16)
  shapeCasts_S800000_S1x800000 : S800000.ShapeCasts S1x800000
  iota_S512x3200_d0_w32 : S512x3200.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  slices_S50176x128_S50000x128_0_0 : S50176x128.Slices ![0, 0] S50000x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S1000x128_S128x128_S1000x128_1_0_0_1_n_n_wf : DotDims.WF S1000x128 S128x128 S1000x128 [1] [0] [0] [1] [] []
  dot_S3200x512_S512x128_S3200x128_1_0_0_1_n_n_wf : DotDims.WF S3200x512 S512x128 S3200x128 [1] [0] [0] [1] [] []
  dot_S512x3200_S3200x128_S512x128_1_0_0_1_n_n_wf : DotDims.WF S512x3200 S3200x128 S512x128 [1] [0] [0] [1] [] []
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .bf16 = 32 ∨ (Rect.block (s := S50000x128) S1000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .bf16 = 32 ∨ (Rect.block (s := S50000x128) S1000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S50000x128.size a
  hwx2_3 : ∀ i : grid2.Coords, EltTy.bits .bf16 = 32 ∨ (Rect.block (s := S50000x128) S1000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x1.size a ≤ S800000x1.size a
  hwx3_0 : ∀ i : grid3.Coords, EltTy.bits .i32 = 32 ∨ (Rect.block (s := S800000x1) S3200x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S50176x128.size a
  hwx3_1 : ∀ i : grid3.Coords, EltTy.bits .bf16 = 32 ∨ (Rect.block (s := S50176x128) S512x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3200x128.size a ≤ S800000x128.size a
  hwx3_2 : ∀ i : grid3.Coords, EltTy.bits .bf16 = 32 ∨ (Rect.block (s := S800000x128) S3200x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x3200.size a ≤ S1x800000.size a
  hwx4_0 : ∀ i : grid4.Coords, EltTy.bits .i32 = 32 ∨ (Rect.block (s := S1x800000) S1x3200.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x128.size a ≤ S800000x128.size a
  hwx4_1 : ∀ i : grid4.Coords, EltTy.bits .bf16 = 32 ∨ (Rect.block (s := S800000x128) S3200x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S50176x128.size a
  hwx4_2 : ∀ i : grid4.Coords, EltTy.bits .f32 = 32 ∨ (Rect.block (s := S50176x128) S512x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3200x1.size a ≤ S800000x1.size a
  hwx5_0 : ∀ i : grid5.Coords, EltTy.bits .i32 = 32 ∨ (Rect.block (s := S800000x1) S3200x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S50176x128.size a
  hwx5_1 : ∀ i : grid5.Coords, EltTy.bits .bf16 = 32 ∨ (Rect.block (s := S50176x128) S512x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S3200x128.size a ≤ S800000x128.size a
  hwx5_2 : ∀ i : grid5.Coords, EltTy.bits .bf16 = 32 ∨ (Rect.block (s := S800000x128) S3200x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x3200.size a ≤ S1x800000.size a
  hwx6_0 : ∀ i : grid6.Coords, EltTy.bits .i32 = 32 ∨ (Rect.block (s := S1x800000) S1x3200.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3200x128.size a ≤ S800000x128.size a
  hwx6_1 : ∀ i : grid6.Coords, EltTy.bits .bf16 = 32 ∨ (Rect.block (s := S800000x128) S3200x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S50176x128.size a
  hwx6_2 : ∀ i : grid6.Coords, EltTy.bits .f32 = 32 ∨ (Rect.block (s := S50176x128) S512x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3200x1.size a ≤ S800000x1.size a
  hwx7_0 : ∀ i : grid7.Coords, EltTy.bits .i32 = 32 ∨ (Rect.block (s := S800000x1) S3200x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x128.size a ≤ S50176x128.size a
  hwx7_1 : ∀ i : grid7.Coords, EltTy.bits .bf16 = 32 ∨ (Rect.block (s := S50176x128) S512x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S3200x128.size a ≤ S800000x128.size a
  hwx7_2 : ∀ i : grid7.Coords, EltTy.bits .bf16 = 32 ∨ (Rect.block (s := S800000x128) S3200x128.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x3200.size a ≤ S1x800000.size a
  hwx8_0 : ∀ i : grid8.Coords, EltTy.bits .i32 = 32 ∨ (Rect.block (s := S1x800000) S1x3200.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S3200x128.size a ≤ S800000x128.size a
  hwx8_1 : ∀ i : grid8.Coords, EltTy.bits .bf16 = 32 ∨ (Rect.block (s := S800000x128) S3200x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x128.size a ≤ S50176x128.size a
  hwx8_2 : ∀ i : grid8.Coords, EltTy.bits .f32 = 32 ∨ (Rect.block (s := S50176x128) S512x128.size (cc8_transform_2 i) (hinb8_2 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S3200x512_S512x128_S3200x128_1_0_0_1_n_n : DotDims S3200x512 S512x128 S3200x128 where
  lhsContracting := [1]
  rhsContracting := [0]
  lhsNonContracting := [0]
  rhsNonContracting := [1]
  lhsBatch := []
  rhsBatch := []
  wf := dot_S3200x512_S512x128_S3200x128_1_0_0_1_n_n_wf
def dot_S512x3200_S3200x128_S512x128_1_0_0_1_n_n : DotDims S512x3200 S3200x128 S512x128 where
  lhsContracting := [1]
  rhsContracting := [0]
  lhsNonContracting := [0]
  rhsNonContracting := [1]
  lhsBatch := []
  rhsBatch := []
  wf := dot_S512x3200_S3200x128_S512x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S3200x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S3200x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v9) S1x3200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S3200x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S512x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v26) S3200x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S512x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S3200x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v28) S1x3200.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S3200x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S512x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v46) S3200x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v45) S512x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v47) S3200x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v48) S1x3200.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v47) S3200x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v49) S512x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x50000x128 : Shape := ⟨3, ![1, 50000, 128]⟩
abbrev S2x50000x128 : Shape := ⟨3, ![2, 50000, 128]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S800000, .i32⟩
  | 7 => ⟨S800000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S50000x1, .f32⟩
  | 46 => ⟨S_, .f32⟩
  | 47 => ⟨S50000x1, .f32⟩
  | 48 => ⟨S50000x1, .i1⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S_, .f32⟩
  | 56 => ⟨S50000x128, .i1⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S50000x1, .f32⟩
  | 79 => ⟨S_, .f32⟩
  | 80 => ⟨S50000x1, .f32⟩
  | 81 => ⟨S50000x1, .i1⟩
  | 82 => ⟨S_, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S_, .f32⟩
  | 89 => ⟨S50000x128, .i1⟩
  | 90 => ⟨S50000x128, .f32⟩
  | 91 => ⟨S50000x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S_, .f32⟩
  | 107 => ⟨S800000, .f32⟩
  | 108 => ⟨S_, .f32⟩
  | 109 => ⟨S50000, .f32⟩
  | 110 => ⟨S800000x1, .i32⟩
  | 111 => ⟨S50000, .f32⟩
  | 112 => ⟨S50000x1, .f32⟩
  | 113 => ⟨S_, .f32⟩
  | 114 => ⟨S50000x1, .f32⟩
  | 115 => ⟨S50000x1, .i1⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S_, .f32⟩
  | 123 => ⟨S50000x128, .i1⟩
  | 124 => ⟨S50000x128, .f32⟩
  | 125 => ⟨S50000x128, .f32⟩
  | 126 => ⟨S1x50000x128, .f32⟩
  | 127 => ⟨S1x50000x128, .f32⟩
  | _ => ⟨S50000x128, .f32⟩

abbrev hbmTy0_1 (i : Nat) : BufTy := match i % 128 with
  | 0 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_v57 : Ref sig .tc := ⟨.hbm, 91, rfl⟩
abbrev main_v58 : Ref sig .tc := ⟨.hbm, 92, rfl⟩
abbrev main_c_14 : Ref sig .tc := ⟨.hbm, 93, rfl⟩
abbrev main_v59 : Ref sig .tc := ⟨.hbm, 94, rfl⟩
abbrev main_v60 : Ref sig .tc := ⟨.hbm, 95, rfl⟩
abbrev main_c_15 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_19 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_21 : Ref sig .tc := ⟨.hbm, 122, rfl⟩
abbrev main_call2_v0 : Ref sig .tc := ⟨.hbm, 123, rfl⟩
abbrev main_call2_v1 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KI.Lin0Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Linear layer, region 0: the contents each grid point leaves, a 1000-row block of h · w + b.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0__linear_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

end Cert.KernelIdeal.Gen

end
-- ==== Proof.KI.Lin0.lean ====
import proofs.«425335_j13013750907176_1_alg».proof.Proof.KI.Lin0Defs
import Idealize.ShloMosaic.Lib.Pipeline.Value

-- Linear layer, region 0: one grid point's run writes its block of h · w + b and changes nothing else.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

private theorem hz0 : (![0, 0] : Fin 2 → Nat) = fun _ => 0 := funext fun a => by fin_cases a <;> rfl

private abbrev r0_0 : Rect S1000x128 := Rect.unit (s := S1000x128) ![0, 0] S1000x128.size inb_S1000x128_S1000x128_0_0

theorem cover0_3 (p0 : Vec F S1000x128 .bf16) (y : S1000x128.Idx) :
    ∃ pc ∈ ([⟨r0_0, p0⟩] : List (View.Piece (Elt F) S1000x128 .bf16)), y ∈ pc.1.set :=
  View.cover_of_tiled [⟨r0_0, p0⟩] S1000x128.size (by rfl) y

set_option maxHeartbeats 1000000 in
theorem sound_kernel0 (c : Dev nD) (E : Set ℕ) (i : grid0.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1000x128 .bf16) (harg4 : arg4.IsWhole)
    (x0 : Vec F S1000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero hz0]
  simp only [View.readAt_eq_ld, View.ld_unit_zero (S := S1000x128) hz0, View.ld_unit_zero (S := S128x128) hz0,
    View.ld_unit_zero (S := S1x128) hz0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Gen

end
-- ==== Proof.KI.Lin1Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Linear layer, region 1: the contents each grid point leaves, a 1000-row block of h · w + b.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1__linear_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

end Cert.KernelIdeal.Gen

end
-- ==== Proof.Verbatim.lean ====
import Lean

-- Closes the goal with the given term as it stands: that its statement is the goal's is decided when the theorem is added.
open Lean Elab Tactic in
elab "exact_verbatim " t:term : tactic => do
  let g ← getMainGoal
  g.withContext do g.assign (← instantiateMVars (← Term.elabTermAndSynthesize t none))
-- ==== Proof.KI.Lin1.lean ====
import proofs.«425335_j13013750907176_1_alg».proof.Proof.KI.Lin1Defs
import proofs.«425335_j13013750907176_1_alg».proof.Proof.KI.Lin0
import proofs.«425335_j13013750907176_1_alg».proof.Proof.Verbatim
import Idealize.ShloMosaic.Lib.Pipeline.Value

-- Linear layer, region 1: one grid point's run writes its block of h · w + b and changes nothing else.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem sound_kernel1 (c : Dev nD) (E : Set ℕ) (i : grid1.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1000x128 .bf16) (harg4 : arg4.IsWhole)
    (x0 : Vec F S1000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E (cc1__linear_kernel i arg1 harg1 arg2 harg2 arg3 harg3 arg4 harg4) K := by
  exact_verbatim sound_kernel0 c E i arg1 harg1 arg2 harg2 arg3 harg3 arg4 harg4 x0 x1 x2 K

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.KernelIdeal.Gen

end
-- ==== Proof.KI.Lin2Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Linear layer, region 2: the contents each grid point leaves, a 1000-row block of h · w + b.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev bodyAt2 (t : Fin cfg2.N) : Prog (TpuEff nD τ sig (Elt F) Λ₀ .tc) PUnit :=
  cc2__linear_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]

end Cert.KernelIdeal.Gen

end
-- ==== Proof.KI.Lin2.lean ====
import proofs.«425335_j13013750907176_1_alg».proof.Proof.KI.Lin2Defs
import proofs.«425335_j13013750907176_1_alg».proof.Proof.KI.Lin0
import proofs.«425335_j13013750907176_1_alg».proof.Proof.Verbatim
import Idealize.ShloMosaic.Lib.Pipeline.Value

-- Linear layer, region 2: one grid point's run writes its block of h · w + b and changes nothing else.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem sound_kernel2 (c : Dev nD) (E : Set ℕ) (i : grid2.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1000x128 .bf16) (harg4 : arg4.IsWhole)
    (x0 : Vec F S1000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x0 x1 x2)) -∗ K ⟨⟩))
      ⊢ wp frame (wpE (defs₀ (F := F)) Variants.none c none) E (cc2__linear_kernel i arg1 harg1 arg2 harg2 arg3 harg3 arg4 harg4) K := by
  exact_verbatim sound_kernel0 c E i arg1 harg1 arg2 harg2 arg3 harg3 arg4 harg4 x0 x1 x2 K

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.Gen

end
-- ==== Proof.KI.Gat3Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Gather, region 3: the running sum over the node blocks, restarted at node block 0.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev bodyAt3 (t : Fin cfg3.N) : Prog (TpuEff nD τ sig (Elt F) Λ₀ .tc) PUnit :=
  cc3__gather_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S3200x128 .f32 := Memref.whole cc3_scratch0

def acc3 (c : Dev nD) : (n : ℕ) → n < cfg3.N → Vec F S3200x128 .f32
  | 0, hn => k3_pay2 (grid3.coords ⟨0, hn⟩) (iblk3 V c 0 ⟨0, hn⟩) (k3_pay1 (F := F)) (iblk3 V c 1 ⟨0, hn⟩)
  | n + 1, hn =>
    if (n + 1) % 98 = 0 then
      k3_pay2 (grid3.coords ⟨n + 1, hn⟩) (iblk3 V c 0 ⟨n + 1, hn⟩) (k3_pay1 (F := F)) (iblk3 V c 1 ⟨n + 1, hn⟩)
    else
      k3_pay2 (grid3.coords ⟨n + 1, hn⟩) (iblk3 V c 0 ⟨n + 1, hn⟩) (acc3 c n (Nat.lt_of_succ_lt hn)) (iblk3 V c 1 ⟨n + 1, hn⟩)

theorem acc3_reset (c : Dev nD) (t : Fin cfg3.N) (h0 : t.val % 98 = 0) :
    acc3 V c t.val t.isLt = k3_pay2 (grid3.coords t) (iblk3 V c 0 t) (k3_pay1 (F := F)) (iblk3 V c 1 t) := by
  obtain ⟨n, hn⟩ := t
  cases n with
  | zero => rfl
  | succ n => exact (if_pos h0).trans rfl

theorem acc3_step (c : Dev nD) (t : Fin cfg3.N) (h0 : ¬t.val % 98 = 0) :
    acc3 V c t.val t.isLt = k3_pay2 (grid3.coords t) (iblk3 V c 0 t)
      (acc3 V c (t.val - 1) (Nat.lt_of_le_of_lt (Nat.sub_le _ _) t.isLt)) (iblk3 V c 1 t) := by
  obtain ⟨n, hn⟩ := t
  cases n with
  | zero => exact absurd (Nat.zero_mod _) h0
  | succ n => exact (if_neg h0).trans rfl

def PhiS3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

theorem PhiS3_pos (c : Dev nD) (n : ℕ) (h : n ≤ cfg3.N) (hz : n ≠ 0) :
    PhiS3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (acc3 V c t.val t.isLt) := by dsimp only [dat3]

theorem Phi3_castSucc (c : Dev nD) (t : Fin cfg3.N) :
    (dat3 V c).Φ t.castSucc = PhiS3 V c t.val (Nat.le_of_lt t.isLt) := by
  dsimp only [dat3]; simp only [Fin.coe_castSucc]

theorem Phi3_succ (c : Dev nD) (t : Fin cfg3.N) :
    (dat3 V c).Φ t.succ = PhiS3 V c (t.val + 1) t.isLt := rfl

end Cert.KernelIdeal.Gen

end
-- ==== Proof.KI.Gat3.lean ====
import proofs.«425335_j13013750907176_1_alg».proof.Proof.KI.Gat3Defs
import Idealize.ShloMosaic.Lib.Pipeline.Value

-- Gather, region 3: one grid point adds its one-hot product to the running sum (to zero at node block 0).

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

abbrev cond3 (i : grid3.Coords) : Prop :=
  (Scalar.cmpi .ne (Scalar.extui (Scalar.cmpi .eq (BitVec.ofNat 32 (i 1).val) 0#32)) 0#32) = 1#1

private theorem cond3_axis (t : Fin cfg3.N) : ((grid3.coords t) 1).val = t.val % 98 := by
  show t.val / grid3.stride 1 % grid3.bound 1 = t.val % 98
  rw [show grid3.stride 1 = 1 from by decide, show grid3.bound 1 = 98 from rfl, Nat.div_one]

private theorem cond_block : ∀ j : Fin 98,
    (Scalar.cmpi .ne (Scalar.extui (Scalar.cmpi .eq (BitVec.ofNat 32 j.val) 0#32)) 0#32) = 1#1 ↔ j.val = 0 := by
  decide +kernel

theorem hcond3 : ∀ t : Fin cfg3.N, cond3 (grid3.coords t) ↔ t.val % 98 = 0 := fun t =>
  (cond_block (grid3.coords t 1)).trans (by rw [cond3_axis])

private theorem hz3 : (![0, 0] : Fin 2 → Nat) = fun _ => 0 := funext fun a => by fin_cases a <;> rfl

private theorem readCov_last {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

set_option maxHeartbeats 4000000 in
theorem sound_kernel3_reset (c : Dev nD) (E : Set ℕ) (i : grid3.Coords)
    (arg2 : Memref sig .tc .vmem S3200x1 .i32) (harg2 : arg2.IsWhole)
    (arg3 : Memref sig .tc .vmem S512x128 .bf16) (harg3 : arg3.IsWhole)
    (arg4 : Memref sig .tc .vmem S3200x128 .bf16) (harg4 : arg4.IsWhole)
    (arg5 : Memref sig .tc .vmem S3200x128 .f32) (harg5 : arg5.IsWhole)
    (hc : cond3 i) (x0 : Vec F S3200x1 .i32) (x1 : Vec F S512x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k3_pay3 (k3_pay2 i x0 (k3_pay1 (F := F)) x1))
            ∗ owns (c : Thread nD τ) arg5 fullShare (k3_pay2 i x0 (k3_pay1 (F := F)) x1)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S3200x128_S3200x128_0_0 y⟩),
      View.canon_unit_zero (S := S3200x128) hz3]
    sl_unfold_run_names
    simp only [View.readAt_eq_ld, View.ld_unit_zero (S := S3200x1) hz3, View.ld_unit_zero (S := S512x128) hz3,
      View.ld_unit_zero (S := S3200x128) hz3, View.readCov_unit_zero (S := S3200x128) _ hz3, readCov_last (S := S3200x128) _ hz3]
  · iexists _; isplitr
    swap; · iexact H3
    ipureintro
    sl_unfold_run_names
    rw [View.read_writes_eq_canon _ _ _ (fun y => ⟨_, List.mem_cons_self .., View.mem_set_unit_zero hz3 inb_S3200x128_S3200x128_0_0 y⟩),
      View.canon_cons_unit_zero (S := S3200x128) hz3]
    simp only [View.readAt_eq_ld, View.ld_unit_zero (S := S3200x1) hz3, View.ld_unit_zero (S := S512x128) hz3,
      View.ld_unit_zero (S := S3200x128) hz3, View.readCov_unit_zero (S := S3200x128) _ hz3, readCov_last (S := S3200x128) _ hz3]

set_option maxHeartbeats 4000000 in
theorem sound_kernel3_step (c : Dev nD) (E : Set ℕ) (i : grid3.Coords)
    (arg2 : Memref sig .tc .vmem S3200x1 .i32) (harg2 : arg2.IsWhole)
    (arg3 : Memref sig .tc .vmem S512x128 .bf16) (harg3 : arg3.IsWhole)
    (arg4 : Memref sig .tc .vmem S3200x128 .bf16) (harg4 : arg4.IsWhole)
    (arg5 : Memref sig .tc .vmem S3200x128 .f32) (harg5 : arg5.IsWhole)
    (hc : ¬cond3 i) (x0 : Vec F S3200x1 .i32) (x1 : Vec F S512x128 .bf16) (xs : Vec F S3200x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k3_pay3 (k3_pay2 i x0 xs x1))
            ∗ owns (c : Thread nD τ) arg5 fullShare (k3_pay2 i x0 xs x1)) -∗ K ⟨⟩))
      ⊢ wp frame (wpE (defs₀ (F := F)) Variants.none c none) E (cc3__gather_kernel i arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz3 inb_S3200x128_S3200x128_0_0 y⟩),
      View.canon_unit_zero (S := S3200x128) hz3]
    sl_unfold_run_names
    simp only [View.readAt_eq_ld, View.ld_unit_zero (S := S3200x1) hz3, View.ld_unit_zero (S := S512x128) hz3,
      View.ld_unit_zero (S := S3200x128) hz3, View.readCov_unit_zero (S := S3200x128) _ hz3, readCov_last (S := S3200x128) _ hz3]
  · iexists _; isplitr
    swap; · iexact H3
    ipureintro
    sl_unfold_run_names
    rw [View.read_writes_eq_canon _ _ _ (fun y => ⟨_, List.mem_cons_self .., View.mem_set_unit_zero hz3 inb_S3200x128_S3200x128_0_0 y⟩),
      View.canon_cons_unit_zero (S := S3200x128) hz3]
    simp only [View.readAt_eq_ld, View.ld_unit_zero (S := S3200x1) hz3, View.ld_unit_zero (S := S512x128) hz3,
      View.ld_unit_zero (S := S3200x128) hz3, View.readCov_unit_zero (S := S3200x128) _ hz3, readCov_last (S := S3200x128) _ hz3]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    Phi3_succ, PhiS3_succ, after3_0, after3_1, after3_2, Phi3_castSucc]
  by_cases h0 : t.val % 98 = 0
  · rw [acc3_reset V c t h0]
    by_cases hz : t.val = 0
    · rw [PhiS3_zero V c _ _ hz, PhiA3_eq]
      iintro ⟨⟨⟨HS, Hrest⟩, Hg⟩, Ho, ⟨%d0, H0⟩, ⟨%d1, H1⟩, ⟨%d2, H2⟩⟩
      iapply (sound_kernel3_reset c Set.univ (grid3.coords t) _ _ _ _ _ _ _ _ ((hcond3 t).mpr h0) (iblk3 V c 0 t) (iblk3 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
    · rw [PhiS3_pos V c _ _ hz]
      iintro ⟨⟨HS, Hrest, Hg⟩, Ho, ⟨%d0, H0⟩, ⟨%d1, H1⟩, ⟨%d2, H2⟩⟩
      iapply (sound_kernel3_reset c Set.univ (grid3.coords t) _ _ _ _ _ _ _ _ ((hcond3 t).mpr h0) (iblk3 V c 0 t) (iblk3 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
  · rw [acc3_step V c t h0]
    have hz : t.val ≠ 0 := fun h => h0 (by rw [h])
    rw [PhiS3_pos V c _ _ hz]
    iintro ⟨⟨HS, Hrest, Hg⟩, Ho, ⟨%d0, H0⟩, ⟨%d1, H1⟩, ⟨%d2, H2⟩⟩
    iapply (sound_kernel3_step c Set.univ (grid3.coords t) _ _ _ _ _ _ _ _ (fun h => h0 ((hcond3 t).mp h)) (iblk3 V c 0 t) (iblk3 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 24500 := N_3; omega), PhiA3_eq]
  iintro ⟨HS, Hrest, Hg⟩
  isplitl [HS Hrest]
  · isplitl [HS]; · iexists _; iexact HS
    iexact Hrest
  iexact Hg

end Cert.KernelIdeal.Gen

end
-- ==== Proof.KI.Sca4Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Scatter, region 4: the running sum over the edge blocks, restarted at edge block 0.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev bodyAt4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S512x128 .f32 := Memref.whole cc4_scratch0

def acc4 (c : Dev nD) : (n : ℕ) → n < cfg4.N → Vec F S512x128 .f32
  | 0, hn => k4_pay2 (grid4.coords ⟨0, hn⟩) (iblk4 V c 0 ⟨0, hn⟩) (k4_pay1 (F := F)) (iblk4 V c 1 ⟨0, hn⟩)
  | n + 1, hn =>
    if (n + 1) % 250 = 0 then
      k4_pay2 (grid4.coords ⟨n + 1, hn⟩) (iblk4 V c 0 ⟨n + 1, hn⟩) (k4_pay1 (F := F)) (iblk4 V c 1 ⟨n + 1, hn⟩)
    else
      k4_pay2 (grid4.coords ⟨n + 1, hn⟩) (iblk4 V c 0 ⟨n + 1, hn⟩) (acc4 c n (Nat.lt_of_succ_lt hn)) (iblk4 V c 1 ⟨n + 1, hn⟩)

theorem acc4_reset (c : Dev nD) (t : Fin cfg4.N) (h0 : t.val % 250 = 0) :
    acc4 V c t.val t.isLt = k4_pay2 (grid4.coords t) (iblk4 V c 0 t) (k4_pay1 (F := F)) (iblk4 V c 1 t) := by
  obtain ⟨n, hn⟩ := t
  cases n with
  | zero => rfl
  | succ n => exact (if_pos h0).trans rfl

theorem acc4_step (c : Dev nD) (t : Fin cfg4.N) (h0 : ¬t.val % 250 = 0) :
    acc4 V c t.val t.isLt = k4_pay2 (grid4.coords t) (iblk4 V c 0 t)
      (acc4 V c (t.val - 1) (Nat.lt_of_le_of_lt (Nat.sub_le _ _) t.isLt)) (iblk4 V c 1 t) := by
  obtain ⟨n, hn⟩ := t
  cases n with
  | zero => exact absurd (Nat.zero_mod _) h0
  | succ n => exact (if_neg h0).trans rfl

def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

theorem PhiS4_pos (c : Dev nD) (n : ℕ) (h : n ≤ cfg4.N) (hz : n ≠ 0) :
    PhiS4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem Phi4_castSucc (c : Dev nD) (t : Fin cfg4.N) :
    (dat4 V c).Φ t.castSucc = PhiS4 V c t.val (Nat.le_of_lt t.isLt) := by
  dsimp only [dat4]; simp only [Fin.coe_castSucc]

theorem Phi4_succ (c : Dev nD) (t : Fin cfg4.N) :
    (dat4 V c).Φ t.succ = PhiS4 V c (t.val + 1) t.isLt := rfl

end Cert.KernelIdeal.Gen

end
-- ==== Proof.KI.Sca4.lean ====
import proofs.«425335_j13013750907176_1_alg».proof.Proof.KI.Sca4Defs
import Idealize.ShloMosaic.Lib.Pipeline.Value

-- Scatter, region 4: one grid point adds its one-hot product to the running sum (to zero at edge block 0).

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4 (i : grid4.Coords) : Prop :=
  (Scalar.cmpi .ne (Scalar.extui (Scalar.cmpi .eq (BitVec.ofNat 32 (i 1).val) 0#32)) 0#32) = 1#1

theorem cond4_word : ∀ j : Fin 250,
    (Scalar.cmpi .ne (Scalar.extui (Scalar.cmpi .eq (BitVec.ofNat 32 j.val) 0#32)) 0#32) = 1#1 ↔ j.val = 0 := by
  decide +kernel

theorem hcond4 : ∀ t : Fin cfg4.N, cond4 (grid4.coords t) ↔ t.val % 250 = 0 := fun t => by
  have h1 : ((grid4.coords t) 1).val = t.val % 250 := by
    show t.val / grid4.stride 1 % grid4.bound 1 = t.val % 250
    rw [show grid4.stride 1 = 1 from by decide, Nat.div_one]; rfl
  exact (cond4_word ((grid4.coords t) 1)).trans (by rw [h1])

theorem hz4 : (![0, 0] : Fin 2 → Nat) = fun _ => 0 := funext fun a => by fin_cases a <;> rfl

theorem hz4_cons {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

set_option maxHeartbeats 1000000 in
theorem sound_kernel4_reset (c : Dev nD) (E : Set ℕ) (i : grid4.Coords)
    (arg2 : Memref sig .tc .vmem S1x3200 .i32) (harg2 : arg2.IsWhole) (arg3 : Memref sig .tc .vmem S3200x128 .bf16) (harg3 : arg3.IsWhole)
    (arg4 : Memref sig .tc .vmem S512x128 .f32) (harg4 : arg4.IsWhole) (arg5 : Memref sig .tc .vmem S512x128 .f32) (harg5 : arg5.IsWhole)
    (hc : cond4 i) (x0 : Vec F S1x3200 .i32) (x1 : Vec F S3200x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k4_pay2 i x0 (k4_pay1 (F := F)) x1)
            ∗ owns (c : Thread nD τ) arg5 fullShare (k4_pay2 i x0 (k4_pay1 (F := F)) x1)) -∗ K ⟨⟩))
      ⊢ wp frame (wpE (defs₀ (F := F)) Variants.none c none) E (cc4__scatter_kernel i arg2 harg2 arg3 harg3 arg4 harg4 arg5 harg5) K := by
  simp only [cc4__scatter_kernel_eq_skeleton]; unfold cc4__scatter_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro

    rw [View.read_writes_eq_canon _ _ _ (fun y => ⟨_, List.mem_cons.mpr (Or.inl rfl), View.mem_set_unit_zero hz4 inb_S512x128_S512x128_0_0 y⟩), View.canon_cons_unit_zero hz4]
    sl_unfold_run_names
    rw [hz4_cons _ hz4, hz4_cons _ hz4]
    simp only [View.readAt_eq_ld, View.ld_unit_zero (S := S1x3200) hz4, View.ld_unit_zero (S := S3200x128) hz4]
  iexists _; isplitr
  swap; · iexact H3
  ipureintro

  sl_unfold_run_names
  rw [View.read_writes_eq_canon _ _ _ (fun y => ⟨_, List.mem_cons.mpr (Or.inl rfl), View.mem_set_unit_zero hz4 inb_S512x128_S512x128_0_0 y⟩), View.canon_cons_unit_zero hz4, hz4_cons _ hz4]
  simp only [View.readAt_eq_ld, View.ld_unit_zero (S := S1x3200) hz4, View.ld_unit_zero (S := S3200x128) hz4]

set_option maxHeartbeats 1000000 in
theorem sound_kernel4_step (c : Dev nD) (E : Set ℕ) (i : grid4.Coords)
    (arg2 : Memref sig .tc .vmem S1x3200 .i32) (harg2 : arg2.IsWhole) (arg3 : Memref sig .tc .vmem S3200x128 .bf16) (harg3 : arg3.IsWhole)
    (arg4 : Memref sig .tc .vmem S512x128 .f32) (harg4 : arg4.IsWhole) (arg5 : Memref sig .tc .vmem S512x128 .f32) (harg5 : arg5.IsWhole)
    (hc : ¬cond4 i) (x0 : Vec F S1x3200 .i32) (xs : Vec F S512x128 .f32) (x1 : Vec F S3200x128 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k4_pay2 i x0 xs x1)
            ∗ owns (c : Thread nD τ) arg5 fullShare (k4_pay2 i x0 xs x1)) -∗ K ⟨⟩))
      ⊢ wp frame (wpE (defs₀ (F := F)) Variants.none c none) E (cc4__scatter_kernel i arg2 harg2 arg3 harg3 arg4 harg4 arg5 harg5) K := by
  simp only [cc4__scatter_kernel_eq_skeleton]; unfold cc4__scatter_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro

    rw [View.read_writes_eq_canon _ _ _ (fun y => ⟨_, List.mem_cons.mpr (Or.inl rfl), View.mem_set_unit_zero hz4 inb_S512x128_S512x128_0_0 y⟩), View.canon_cons_unit_zero hz4]
    sl_unfold_run_names
    rw [hz4_cons _ hz4]
    simp only [View.readAt_eq_ld, View.ld_unit_zero (S := S1x3200) hz4, View.ld_unit_zero (S := S3200x128) hz4,
      View.ld_unit_zero (S := S512x128) hz4]
  iexists _; isplitr
  swap; · iexact H3
  ipureintro

  sl_unfold_run_names
  rw [View.read_writes_eq_canon _ _ _ (fun y => ⟨_, List.mem_cons.mpr (Or.inl rfl), View.mem_set_unit_zero hz4 inb_S512x128_S512x128_0_0 y⟩), View.canon_cons_unit_zero hz4]
  simp only [View.readAt_eq_ld, View.ld_unit_zero (S := S1x3200) hz4, View.ld_unit_zero (S := S3200x128) hz4,
    View.ld_unit_zero (S := S512x128) hz4]

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    Phi4_succ, PhiS4_succ, after4_0, after4_1, after4_2, Phi4_castSucc]
  by_cases h0 : t.val % 250 = 0
  · rw [acc4_reset V c t h0]
    by_cases hz : t.val = 0
    · rw [PhiS4_zero V c _ _ hz, PhiA4_eq]
      iintro ⟨⟨⟨⟨%ds, HS⟩, HR⟩, Hg⟩, Ho, ⟨%d0, H0⟩, ⟨%d1, H1⟩, ⟨%d2, H2⟩⟩
      iapply (sound_kernel4_reset c Set.univ (grid4.coords t) _ _ _ _ _ _ _ _ ((hcond4 t).mpr h0) (iblk4 V c 0 t) (iblk4 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS4_pos V c _ _ hz]
      iintro ⟨⟨HS, HR, Hg⟩, Ho, ⟨%d0, H0⟩, ⟨%d1, H1⟩, ⟨%d2, H2⟩⟩
      iapply (sound_kernel4_reset c Set.univ (grid4.coords t) _ _ _ _ _ _ _ _ ((hcond4 t).mpr h0) (iblk4 V c 0 t) (iblk4 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · rw [acc4_step V c t h0]
    have hz : t.val ≠ 0 := fun e => h0 (by rw [e])
    rw [PhiS4_pos V c _ _ hz]
    iintro ⟨⟨HS, HR, Hg⟩, Ho, ⟨%d0, H0⟩, ⟨%d1, H1⟩, ⟨%d2, H2⟩⟩
    iapply (sound_kernel4_step c Set.univ (grid4.coords t) _ _ _ _ _ _ _ _ (fun h => h0 ((hcond4 t).mp h)) (iblk4 V c 0 t)
      (acc4 V c (t.val - 1) (Nat.lt_of_le_of_lt (Nat.sub_le _ _) t.isLt)) (iblk4 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]

theorem hout4 (c : Dev nD) : (dat4 V c).Φ (Fin.last cfg4.N) ⊢ (Pipeline.ΦA spec4 c : sProp 𝕄) := by
  have hN : cfg4.N = 24500 := N_4
  have ht : (Fin.last cfg4.N).val ≠ 0 := by rw [Fin.val_last]; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨HS, HR, Hg⟩
  isplitl [HS HR]
  · isplitl [HS]; · iexists _; iexact HS
    iexact HR
  iexact Hg

end Cert.KernelIdeal.Gen

end
-- ==== Proof.KI.Gat5Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Gather, region 5: the running sum over the node blocks, restarted at node block 0.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev bodyAt5 (t : Fin cfg5.N) : Prog (TpuEff nD τ sig (Elt F) Λ₀ .tc) PUnit :=
  cc5__gather_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (Memref.whole cc5_scratch0) (Memref.isWhole_whole _)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S3200x128 .f32 := Memref.whole cc5_scratch0

def acc5 (c : Dev nD) : (n : ℕ) → n < cfg5.N → Vec F S3200x128 .f32
  | 0, hn => k5_pay2 (grid5.coords ⟨0, hn⟩) (iblk5 V c 0 ⟨0, hn⟩) (k5_pay1 (F := F)) (iblk5 V c 1 ⟨0, hn⟩)
  | n + 1, hn =>
    if (n + 1) % 98 = 0 then
      k5_pay2 (grid5.coords ⟨n + 1, hn⟩) (iblk5 V c 0 ⟨n + 1, hn⟩) (k5_pay1 (F := F)) (iblk5 V c 1 ⟨n + 1, hn⟩)
    else
      k5_pay2 (grid5.coords ⟨n + 1, hn⟩) (iblk5 V c 0 ⟨n + 1, hn⟩) (acc5 c n (Nat.lt_of_succ_lt hn)) (iblk5 V c 1 ⟨n + 1, hn⟩)

theorem acc5_reset (c : Dev nD) (t : Fin cfg5.N) (h0 : t.val % 98 = 0) :
    acc5 V c t.val t.isLt = k5_pay2 (grid5.coords t) (iblk5 V c 0 t) (k5_pay1 (F := F)) (iblk5 V c 1 t) := by
  obtain ⟨n, hn⟩ := t
  cases n with
  | zero => rfl
  | succ n => exact (if_pos h0).trans rfl

theorem acc5_step (c : Dev nD) (t : Fin cfg5.N) (h0 : ¬t.val % 98 = 0) :
    acc5 V c t.val t.isLt = k5_pay2 (grid5.coords t) (iblk5 V c 0 t)
      (acc5 V c (t.val - 1) (Nat.lt_of_le_of_lt (Nat.sub_le _ _) t.isLt)) (iblk5 V c 1 t) := by
  obtain ⟨n, hn⟩ := t
  cases n with
  | zero => exact absurd (Nat.zero_mod _) h0
  | succ n => exact (if_neg h0).trans rfl

def PhiS5 (c : Dev nD) : (n : ℕ) → n ≤ cfg5.N → sProp 𝕄
  | 0, _ => Pipeline.ΦA spec5 c
  | n + 1, hn => iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (acc5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (acc5 V c t.val t.isLt) := by dsimp only [dat5]

theorem Phi5_castSucc (c : Dev nD) (t : Fin cfg5.N) :
    (dat5 V c).Φ t.castSucc = PhiS5 V c t.val (Nat.le_of_lt t.isLt) := by
  dsimp only [dat5]; simp only [Fin.coe_castSucc]

theorem Phi5_succ (c : Dev nD) (t : Fin cfg5.N) :
    (dat5 V c).Φ t.succ = PhiS5 V c (t.val + 1) t.isLt := rfl

end Cert.KernelIdeal.Gen

end
-- ==== Proof.KI.Gat5.lean ====
import proofs.«425335_j13013750907176_1_alg».proof.Proof.KI.Gat5Defs
import proofs.«425335_j13013750907176_1_alg».proof.Proof.KI.Gat3
import proofs.«425335_j13013750907176_1_alg».proof.Proof.Verbatim
import Idealize.ShloMosaic.Lib.Pipeline.Value

-- Gather, region 5: one grid point adds its one-hot product to the running sum (to zero at node block 0).

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

abbrev cond5 (i : grid5.Coords) : Prop :=
  (Scalar.cmpi .ne (Scalar.extui (Scalar.cmpi .eq (BitVec.ofNat 32 (i 1).val) 0#32)) 0#32) = 1#1

theorem hcond5 : ∀ t : Fin cfg5.N, cond5 (grid5.coords t) ↔ t.val % 98 = 0 := by
  exact_verbatim hcond3

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

theorem sound_kernel5_reset (c : Dev nD) (E : Set ℕ) (i : grid5.Coords)
    (arg2 : Memref sig .tc .vmem S3200x1 .i32) (harg2 : arg2.IsWhole)
    (arg3 : Memref sig .tc .vmem S512x128 .bf16) (harg3 : arg3.IsWhole)
    (arg4 : Memref sig .tc .vmem S3200x128 .bf16) (harg4 : arg4.IsWhole)
    (arg5 : Memref sig .tc .vmem S3200x128 .f32) (harg5 : arg5.IsWhole)
    (hc : cond5 i) (x0 : Vec F S3200x1 .i32) (x1 : Vec F S512x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k5_pay3 (k5_pay2 i x0 (k5_pay1 (F := F)) x1))
            ∗ owns (c : Thread nD τ) arg5 fullShare (k5_pay2 i x0 (k5_pay1 (F := F)) x1)) -∗ K ⟨⟩))
      ⊢ wp frame (wpE (defs₀ (F := F)) Variants.none c none) E (cc5__gather_kernel i arg2 harg2 arg3 harg3 arg4 harg4 arg5 harg5) K := by
  exact_verbatim sound_kernel3_reset c E i arg2 harg2 arg3 harg3 arg4 harg4 arg5 harg5 hc x0 x1 K

theorem sound_kernel5_step (c : Dev nD) (E : Set ℕ) (i : grid5.Coords)
    (arg2 : Memref sig .tc .vmem S3200x1 .i32) (harg2 : arg2.IsWhole)
    (arg3 : Memref sig .tc .vmem S512x128 .bf16) (harg3 : arg3.IsWhole)
    (arg4 : Memref sig .tc .vmem S3200x128 .bf16) (harg4 : arg4.IsWhole)
    (arg5 : Memref sig .tc .vmem S3200x128 .f32) (harg5 : arg5.IsWhole)
    (hc : ¬cond5 i) (x0 : Vec F S3200x1 .i32) (x1 : Vec F S512x128 .bf16) (xs : Vec F S3200x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k5_pay3 (k5_pay2 i x0 xs x1))
            ∗ owns (c : Thread nD τ) arg5 fullShare (k5_pay2 i x0 xs x1)) -∗ K ⟨⟩))
      ⊢ wp frame (wpE (defs₀ (F := F)) Variants.none c none) E (cc5__gather_kernel i arg2 harg2 arg3 harg3 arg4 harg4 arg5 harg5) K := by
  exact_verbatim sound_kernel3_step c E i arg2 harg2 arg3 harg3 arg4 harg4 arg5 harg5 hc x0 x1 xs K

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    Phi5_succ, PhiS5_succ, after5_0, after5_1, after5_2, Phi5_castSucc]
  by_cases h0 : t.val % 98 = 0
  · rw [acc5_reset V c t h0]
    by_cases hz : t.val = 0
    · rw [PhiS5_zero V c _ _ hz, PhiA5_eq]
      iintro ⟨⟨⟨HS, Hrest⟩, Hg⟩, Ho, ⟨%d0, H0⟩, ⟨%d1, H1⟩, ⟨%d2, H2⟩⟩
      iapply (sound_kernel5_reset c Set.univ (grid5.coords t) _ _ _ _ _ _ _ _ ((hcond5 t).mpr h0) (iblk5 V c 0 t) (iblk5 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
    · rw [PhiS5_pos V c _ _ hz]
      iintro ⟨⟨HS, Hrest, Hg⟩, Ho, ⟨%d0, H0⟩, ⟨%d1, H1⟩, ⟨%d2, H2⟩⟩
      iapply (sound_kernel5_reset c Set.univ (grid5.coords t) _ _ _ _ _ _ _ _ ((hcond5 t).mpr h0) (iblk5 V c 0 t) (iblk5 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
  · rw [acc5_step V c t h0]
    have hz : t.val ≠ 0 := fun h => h0 (by rw [h])
    rw [PhiS5_pos V c _ _ hz]
    iintro ⟨⟨HS, Hrest, Hg⟩, Ho, ⟨%d0, H0⟩, ⟨%d1, H1⟩, ⟨%d2, H2⟩⟩
    iapply (sound_kernel5_step c Set.univ (grid5.coords t) _ _ _ _ _ _ _ _ (fun h => h0 ((hcond5 t).mp h)) (iblk5 V c 0 t) (iblk5 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ (Pipeline.ΦA spec5 c : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 24500 := N_5; omega), PhiA5_eq]
  iintro ⟨HS, Hrest, Hg⟩
  isplitl [HS Hrest]
  · isplitl [HS]; · iexists _; iexact HS
    iexact Hrest
  iexact Hg

end Cert.KernelIdeal.Gen

end
-- ==== Proof.KI.Sca6Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Scatter, region 6: the running sum over the edge blocks, restarted at edge block 0.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev bodyAt6 (t : Fin cfg6.N) : Prog (TpuEff nD τ sig (Elt F) Λ₀ .tc) PUnit :=
  cc6__scatter_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (Memref.whole cc6_scratch0) (Memref.isWhole_whole _)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S512x128 .f32 := Memref.whole cc6_scratch0

def acc6 (c : Dev nD) : (n : ℕ) → n < cfg6.N → Vec F S512x128 .f32
  | 0, hn => k6_pay2 (grid6.coords ⟨0, hn⟩) (iblk6 V c 0 ⟨0, hn⟩) (k6_pay1 (F := F)) (iblk6 V c 1 ⟨0, hn⟩)
  | n + 1, hn =>
    if (n + 1) % 250 = 0 then
      k6_pay2 (grid6.coords ⟨n + 1, hn⟩) (iblk6 V c 0 ⟨n + 1, hn⟩) (k6_pay1 (F := F)) (iblk6 V c 1 ⟨n + 1, hn⟩)
    else
      k6_pay2 (grid6.coords ⟨n + 1, hn⟩) (iblk6 V c 0 ⟨n + 1, hn⟩) (acc6 c n (Nat.lt_of_succ_lt hn)) (iblk6 V c 1 ⟨n + 1, hn⟩)

theorem acc6_reset (c : Dev nD) (t : Fin cfg6.N) (h0 : t.val % 250 = 0) :
    acc6 V c t.val t.isLt = k6_pay2 (grid6.coords t) (iblk6 V c 0 t) (k6_pay1 (F := F)) (iblk6 V c 1 t) := by
  obtain ⟨n, hn⟩ := t
  cases n with
  | zero => rfl
  | succ n => exact (if_pos h0).trans rfl

theorem acc6_step (c : Dev nD) (t : Fin cfg6.N) (h0 : ¬t.val % 250 = 0) :
    acc6 V c t.val t.isLt = k6_pay2 (grid6.coords t) (iblk6 V c 0 t)
      (acc6 V c (t.val - 1) (Nat.lt_of_le_of_lt (Nat.sub_le _ _) t.isLt)) (iblk6 V c 1 t) := by
  obtain ⟨n, hn⟩ := t
  cases n with
  | zero => exact absurd (Nat.zero_mod _) h0
  | succ n => exact (if_neg h0).trans rfl

def PhiS6 (c : Dev nD) : (n : ℕ) → n ≤ cfg6.N → sProp 𝕄
  | 0, _ => Pipeline.ΦA spec6 c
  | n + 1, hn => iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r)) := rfl

theorem PhiS6_pos (c : Dev nD) (n : ℕ) (h : n ≤ cfg6.N) (hz : n ≠ 0) :
    PhiS6 V c n h = iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]
      ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = PhiS6 V c t.val (Nat.le_of_lt t.isLt) := by
  dsimp only [dat6]; simp only [Fin.coe_castSucc]

theorem Phi6_succ (c : Dev nD) (t : Fin cfg6.N) :
    (dat6 V c).Φ t.succ = PhiS6 V c (t.val + 1) t.isLt := rfl

end Cert.KernelIdeal.Gen

end
-- ==== Proof.KI.Sca6.lean ====
import proofs.«425335_j13013750907176_1_alg».proof.Proof.KI.Sca6Defs
import proofs.«425335_j13013750907176_1_alg».proof.Proof.KI.Sca4
import proofs.«425335_j13013750907176_1_alg».proof.Proof.Verbatim
import Idealize.ShloMosaic.Lib.Pipeline.Value

-- Scatter, region 6: one grid point adds its one-hot product to the running sum (to zero at edge block 0).

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6 (i : grid6.Coords) : Prop :=
  (Scalar.cmpi .ne (Scalar.extui (Scalar.cmpi .eq (BitVec.ofNat 32 (i 1).val) 0#32)) 0#32) = 1#1

theorem cond6_word : ∀ j : Fin 250,
    (Scalar.cmpi .ne (Scalar.extui (Scalar.cmpi .eq (BitVec.ofNat 32 j.val) 0#32)) 0#32) = 1#1 ↔ j.val = 0 := by
  decide +kernel

theorem hcond6 : ∀ t : Fin cfg6.N, cond6 (grid6.coords t) ↔ t.val % 250 = 0 := by
  exact_verbatim hcond4

theorem sound_kernel6_reset (c : Dev nD) (E : Set ℕ) (i : grid6.Coords)
    (arg2 : Memref sig .tc .vmem S1x3200 .i32) (harg2 : arg2.IsWhole) (arg3 : Memref sig .tc .vmem S3200x128 .bf16) (harg3 : arg3.IsWhole)
    (arg4 : Memref sig .tc .vmem S512x128 .f32) (harg4 : arg4.IsWhole) (arg5 : Memref sig .tc .vmem S512x128 .f32) (harg5 : arg5.IsWhole)
    (hc : cond6 i) (x0 : Vec F S1x3200 .i32) (x1 : Vec F S3200x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k6_pay2 i x0 (k6_pay1 (F := F)) x1)
            ∗ owns (c : Thread nD τ) arg5 fullShare (k6_pay2 i x0 (k6_pay1 (F := F)) x1)) -∗ K ⟨⟩))
      ⊢ wp frame (wpE (defs₀ (F := F)) Variants.none c none) E (cc6__scatter_kernel i arg2 harg2 arg3 harg3 arg4 harg4 arg5 harg5) K := by
  exact_verbatim sound_kernel4_reset c E i arg2 harg2 arg3 harg3 arg4 harg4 arg5 harg5 hc x0 x1 K

theorem sound_kernel6_step (c : Dev nD) (E : Set ℕ) (i : grid6.Coords)
    (arg2 : Memref sig .tc .vmem S1x3200 .i32) (harg2 : arg2.IsWhole) (arg3 : Memref sig .tc .vmem S3200x128 .bf16) (harg3 : arg3.IsWhole)
    (arg4 : Memref sig .tc .vmem S512x128 .f32) (harg4 : arg4.IsWhole) (arg5 : Memref sig .tc .vmem S512x128 .f32) (harg5 : arg5.IsWhole)
    (hc : ¬cond6 i) (x0 : Vec F S1x3200 .i32) (xs : Vec F S512x128 .f32) (x1 : Vec F S3200x128 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k6_pay2 i x0 xs x1)
            ∗ owns (c : Thread nD τ) arg5 fullShare (k6_pay2 i x0 xs x1)) -∗ K ⟨⟩))
      ⊢ wp frame (wpE (defs₀ (F := F)) Variants.none c none) E (cc6__scatter_kernel i arg2 harg2 arg3 harg3 arg4 harg4 arg5 harg5) K := by
  exact_verbatim sound_kernel4_step c E i arg2 harg2 arg3 harg3 arg4 harg4 arg5 harg5 hc x0 xs x1 K

variable (V : (c : Dev nD) → (b : Ref sig .tc) → Buf (Elt F) ((c : Thread nD τ).loc b))

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0])
        ∗ (∃ r, prngReg c r)) := by
  unfold Pipeline.ΦA; rw [scopedRest6_split]; simp only [scM6, owns_whole]; try rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    Phi6_succ, PhiS6_succ, after6_0, after6_1, after6_2, Phi6_castSucc]
  by_cases h0 : t.val % 250 = 0
  · rw [acc6_reset V c t h0]
    by_cases hz : t.val = 0
    · rw [PhiS6_zero V c _ _ hz, PhiA6_eq]
      iintro ⟨⟨⟨⟨%ds, HS⟩, HR⟩, Hg⟩, Ho, ⟨%d0, H0⟩, ⟨%d1, H1⟩, ⟨%d2, H2⟩⟩
      iapply (sound_kernel6_reset c Set.univ (grid6.coords t) _ _ _ _ _ _ _ _ ((hcond6 t).mpr h0) (iblk6 V c 0 t) (iblk6 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS6_pos V c _ _ hz]
      iintro ⟨⟨HS, HR, Hg⟩, Ho, ⟨%d0, H0⟩, ⟨%d1, H1⟩, ⟨%d2, H2⟩⟩
      iapply (sound_kernel6_reset c Set.univ (grid6.coords t) _ _ _ _ _ _ _ _ ((hcond6 t).mpr h0) (iblk6 V c 0 t) (iblk6 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · rw [acc6_step V c t h0]
    have hz : t.val ≠ 0 := fun e => h0 (by rw [e])
    rw [PhiS6_pos V c _ _ hz]
    iintro ⟨⟨HS, HR, Hg⟩, Ho, ⟨%d0, H0⟩, ⟨%d1, H1⟩, ⟨%d2, H2⟩⟩
    iapply (sound_kernel6_step c Set.univ (grid6.coords t) _ _ _ _ _ _ _ _ (fun h => h0 ((hcond6 t).mp h)) (iblk6 V c 0 t)
      (acc6 V c (t.val - 1) (Nat.lt_of_le_of_lt (Nat.sub_le _ _) t.isLt)) (iblk6 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]

theorem hout6 (c : Dev nD) : (dat6 V c).Φ (Fin.last cfg6.N) ⊢ (Pipeline.ΦA spec6 c : sProp 𝕄) := by
  have hN : cfg6.N = 24500 := N_6
  have ht : (Fin.last cfg6.N).val ≠ 0 := by rw [Fin.val_last]; omega
  rw [show (dat6 V c).Φ (Fin.last cfg6.N) = PhiS6 V c (Fin.last cfg6.N).val (Nat.le_of_lt_succ (Fin.last cfg6.N).isLt) from rfl,
    PhiS6_pos V c _ _ ht, PhiA6_eq]
  iintro ⟨HS, HR, Hg⟩
  isplitl [HS HR]
  · isplitl [HS]; · iexists _; iexact HS
    iexact HR
  iexact Hg

end Cert.KernelIdeal.Gen

end
-- ==== Proof.KI.Gat7Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Gather, region 7: the running sum over the node blocks, restarted at node block 0.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)
abbrev bodyAt7 (t : Fin cfg7.N) : Prog (TpuEff nD τ sig (Elt F) Λ₀ .tc) PUnit :=
  cc7__gather_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (Memref.whole cc7_scratch0) (Memref.isWhole_whole _)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev scM7 : Memref sig .tc .vmem S3200x128 .f32 := Memref.whole cc7_scratch0

def acc7 (c : Dev nD) : (n : ℕ) → n < cfg7.N → Vec F S3200x128 .f32
  | 0, hn => k7_pay2 (grid7.coords ⟨0, hn⟩) (iblk7 V c 0 ⟨0, hn⟩) (k7_pay1 (F := F)) (iblk7 V c 1 ⟨0, hn⟩)
  | n + 1, hn =>
    if (n + 1) % 98 = 0 then
      k7_pay2 (grid7.coords ⟨n + 1, hn⟩) (iblk7 V c 0 ⟨n + 1, hn⟩) (k7_pay1 (F := F)) (iblk7 V c 1 ⟨n + 1, hn⟩)
    else
      k7_pay2 (grid7.coords ⟨n + 1, hn⟩) (iblk7 V c 0 ⟨n + 1, hn⟩) (acc7 c n (Nat.lt_of_succ_lt hn)) (iblk7 V c 1 ⟨n + 1, hn⟩)

theorem acc7_reset (c : Dev nD) (t : Fin cfg7.N) (h0 : t.val % 98 = 0) :
    acc7 V c t.val t.isLt = k7_pay2 (grid7.coords t) (iblk7 V c 0 t) (k7_pay1 (F := F)) (iblk7 V c 1 t) := by
  obtain ⟨n, hn⟩ := t
  cases n with
  | zero => rfl
  | succ n => exact (if_pos h0).trans rfl

theorem acc7_step (c : Dev nD) (t : Fin cfg7.N) (h0 : ¬t.val % 98 = 0) :
    acc7 V c t.val t.isLt = k7_pay2 (grid7.coords t) (iblk7 V c 0 t)
      (acc7 V c (t.val - 1) (Nat.lt_of_le_of_lt (Nat.sub_le _ _) t.isLt)) (iblk7 V c 1 t) := by
  obtain ⟨n, hn⟩ := t
  cases n with
  | zero => exact absurd (Nat.zero_mod _) h0
  | succ n => exact (if_neg h0).trans rfl

def PhiS7 (c : Dev nD) : (n : ℕ) → n ≤ cfg7.N → sProp 𝕄
  | 0, _ => Pipeline.ΦA spec7 c
  | n + 1, hn => iprop(owns (c : Thread nD τ) scM7 fullShare (acc7 V c n hn)
      ∗ Pipeline.scopedRestBut (Ix := Unit) (Name := ℕ) (U := UR sig nD τ) (Lvl := ℕ) (Val := Elt F) spec7 c [cc7_scratch0]
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(owns (c : Thread nD τ) scM7 fullShare (acc7 V c n hn)
      ∗ Pipeline.scopedRestBut (Ix := Unit) (Name := ℕ) (U := UR sig nD τ) (Lvl := ℕ) (Val := Elt F) spec7 c [cc7_scratch0]
      ∗ (∃ r, prngReg c r)) := rfl

theorem PhiS7_pos (c : Dev nD) (n : ℕ) (h : n ≤ cfg7.N) (hz : n ≠ 0) :
    PhiS7 V c n h = iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]
      ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay3 (acc7 V c t.val t.isLt)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay3 (acc7 V c t.val t.isLt) := by dsimp only [dat7]

theorem Phi7_castSucc (c : Dev nD) (t : Fin cfg7.N) :
    (dat7 V c).Φ t.castSucc = PhiS7 V c t.val (Nat.le_of_lt t.isLt) := by
  dsimp only [dat7]; simp only [Fin.coe_castSucc]

theorem Phi7_succ (c : Dev nD) (t : Fin cfg7.N) :
    (dat7 V c).Φ t.succ = PhiS7 V c (t.val + 1) t.isLt := rfl

end Cert.KernelIdeal.Gen

end
-- ==== Proof.KI.Gat7.lean ====
import proofs.«425335_j13013750907176_1_alg».proof.Proof.KI.Gat7Defs
import proofs.«425335_j13013750907176_1_alg».proof.Proof.KI.Gat3
import proofs.«425335_j13013750907176_1_alg».proof.Proof.Verbatim
import Idealize.ShloMosaic.Lib.Pipeline.Value

-- Gather, region 7: one grid point adds its one-hot product to the running sum (to zero at node block 0).

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

abbrev cond7 (i : grid7.Coords) : Prop :=
  (Scalar.cmpi .ne (Scalar.extui (Scalar.cmpi .eq (BitVec.ofNat 32 (i 1).val) 0#32)) 0#32) = 1#1

theorem hcond7 : ∀ t : Fin cfg7.N, cond7 (grid7.coords t) ↔ t.val % 98 = 0 := by
  exact_verbatim hcond3

theorem PhiA7_eq (c : Dev nD) :
    (Pipeline.ΦA spec7 c : sProp 𝕄)
      = iprop(iprop((∃ d, owns (c : Thread nD τ) scM7 fullShare d)
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

theorem sound_kernel7_reset (c : Dev nD) (E : Set ℕ) (i : grid7.Coords)
    (arg2 : Memref sig .tc .vmem S3200x1 .i32) (harg2 : arg2.IsWhole)
    (arg3 : Memref sig .tc .vmem S512x128 .bf16) (harg3 : arg3.IsWhole)
    (arg4 : Memref sig .tc .vmem S3200x128 .bf16) (harg4 : arg4.IsWhole)
    (arg5 : Memref sig .tc .vmem S3200x128 .f32) (harg5 : arg5.IsWhole)
    (hc : cond7 i) (x0 : Vec F S3200x1 .i32) (x1 : Vec F S512x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k7_pay3 (k7_pay2 i x0 (k7_pay1 (F := F)) x1))
            ∗ owns (c : Thread nD τ) arg5 fullShare (k7_pay2 i x0 (k7_pay1 (F := F)) x1)) -∗ K ⟨⟩))
      ⊢ wp frame (wpE (defs₀ (F := F)) Variants.none c none) E (cc7__gather_kernel i arg2 harg2 arg3 harg3 arg4 harg4 arg5 harg5) K := by
  exact_verbatim sound_kernel3_reset c E i arg2 harg2 arg3 harg3 arg4 harg4 arg5 harg5 hc x0 x1 K

theorem sound_kernel7_step (c : Dev nD) (E : Set ℕ) (i : grid7.Coords)
    (arg2 : Memref sig .tc .vmem S3200x1 .i32) (harg2 : arg2.IsWhole)
    (arg3 : Memref sig .tc .vmem S512x128 .bf16) (harg3 : arg3.IsWhole)
    (arg4 : Memref sig .tc .vmem S3200x128 .bf16) (harg4 : arg4.IsWhole)
    (arg5 : Memref sig .tc .vmem S3200x128 .f32) (harg5 : arg5.IsWhole)
    (hc : ¬cond7 i) (x0 : Vec F S3200x1 .i32) (x1 : Vec F S512x128 .bf16) (xs : Vec F S3200x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k7_pay3 (k7_pay2 i x0 xs x1))
            ∗ owns (c : Thread nD τ) arg5 fullShare (k7_pay2 i x0 xs x1)) -∗ K ⟨⟩))
      ⊢ wp frame (wpE (defs₀ (F := F)) Variants.none c none) E (cc7__gather_kernel i arg2 harg2 arg3 harg3 arg4 harg4 arg5 harg5) K := by
  exact_verbatim sound_kernel3_step c E i arg2 harg2 arg3 harg3 arg4 harg4 arg5 harg5 hc x0 x1 xs K

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

set_option maxHeartbeats 1600000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl,
    Phi7_succ, PhiS7_succ, after7_0, after7_1, after7_2, Phi7_castSucc]
  by_cases h0 : t.val % 98 = 0
  · rw [acc7_reset V c t h0]
    by_cases hz : t.val = 0
    · rw [PhiS7_zero V c _ _ hz, PhiA7_eq]
      iintro ⟨⟨⟨HS, Hrest⟩, Hg⟩, Ho, ⟨%d0, H0⟩, ⟨%d1, H1⟩, ⟨%d2, H2⟩⟩
      iapply (sound_kernel7_reset c Set.univ (grid7.coords t) _ _ _ _ _ _ _ _ ((hcond7 t).mpr h0) (iblk7 V c 0 t) (iblk7 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
    · rw [PhiS7_pos V c _ _ hz]
      iintro ⟨⟨HS, Hrest, Hg⟩, Ho, ⟨%d0, H0⟩, ⟨%d1, H1⟩, ⟨%d2, H2⟩⟩
      iapply (sound_kernel7_reset c Set.univ (grid7.coords t) _ _ _ _ _ _ _ _ ((hcond7 t).mpr h0) (iblk7 V c 0 t) (iblk7 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
  · rw [acc7_step V c t h0]
    have hz : t.val ≠ 0 := fun h => h0 (by rw [h])
    rw [PhiS7_pos V c _ _ hz]
    iintro ⟨⟨HS, Hrest, Hg⟩, Ho, ⟨%d0, H0⟩, ⟨%d1, H1⟩, ⟨%d2, H2⟩⟩
    iapply (sound_kernel7_step c Set.univ (grid7.coords t) _ _ _ _ _ _ _ _ (fun h => h0 ((hcond7 t).mp h)) (iblk7 V c 0 t) (iblk7 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

theorem hout7 (c : Dev nD) : (dat7 V c).Φ (Fin.last cfg7.N) ⊢ (Pipeline.ΦA spec7 c : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 24500 := N_7; omega), PhiA7_eq]
  iintro ⟨HS, Hrest, Hg⟩
  isplitl [HS Hrest]
  · isplitl [HS]; · iexists _; iexact HS
    iexact Hrest
  iexact Hg

end Cert.KernelIdeal.Gen

end
-- ==== Proof.KI.Sca8Defs.lean ====
import proofs.«425335_j13013750907176_1_alg».proof.Proof.Gen.KernelIdeal.Launch
import proofs.«425335_j13013750907176_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Scatter, region 8: the running sum over the edge blocks, restarted at edge block 0.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)
abbrev bodyAt8 (t : Fin cfg8.N) : Prog (TpuEff nD τ sig (Elt F) Λ₀ .tc) PUnit :=
  cc8__scatter_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (Memref.whole cc8_scratch0) (Memref.isWhole_whole _)

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S512x128 .f32 := Memref.whole cc8_scratch0

def acc8 (c : Dev nD) : (n : ℕ) → n < cfg8.N → Vec F S512x128 .f32
  | 0, hn => k8_pay2 (grid8.coords ⟨0, hn⟩) (iblk8 V c 0 ⟨0, hn⟩) (k8_pay1 (F := F)) (iblk8 V c 1 ⟨0, hn⟩)
  | n + 1, hn =>
    if (n + 1) % 250 = 0 then
      k8_pay2 (grid8.coords ⟨n + 1, hn⟩) (iblk8 V c 0 ⟨n + 1, hn⟩) (k8_pay1 (F := F)) (iblk8 V c 1 ⟨n + 1, hn⟩)
    else
      k8_pay2 (grid8.coords ⟨n + 1, hn⟩) (iblk8 V c 0 ⟨n + 1, hn⟩) (acc8 c n (Nat.lt_of_succ_lt hn)) (iblk8 V c 1 ⟨n + 1, hn⟩)

theorem acc8_reset (c : Dev nD) (t : Fin cfg8.N) (h0 : t.val % 250 = 0) :
    acc8 V c t.val t.isLt = k8_pay2 (grid8.coords t) (iblk8 V c 0 t) (k8_pay1 (F := F)) (iblk8 V c 1 t) := by
  obtain ⟨n, hn⟩ := t
  cases n with
  | zero => rfl
  | succ n => exact (if_pos h0).trans rfl

theorem acc8_step (c : Dev nD) (t : Fin cfg8.N) (h0 : ¬t.val % 250 = 0) :
    acc8 V c t.val t.isLt = k8_pay2 (grid8.coords t) (iblk8 V c 0 t)
      (acc8 V c (t.val - 1) (Nat.lt_of_le_of_lt (Nat.sub_le _ _) t.isLt)) (iblk8 V c 1 t) := by
  obtain ⟨n, hn⟩ := t
  cases n with
  | zero => exact absurd (Nat.zero_mod _) h0
  | succ n => exact (if_neg h0).trans rfl

def PhiS8 (c : Dev nD) : (n : ℕ) → n ≤ cfg8.N → sProp 𝕄
  | 0, _ => Pipeline.ΦA spec8 c
  | n + 1, hn => iprop(owns (c : Thread nD τ) scM8 fullShare (acc8 V c n hn)
      ∗ Pipeline.scopedRestBut (Ix := Unit) (Name := ℕ) (U := UR sig nD τ) (Lvl := ℕ) (Val := Elt F) spec8 c [cc8_scratch0]
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(owns (c : Thread nD τ) scM8 fullShare (acc8 V c n hn)
      ∗ Pipeline.scopedRestBut (Ix := Unit) (Name := ℕ) (U := UR sig nD τ) (Lvl := ℕ) (Val := Elt F) spec8 c [cc8_scratch0]
      ∗ (∃ r, prngReg c r)) := rfl

theorem PhiS8_pos (c : Dev nD) (n : ℕ) (h : n ≤ cfg8.N) (hz : n ≠ 0) :
    PhiS8 V c n h = iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]
      ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem Phi8_castSucc (c : Dev nD) (t : Fin cfg8.N) :
    (dat8 V c).Φ t.castSucc = PhiS8 V c t.val (Nat.le_of_lt t.isLt) := by
  dsimp only [dat8]; simp only [Fin.coe_castSucc]

theorem Phi8_succ (c : Dev nD) (t : Fin cfg8.N) :
    (dat8 V c).Φ t.succ = PhiS8 V c (t.val + 1) t.isLt := rfl

end Cert.KernelIdeal.Gen

end
-- ==== Proof.KI.Sca8.lean ====
import proofs.«425335_j13013750907176_1_alg».proof.Proof.KI.Sca8Defs
import proofs.«425335_j13013750907176_1_alg».proof.Proof.KI.Sca4
import proofs.«425335_j13013750907176_1_alg».proof.Proof.Verbatim
import Idealize.ShloMosaic.Lib.Pipeline.Value

-- Scatter, region 8: one grid point adds its one-hot product to the running sum (to zero at edge block 0).

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8 (i : grid8.Coords) : Prop :=
  (Scalar.cmpi .ne (Scalar.extui (Scalar.cmpi .eq (BitVec.ofNat 32 (i 1).val) 0#32)) 0#32) = 1#1

theorem cond8_word : ∀ j : Fin 250,
    (Scalar.cmpi .ne (Scalar.extui (Scalar.cmpi .eq (BitVec.ofNat 32 j.val) 0#32)) 0#32) = 1#1 ↔ j.val = 0 := by
  decide +kernel

theorem hcond8 : ∀ t : Fin cfg8.N, cond8 (grid8.coords t) ↔ t.val % 250 = 0 := by
  exact_verbatim hcond4

theorem sound_kernel8_reset (c : Dev nD) (E : Set ℕ) (i : grid8.Coords)
    (arg2 : Memref sig .tc .vmem S1x3200 .i32) (harg2 : arg2.IsWhole) (arg3 : Memref sig .tc .vmem S3200x128 .bf16) (harg3 : arg3.IsWhole)
    (arg4 : Memref sig .tc .vmem S512x128 .f32) (harg4 : arg4.IsWhole) (arg5 : Memref sig .tc .vmem S512x128 .f32) (harg5 : arg5.IsWhole)
    (hc : cond8 i) (x0 : Vec F S1x3200 .i32) (x1 : Vec F S3200x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k8_pay2 i x0 (k8_pay1 (F := F)) x1)
            ∗ owns (c : Thread nD τ) arg5 fullShare (k8_pay2 i x0 (k8_pay1 (F := F)) x1)) -∗ K ⟨⟩))
      ⊢ wp frame (wpE (defs₀ (F := F)) Variants.none c none) E (cc8__scatter_kernel i arg2 harg2 arg3 harg3 arg4 harg4 arg5 harg5) K := by
  exact_verbatim sound_kernel4_reset c E i arg2 harg2 arg3 harg3 arg4 harg4 arg5 harg5 hc x0 x1 K

theorem sound_kernel8_step (c : Dev nD) (E : Set ℕ) (i : grid8.Coords)
    (arg2 : Memref sig .tc .vmem S1x3200 .i32) (harg2 : arg2.IsWhole) (arg3 : Memref sig .tc .vmem S3200x128 .bf16) (harg3 : arg3.IsWhole)
    (arg4 : Memref sig .tc .vmem S512x128 .f32) (harg4 : arg4.IsWhole) (arg5 : Memref sig .tc .vmem S512x128 .f32) (harg5 : arg5.IsWhole)
    (hc : ¬cond8 i) (x0 : Vec F S1x3200 .i32) (xs : Vec F S512x128 .f32) (x1 : Vec F S3200x128 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k8_pay2 i x0 xs x1)
            ∗ owns (c : Thread nD τ) arg5 fullShare (k8_pay2 i x0 xs x1)) -∗ K ⟨⟩))
      ⊢ wp frame (wpE (defs₀ (F := F)) Variants.none c none) E (cc8__scatter_kernel i arg2 harg2 arg3 harg3 arg4 harg4 arg5 harg5) K := by
  exact_verbatim sound_kernel4_step c E i arg2 harg2 arg3 harg3 arg4 harg4 arg5 harg5 hc x0 xs x1 K

variable (V : (c : Dev nD) → (b : Ref sig .tc) → Buf (Elt F) ((c : Thread nD τ).loc b))

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

theorem PhiA8_eq (c : Dev nD) :
    (Pipeline.ΦA spec8 c : sProp 𝕄)
      = iprop(iprop((∃ d, owns (c : Thread nD τ) scM8 fullShare d)
          ∗ Pipeline.scopedRestBut (Ix := Unit) (Name := ℕ) (U := UR sig nD τ) (Lvl := ℕ) (Val := Elt F) spec8 c [cc8_scratch0])
        ∗ (∃ r, prngReg c r)) := by
  unfold Pipeline.ΦA; rw [scopedRest8_split]; simp only [scM8, owns_whole]; try rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

set_option maxHeartbeats 1000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    Phi8_succ, PhiS8_succ, after8_0, after8_1, after8_2, Phi8_castSucc]
  by_cases h0 : t.val % 250 = 0
  · rw [acc8_reset V c t h0]
    by_cases hz : t.val = 0
    · rw [PhiS8_zero V c _ _ hz, PhiA8_eq]
      iintro ⟨⟨⟨⟨%ds, HS⟩, HR⟩, Hg⟩, Ho, ⟨%d0, H0⟩, ⟨%d1, H1⟩, ⟨%d2, H2⟩⟩
      iapply (sound_kernel8_reset c Set.univ (grid8.coords t) _ _ _ _ _ _ _ _ ((hcond8 t).mpr h0) (iblk8 V c 0 t) (iblk8 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS8_pos V c _ _ hz]
      iintro ⟨⟨HS, HR, Hg⟩, Ho, ⟨%d0, H0⟩, ⟨%d1, H1⟩, ⟨%d2, H2⟩⟩
      iapply (sound_kernel8_reset c Set.univ (grid8.coords t) _ _ _ _ _ _ _ _ ((hcond8 t).mpr h0) (iblk8 V c 0 t) (iblk8 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · rw [acc8_step V c t h0]
    have hz : t.val ≠ 0 := fun e => h0 (by rw [e])
    rw [PhiS8_pos V c _ _ hz]
    iintro ⟨⟨HS, HR, Hg⟩, Ho, ⟨%d0, H0⟩, ⟨%d1, H1⟩, ⟨%d2, H2⟩⟩
    iapply (sound_kernel8_step c Set.univ (grid8.coords t) _ _ _ _ _ _ _ _ (fun h => h0 ((hcond8 t).mp h)) (iblk8 V c 0 t)
      (acc8 V c (t.val - 1) (Nat.lt_of_le_of_lt (Nat.sub_le _ _) t.isLt)) (iblk8 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]

theorem hout8 (c : Dev nD) : (dat8 V c).Φ (Fin.last cfg8.N) ⊢ (Pipeline.ΦA spec8 c : sProp 𝕄) := by
  have hN : cfg8.N = 24500 := N_8
  have ht : (Fin.last cfg8.N).val ≠ 0 := by rw [Fin.val_last]; omega
  rw [show (dat8 V c).Φ (Fin.last cfg8.N) = PhiS8 V c (Fin.last cfg8.N).val (Nat.le_of_lt_succ (Fin.last cfg8.N).isLt) from rfl,
    PhiS8_pos V c _ _ ht, PhiA8_eq]
  iintro ⟨HS, HR, Hg⟩
  isplitl [HS HR]
  · isplitl [HS]; · iexists _; iexact HS
    iexact HR
  iexact Hg

end Cert.KernelIdeal.Gen

end
-- ==== Proof.KI.Outs.lean ====
import proofs.«425335_j13013750907176_1_alg».proof.Proof.KI.Lin0Defs
import proofs.«425335_j13013750907176_1_alg».proof.Proof.KI.Lin1Defs
import proofs.«425335_j13013750907176_1_alg».proof.Proof.KI.Lin2Defs
import proofs.«425335_j13013750907176_1_alg».proof.Proof.KI.Gat3Defs
import proofs.«425335_j13013750907176_1_alg».proof.Proof.KI.Sca4Defs
import proofs.«425335_j13013750907176_1_alg».proof.Proof.KI.Gat5Defs
import proofs.«425335_j13013750907176_1_alg».proof.Proof.KI.Sca6Defs
import proofs.«425335_j13013750907176_1_alg».proof.Proof.KI.Gat7Defs
import proofs.«425335_j13013750907176_1_alg».proof.Proof.KI.Sca8Defs
import proofs.«425335_j13013750907176_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- The contents the nine regions leave in their output arrays, fixed one region after another.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

def setOut (o : Outs (F := F)) (j : ℕ) (r : Ref sig .tc) (x : (c : Dev nD) → Buf (Elt F) ((c : Thread nD τ).loc r)) : Outs (F := F) :=
  fun j' r' c => if h : j' = j ∧ r' = r then h.2 ▸ x c else o j' r' c

theorem setOut_self (o : Outs (F := F)) (j : ℕ) (r : Ref sig .tc) (x : (c : Dev nD) → Buf (Elt F) ((c : Thread nD τ).loc r)) (c : Dev nD) :
    setOut o j r x j r c = x c := by
  unfold setOut; rw [dif_pos ⟨rfl, rfl⟩]

theorem setOut_of_ne (o : Outs (F := F)) (j : ℕ) (r : Ref sig .tc) (x : (c : Dev nD) → Buf (Elt F) ((c : Thread nD τ).loc r))
    (j' : ℕ) (r' : Ref sig .tc) (c : Dev nD) (hj : j' ≠ j) : setOut o j r x j' r' c = o j' r' c := by
  unfold setOut; rw [dif_neg fun h => hj h.1]

variable (m : (ℓ : Loc nD τ sig) → Buf (Elt F) ℓ)

def o0 : Outs (F := F) := fun _ r c => m ((c : Thread nD τ).loc r)

abbrev E1 : (c : Dev nD) → (b : Ref sig .tc) → Buf (Elt F) ((c : Thread nD τ).loc b) := fun c b => V1 m c b

def o1 : Outs (F := F) := setOut (o0 m) 2 main_v1 fun c => (dat0 (E1 m) c).arrAt 3 cfg0.N

abbrev E3 : (c : Dev nD) → (b : Ref sig .tc) → Buf (Elt F) ((c : Thread nD τ).loc b) := fun c b => V3 m (o1 m) c b

def o2 : Outs (F := F) := setOut (o1 m) 4 main_v3 fun c => (dat1 (E3 m) c).arrAt 3 cfg1.N

abbrev E5 : (c : Dev nD) → (b : Ref sig .tc) → Buf (Elt F) ((c : Thread nD τ).loc b) := fun c b => V5 m (o2 m) c b

def o3 : Outs (F := F) := setOut (o2 m) 6 main_v5 fun c => (dat2 (E5 m) c).arrAt 3 cfg2.N

abbrev E9 : (c : Dev nD) → (b : Ref sig .tc) → Buf (Elt F) ((c : Thread nD τ).loc b) := fun c b => V9 m (o3 m) c b

def o4 : Outs (F := F) := setOut (o3 m) 10 main_v8 fun c => (dat3 (E9 m) c).arrAt 2 cfg3.N

abbrev E11 : (c : Dev nD) → (b : Ref sig .tc) → Buf (Elt F) ((c : Thread nD τ).loc b) := fun c b => V11 m (o4 m) c b

def o5 : Outs (F := F) := setOut (o4 m) 12 main_v10 fun c => (dat4 (E11 m) c).arrAt 2 cfg4.N

abbrev E17 : (c : Dev nD) → (b : Ref sig .tc) → Buf (Elt F) ((c : Thread nD τ).loc b) := fun c b => V17 m (o5 m) c b

def o6 : Outs (F := F) := setOut (o5 m) 18 main_v27 fun c => (dat5 (E17 m) c).arrAt 2 cfg5.N

abbrev E19 : (c : Dev nD) → (b : Ref sig .tc) → Buf (Elt F) ((c : Thread nD τ).loc b) := fun c b => V19 m (o6 m) c b

def o7 : Outs (F := F) := setOut (o6 m) 20 main_v29 fun c => (dat6 (E19 m) c).arrAt 2 cfg6.N

abbrev E25 : (c : Dev nD) → (b : Ref sig .tc) → Buf (Elt F) ((c : Thread nD τ).loc b) := fun c b => V25 m (o7 m) c b

def o8 : Outs (F := F) := setOut (o7 m) 26 main_v47 fun c => (dat7 (E25 m) c).arrAt 2 cfg7.N

abbrev E27 : (c : Dev nD) → (b : Ref sig .tc) → Buf (Elt F) ((c : Thread nD τ).loc b) := fun c b => V27 m (o8 m) c b

def o9 : Outs (F := F) := setOut (o8 m) 28 main_v49 fun c => (dat8 (E27 m) c).arrAt 2 cfg8.N

abbrev outs : Outs (F := F) := o9 m

def Agree (n : ℕ) (o o' : Outs (F := F)) : Prop := ∀ (j : ℕ) (r : Ref sig .tc) (c : Dev nD), j ≤ n → o j r c = o' j r c

theorem Agree.mono {n n' : ℕ} {o o' : Outs (F := F)} (h : Agree n o o') (hn : n' ≤ n) : Agree n' o o' :=
  fun j r c hj => h j r c (Nat.le_trans hj hn)

theorem Agree.trans {n : ℕ} {o o' o'' : Outs (F := F)} (h : Agree n o o') (h' : Agree n o' o'') : Agree n o o'' :=
  fun j r c hj => (h j r c hj).trans (h' j r c hj)

theorem agree_setOut (o : Outs (F := F)) (j : ℕ) (r : Ref sig .tc) (x : (c : Dev nD) → Buf (Elt F) ((c : Thread nD τ).loc r))
    (n : ℕ) (hn : n < j) : Agree n (setOut o j r x) o :=
  fun j' r' c hj => setOut_of_ne o j r x j' r' c (by omega)

theorem V2_congr (o o' : Outs (F := F)) (c : Dev nD) (h : Agree 2 o o') : V2 m o c = V2 m o' c := by
  show Function.update (V1 m c) main_v1 (o 2 main_v1 c) = Function.update (V1 m c) main_v1 (o' 2 main_v1 c)
  rw [h 2 main_v1 c (Nat.le_refl _)]

theorem V3_congr (o o' : Outs (F := F)) (c : Dev nD) (h : Agree 3 o o') : V3 m o c = V3 m o' c :=
  congrArg (StableHlo.after hostOps1) (V2_congr m o o' c (h.mono (by decide)))

theorem V4_congr (o o' : Outs (F := F)) (c : Dev nD) (h : Agree 4 o o') : V4 m o c = V4 m o' c := by
  show Function.update (V3 m o c) main_v3 (o 4 main_v3 c) = Function.update (V3 m o' c) main_v3 (o' 4 main_v3 c)
  rw [V3_congr m o o' c (h.mono (by decide)), h 4 main_v3 c (Nat.le_refl _)]

theorem V5_congr (o o' : Outs (F := F)) (c : Dev nD) (h : Agree 5 o o') : V5 m o c = V5 m o' c :=
  congrArg (StableHlo.after hostOps2) (V4_congr m o o' c (h.mono (by decide)))

theorem V6_congr (o o' : Outs (F := F)) (c : Dev nD) (h : Agree 6 o o') : V6 m o c = V6 m o' c := by
  show Function.update (V5 m o c) main_v5 (o 6 main_v5 c) = Function.update (V5 m o' c) main_v5 (o' 6 main_v5 c)
  rw [V5_congr m o o' c (h.mono (by decide)), h 6 main_v5 c (Nat.le_refl _)]

theorem V7_congr (o o' : Outs (F := F)) (c : Dev nD) (h : Agree 7 o o') : V7 m o c = V7 m o' c :=
  congrArg (StableHlo.after hostOps3) (V6_congr m o o' c (h.mono (by decide)))

theorem V8_congr (o o' : Outs (F := F)) (c : Dev nD) (h : Agree 8 o o') : V8 m o c = V8 m o' c :=
  congrArg (StableHlo.after hostOps3_1) (V7_congr m o o' c (h.mono (by decide)))

theorem V9_congr (o o' : Outs (F := F)) (c : Dev nD) (h : Agree 9 o o') : V9 m o c = V9 m o' c :=
  congrArg (StableHlo.after hostOps3_2) (V8_congr m o o' c (h.mono (by decide)))

theorem V10_congr (o o' : Outs (F := F)) (c : Dev nD) (h : Agree 10 o o') : V10 m o c = V10 m o' c := by
  show Function.update (V9 m o c) main_v8 (o 10 main_v8 c) = Function.update (V9 m o' c) main_v8 (o' 10 main_v8 c)
  rw [V9_congr m o o' c (h.mono (by decide)), h 10 main_v8 c (Nat.le_refl _)]

theorem V11_congr (o o' : Outs (F := F)) (c : Dev nD) (h : Agree 11 o o') : V11 m o c = V11 m o' c :=
  congrArg (StableHlo.after hostOps4) (V10_congr m o o' c (h.mono (by decide)))

theorem V12_congr (o o' : Outs (F := F)) (c : Dev nD) (h : Agree 12 o o') : V12 m o c = V12 m o' c := by
  show Function.update (V11 m o c) main_v10 (o 12 main_v10 c) = Function.update (V11 m o' c) main_v10 (o' 12 main_v10 c)
  rw [V11_congr m o o' c (h.mono (by decide)), h 12 main_v10 c (Nat.le_refl _)]

theorem V13_congr (o o' : Outs (F := F)) (c : Dev nD) (h : Agree 13 o o') : V13 m o c = V13 m o' c :=
  congrArg (StableHlo.after hostOps5) (V12_congr m o o' c (h.mono (by decide)))

theorem V14_congr (o o' : Outs (F := F)) (c : Dev nD) (h : Agree 14 o o') : V14 m o c = V14 m o' c :=
  congrArg (StableHlo.after hostOps5_1) (V13_congr m o o' c (h.mono (by decide)))

theorem V15_congr (o o' : Outs (F := F)) (c : Dev nD) (h : Agree 15 o o') : V15 m o c = V15 m o' c :=
  congrArg (StableHlo.after hostOps5_2) (V14_congr m o o' c (h.mono (by decide)))

theorem V16_congr (o o' : Outs (F := F)) (c : Dev nD) (h : Agree 16 o o') : V16 m o c = V16 m o' c :=
  congrArg (StableHlo.after hostOps5_3) (V15_congr m o o' c (h.mono (by decide)))

theorem V17_congr (o o' : Outs (F := F)) (c : Dev nD) (h : Agree 17 o o') : V17 m o c = V17 m o' c :=
  congrArg (StableHlo.after hostOps5_4) (V16_congr m o o' c (h.mono (by decide)))

theorem V18_congr (o o' : Outs (F := F)) (c : Dev nD) (h : Agree 18 o o') : V18 m o c = V18 m o' c := by
  show Function.update (V17 m o c) main_v27 (o 18 main_v27 c) = Function.update (V17 m o' c) main_v27 (o' 18 main_v27 c)
  rw [V17_congr m o o' c (h.mono (by decide)), h 18 main_v27 c (Nat.le_refl _)]

theorem V19_congr (o o' : Outs (F := F)) (c : Dev nD) (h : Agree 19 o o') : V19 m o c = V19 m o' c :=
  congrArg (StableHlo.after hostOps6) (V18_congr m o o' c (h.mono (by decide)))

theorem V20_congr (o o' : Outs (F := F)) (c : Dev nD) (h : Agree 20 o o') : V20 m o c = V20 m o' c := by
  show Function.update (V19 m o c) main_v29 (o 20 main_v29 c) = Function.update (V19 m o' c) main_v29 (o' 20 main_v29 c)
  rw [V19_congr m o o' c (h.mono (by decide)), h 20 main_v29 c (Nat.le_refl _)]

theorem V21_congr (o o' : Outs (F := F)) (c : Dev nD) (h : Agree 21 o o') : V21 m o c = V21 m o' c :=
  congrArg (StableHlo.after hostOps7) (V20_congr m o o' c (h.mono (by decide)))

theorem V22_congr (o o' : Outs (F := F)) (c : Dev nD) (h : Agree 22 o o') : V22 m o c = V22 m o' c :=
  congrArg (StableHlo.after hostOps7_1) (V21_congr m o o' c (h.mono (by decide)))

theorem V23_congr (o o' : Outs (F := F)) (c : Dev nD) (h : Agree 23 o o') : V23 m o c = V23 m o' c :=
  congrArg (StableHlo.after hostOps7_2) (V22_congr m o o' c (h.mono (by decide)))

theorem V24_congr (o o' : Outs (F := F)) (c : Dev nD) (h : Agree 24 o o') : V24 m o c = V24 m o' c :=
  congrArg (StableHlo.after hostOps7_3) (V23_congr m o o' c (h.mono (by decide)))

theorem V25_congr (o o' : Outs (F := F)) (c : Dev nD) (h : Agree 25 o o') : V25 m o c = V25 m o' c :=
  congrArg (StableHlo.after hostOps7_4) (V24_congr m o o' c (h.mono (by decide)))

theorem V26_congr (o o' : Outs (F := F)) (c : Dev nD) (h : Agree 26 o o') : V26 m o c = V26 m o' c := by
  show Function.update (V25 m o c) main_v47 (o 26 main_v47 c) = Function.update (V25 m o' c) main_v47 (o' 26 main_v47 c)
  rw [V25_congr m o o' c (h.mono (by decide)), h 26 main_v47 c (Nat.le_refl _)]

theorem V27_congr (o o' : Outs (F := F)) (c : Dev nD) (h : Agree 27 o o') : V27 m o c = V27 m o' c :=
  congrArg (StableHlo.after hostOps8) (V26_congr m o o' c (h.mono (by decide)))

theorem agree1 : Agree 3 (outs m) (o1 m) :=
  ((((((((agree_setOut (o8 m) 28 main_v49 _ 3 (by decide) : Agree 3 (o9 m) (o8 m))).trans ((agree_setOut (o7 m) 26 main_v47 _ 3 (by decide) : Agree 3 (o8 m) (o7 m)))).trans ((agree_setOut (o6 m) 20 main_v29 _ 3 (by decide) : Agree 3 (o7 m) (o6 m)))).trans ((agree_setOut (o5 m) 18 main_v27 _ 3 (by decide) : Agree 3 (o6 m) (o5 m)))).trans ((agree_setOut (o4 m) 12 main_v10 _ 3 (by decide) : Agree 3 (o5 m) (o4 m)))).trans ((agree_setOut (o3 m) 10 main_v8 _ 3 (by decide) : Agree 3 (o4 m) (o3 m)))).trans ((agree_setOut (o2 m) 6 main_v5 _ 3 (by decide) : Agree 3 (o3 m) (o2 m)))).trans ((agree_setOut (o1 m) 4 main_v3 _ 3 (by decide) : Agree 3 (o2 m) (o1 m)))

theorem agree2 : Agree 5 (outs m) (o2 m) :=
  (((((((agree_setOut (o8 m) 28 main_v49 _ 5 (by decide) : Agree 5 (o9 m) (o8 m))).trans ((agree_setOut (o7 m) 26 main_v47 _ 5 (by decide) : Agree 5 (o8 m) (o7 m)))).trans ((agree_setOut (o6 m) 20 main_v29 _ 5 (by decide) : Agree 5 (o7 m) (o6 m)))).trans ((agree_setOut (o5 m) 18 main_v27 _ 5 (by decide) : Agree 5 (o6 m) (o5 m)))).trans ((agree_setOut (o4 m) 12 main_v10 _ 5 (by decide) : Agree 5 (o5 m) (o4 m)))).trans ((agree_setOut (o3 m) 10 main_v8 _ 5 (by decide) : Agree 5 (o4 m) (o3 m)))).trans ((agree_setOut (o2 m) 6 main_v5 _ 5 (by decide) : Agree 5 (o3 m) (o2 m)))

theorem agree3 : Agree 9 (outs m) (o3 m) :=
  ((((((agree_setOut (o8 m) 28 main_v49 _ 9 (by decide) : Agree 9 (o9 m) (o8 m))).trans ((agree_setOut (o7 m) 26 main_v47 _ 9 (by decide) : Agree 9 (o8 m) (o7 m)))).trans ((agree_setOut (o6 m) 20 main_v29 _ 9 (by decide) : Agree 9 (o7 m) (o6 m)))).trans ((agree_setOut (o5 m) 18 main_v27 _ 9 (by decide) : Agree 9 (o6 m) (o5 m)))).trans ((agree_setOut (o4 m) 12 main_v10 _ 9 (by decide) : Agree 9 (o5 m) (o4 m)))).trans ((agree_setOut (o3 m) 10 main_v8 _ 9 (by decide) : Agree 9 (o4 m) (o3 m)))

theorem agree4 : Agree 11 (outs m) (o4 m) :=
  (((((agree_setOut (o8 m) 28 main_v49 _ 11 (by decide) : Agree 11 (o9 m) (o8 m))).trans ((agree_setOut (o7 m) 26 main_v47 _ 11 (by decide) : Agree 11 (o8 m) (o7 m)))).trans ((agree_setOut (o6 m) 20 main_v29 _ 11 (by decide) : Agree 11 (o7 m) (o6 m)))).trans ((agree_setOut (o5 m) 18 main_v27 _ 11 (by decide) : Agree 11 (o6 m) (o5 m)))).trans ((agree_setOut (o4 m) 12 main_v10 _ 11 (by decide) : Agree 11 (o5 m) (o4 m)))

theorem agree5 : Agree 17 (outs m) (o5 m) :=
  ((((agree_setOut (o8 m) 28 main_v49 _ 17 (by decide) : Agree 17 (o9 m) (o8 m))).trans ((agree_setOut (o7 m) 26 main_v47 _ 17 (by decide) : Agree 17 (o8 m) (o7 m)))).trans ((agree_setOut (o6 m) 20 main_v29 _ 17 (by decide) : Agree 17 (o7 m) (o6 m)))).trans ((agree_setOut (o5 m) 18 main_v27 _ 17 (by decide) : Agree 17 (o6 m) (o5 m)))

theorem agree6 : Agree 19 (outs m) (o6 m) :=
  (((agree_setOut (o8 m) 28 main_v49 _ 19 (by decide) : Agree 19 (o9 m) (o8 m))).trans ((agree_setOut (o7 m) 26 main_v47 _ 19 (by decide) : Agree 19 (o8 m) (o7 m)))).trans ((agree_setOut (o6 m) 20 main_v29 _ 19 (by decide) : Agree 19 (o7 m) (o6 m)))

theorem agree7 : Agree 25 (outs m) (o7 m) :=
  ((agree_setOut (o8 m) 28 main_v49 _ 25 (by decide) : Agree 25 (o9 m) (o8 m))).trans ((agree_setOut (o7 m) 26 main_v47 _ 25 (by decide) : Agree 25 (o8 m) (o7 m)))

theorem agree8 : Agree 27 (outs m) (o8 m) :=
  (agree_setOut (o8 m) 28 main_v49 _ 27 (by decide) : Agree 27 (o9 m) (o8 m))

theorem ent0 (c : Dev nD) : V1 m c = V1 m c := rfl

theorem outs0 (c : Dev nD) : outs m 2 main_v1 c = (dat0 (E1 m) c).arrAt 3 cfg0.N :=
  ((Agree.mono (n' := 2) (agree1 m) (by decide)) 2 main_v1 c (Nat.le_refl _)).trans (by unfold o1; exact setOut_self _ _ _ _ c)

theorem hF0 (c : Dev nD) (w : Fin cfg0.W) :
    (dat0 (E1 m) c).arrAt w cfg0.N = (fun b : Ref sig .tc => V2 m (outs m) c b) (Pipeline.arrRef spec0 w) :=
  match w with
  | ⟨0, _⟩ => ((dat0 (E1 m) c).arrAt_in 0 rfl _).trans ((A_eq0 (E1 m) c 0).trans
      ((congrFun (ent0 m c) _).symm.trans (V2_of m (outs m) c _ (by decide)).symm))
  | ⟨1, _⟩ => ((dat0 (E1 m) c).arrAt_in 1 rfl _).trans ((A_eq0 (E1 m) c 1).trans
      ((congrFun (ent0 m c) _).symm.trans (V2_of m (outs m) c _ (by decide)).symm))
  | ⟨2, _⟩ => ((dat0 (E1 m) c).arrAt_in 2 rfl _).trans ((A_eq0 (E1 m) c 2).trans
      ((congrFun (ent0 m c) _).symm.trans (V2_of m (outs m) c _ (by decide)).symm))
  | ⟨3, _⟩ => ((outs0 m c).symm.trans (by simp only [V2, Function.update_self])).trans rfl

theorem hrest0 (c : Dev nD) : ∀ b : Ref sig .tc, b ∉ Finset.univ.image (Pipeline.arrRef spec0) →
    (fun b : Ref sig .tc => V2 m (outs m) c b) b = E1 m c b := fun b hb => by
  have hne : b ≠ main_v1 := fun h => hb (Finset.mem_image.mpr ⟨3, Finset.mem_univ _, h.symm⟩)
  exact (V2_of m (outs m) c b (by simpa using hne)).trans (congrFun (ent0 m c) _)

theorem ent1 (c : Dev nD) : V3 m (outs m) c = V3 m (o1 m) c := V3_congr m _ _ c (agree1 m)

theorem outs1 (c : Dev nD) : outs m 4 main_v3 c = (dat1 (E3 m) c).arrAt 3 cfg1.N :=
  ((Agree.mono (n' := 4) (agree2 m) (by decide)) 4 main_v3 c (Nat.le_refl _)).trans (by unfold o2; exact setOut_self _ _ _ _ c)

theorem hF1 (c : Dev nD) (w : Fin cfg1.W) :
    (dat1 (E3 m) c).arrAt w cfg1.N = (fun b : Ref sig .tc => V4 m (outs m) c b) (Pipeline.arrRef spec1 w) :=
  match w with
  | ⟨0, _⟩ => ((dat1 (E3 m) c).arrAt_in 0 rfl _).trans ((A_eq1 (E3 m) c 0).trans
      ((congrFun (ent1 m c) _).symm.trans (V4_of m (outs m) c _ (by decide)).symm))
  | ⟨1, _⟩ => ((dat1 (E3 m) c).arrAt_in 1 rfl _).trans ((A_eq1 (E3 m) c 1).trans
      ((congrFun (ent1 m c) _).symm.trans (V4_of m (outs m) c _ (by decide)).symm))
  | ⟨2, _⟩ => ((dat1 (E3 m) c).arrAt_in 2 rfl _).trans ((A_eq1 (E3 m) c 2).trans
      ((congrFun (ent1 m c) _).symm.trans (V4_of m (outs m) c _ (by decide)).symm))
  | ⟨3, _⟩ => ((outs1 m c).symm.trans (by simp only [V4, Function.update_self])).trans rfl

theorem hrest1 (c : Dev nD) : ∀ b : Ref sig .tc, b ∉ Finset.univ.image (Pipeline.arrRef spec1) →
    (fun b : Ref sig .tc => V4 m (outs m) c b) b = E3 m c b := fun b hb => by
  have hne : b ≠ main_v3 := fun h => hb (Finset.mem_image.mpr ⟨3, Finset.mem_univ _, h.symm⟩)
  exact (V4_of m (outs m) c b (by simpa using hne)).trans (congrFun (ent1 m c) _)

theorem ent2 (c : Dev nD) : V5 m (outs m) c = V5 m (o2 m) c := V5_congr m _ _ c (agree2 m)

theorem outs2 (c : Dev nD) : outs m 6 main_v5 c = (dat2 (E5 m) c).arrAt 3 cfg2.N :=
  ((Agree.mono (n' := 6) (agree3 m) (by decide)) 6 main_v5 c (Nat.le_refl _)).trans (by unfold o3; exact setOut_self _ _ _ _ c)

theorem hF2 (c : Dev nD) (w : Fin cfg2.W) :
    (dat2 (E5 m) c).arrAt w cfg2.N = (fun b : Ref sig .tc => V6 m (outs m) c b) (Pipeline.arrRef spec2 w) :=
  match w with
  | ⟨0, _⟩ => ((dat2 (E5 m) c).arrAt_in 0 rfl _).trans ((A_eq2 (E5 m) c 0).trans
      ((congrFun (ent2 m c) _).symm.trans (V6_of m (outs m) c _ (by decide)).symm))
  | ⟨1, _⟩ => ((dat2 (E5 m) c).arrAt_in 1 rfl _).trans ((A_eq2 (E5 m) c 1).trans
      ((congrFun (ent2 m c) _).symm.trans (V6_of m (outs m) c _ (by decide)).symm))
  | ⟨2, _⟩ => ((dat2 (E5 m) c).arrAt_in 2 rfl _).trans ((A_eq2 (E5 m) c 2).trans
      ((congrFun (ent2 m c) _).symm.trans (V6_of m (outs m) c _ (by decide)).symm))
  | ⟨3, _⟩ => ((outs2 m c).symm.trans (by simp only [V6, Function.update_self])).trans rfl

theorem hrest2 (c : Dev nD) : ∀ b : Ref sig .tc, b ∉ Finset.univ.image (Pipeline.arrRef spec2) →
    (fun b : Ref sig .tc => V6 m (outs m) c b) b = E5 m c b := fun b hb => by
  have hne : b ≠ main_v5 := fun h => hb (Finset.mem_image.mpr ⟨3, Finset.mem_univ _, h.symm⟩)
  exact (V6_of m (outs m) c b (by simpa using hne)).trans (congrFun (ent2 m c) _)

theorem ent3 (c : Dev nD) : V9 m (outs m) c = V9 m (o3 m) c := V9_congr m _ _ c (agree3 m)

theorem outs3 (c : Dev nD) : outs m 10 main_v8 c = (dat3 (E9 m) c).arrAt 2 cfg3.N :=
  ((Agree.mono (n' := 10) (agree4 m) (by decide)) 10 main_v8 c (Nat.le_refl _)).trans (by unfold o4; exact setOut_self _ _ _ _ c)

theorem hF3 (c : Dev nD) (w : Fin cfg3.W) :
    (dat3 (E9 m) c).arrAt w cfg3.N = (fun b : Ref sig .tc => V10 m (outs m) c b) (Pipeline.arrRef spec3 w) :=
  match w with
  | ⟨0, _⟩ => ((dat3 (E9 m) c).arrAt_in 0 rfl _).trans ((A_eq3 (E9 m) c 0).trans
      ((congrFun (ent3 m c) _).symm.trans (V10_of m (outs m) c _ (by decide)).symm))
  | ⟨1, _⟩ => ((dat3 (E9 m) c).arrAt_in 1 rfl _).trans ((A_eq3 (E9 m) c 1).trans
      ((congrFun (ent3 m c) _).symm.trans (V10_of m (outs m) c _ (by decide)).symm))
  | ⟨2, _⟩ => ((outs3 m c).symm.trans (by simp only [V10, Function.update_self])).trans rfl

theorem hrest3 (c : Dev nD) : ∀ b : Ref sig .tc, b ∉ Finset.univ.image (Pipeline.arrRef spec3) →
    (fun b : Ref sig .tc => V10 m (outs m) c b) b = E9 m c b := fun b hb => by
  have hne : b ≠ main_v8 := fun h => hb (Finset.mem_image.mpr ⟨2, Finset.mem_univ _, h.symm⟩)
  exact (V10_of m (outs m) c b (by simpa using hne)).trans (congrFun (ent3 m c) _)

theorem ent4 (c : Dev nD) : V11 m (outs m) c = V11 m (o4 m) c := V11_congr m _ _ c (agree4 m)

theorem outs4 (c : Dev nD) : outs m 12 main_v10 c = (dat4 (E11 m) c).arrAt 2 cfg4.N :=
  ((Agree.mono (n' := 12) (agree5 m) (by decide)) 12 main_v10 c (Nat.le_refl _)).trans (by unfold o5; exact setOut_self _ _ _ _ c)

theorem hF4 (c : Dev nD) (w : Fin cfg4.W) :
    (dat4 (E11 m) c).arrAt w cfg4.N = (fun b : Ref sig .tc => V12 m (outs m) c b) (Pipeline.arrRef spec4 w) :=
  match w with
  | ⟨0, _⟩ => ((dat4 (E11 m) c).arrAt_in 0 rfl _).trans ((A_eq4 (E11 m) c 0).trans
      ((congrFun (ent4 m c) _).symm.trans (V12_of m (outs m) c _ (by decide)).symm))
  | ⟨1, _⟩ => ((dat4 (E11 m) c).arrAt_in 1 rfl _).trans ((A_eq4 (E11 m) c 1).trans
      ((congrFun (ent4 m c) _).symm.trans (V12_of m (outs m) c _ (by decide)).symm))
  | ⟨2, _⟩ => ((outs4 m c).symm.trans (by simp only [V12, Function.update_self])).trans rfl

theorem hrest4 (c : Dev nD) : ∀ b : Ref sig .tc, b ∉ Finset.univ.image (Pipeline.arrRef spec4) →
    (fun b : Ref sig .tc => V12 m (outs m) c b) b = E11 m c b := fun b hb => by
  have hne : b ≠ main_v10 := fun h => hb (Finset.mem_image.mpr ⟨2, Finset.mem_univ _, h.symm⟩)
  exact (V12_of m (outs m) c b (by simpa using hne)).trans (congrFun (ent4 m c) _)

theorem ent5 (c : Dev nD) : V17 m (outs m) c = V17 m (o5 m) c := V17_congr m _ _ c (agree5 m)

theorem outs5 (c : Dev nD) : outs m 18 main_v27 c = (dat5 (E17 m) c).arrAt 2 cfg5.N :=
  ((Agree.mono (n' := 18) (agree6 m) (by decide)) 18 main_v27 c (Nat.le_refl _)).trans (by unfold o6; exact setOut_self _ _ _ _ c)

theorem hF5 (c : Dev nD) (w : Fin cfg5.W) :
    (dat5 (E17 m) c).arrAt w cfg5.N = (fun b : Ref sig .tc => V18 m (outs m) c b) (Pipeline.arrRef spec5 w) :=
  match w with
  | ⟨0, _⟩ => ((dat5 (E17 m) c).arrAt_in 0 rfl _).trans ((A_eq5 (E17 m) c 0).trans
      ((congrFun (ent5 m c) _).symm.trans (V18_of m (outs m) c _ (by decide)).symm))
  | ⟨1, _⟩ => ((dat5 (E17 m) c).arrAt_in 1 rfl _).trans ((A_eq5 (E17 m) c 1).trans
      ((congrFun (ent5 m c) _).symm.trans (V18_of m (outs m) c _ (by decide)).symm))
  | ⟨2, _⟩ => ((outs5 m c).symm.trans (by simp only [V18, Function.update_self])).trans rfl

theorem hrest5 (c : Dev nD) : ∀ b : Ref sig .tc, b ∉ Finset.univ.image (Pipeline.arrRef spec5) →
    (fun b : Ref sig .tc => V18 m (outs m) c b) b = E17 m c b := fun b hb => by
  have hne : b ≠ main_v27 := fun h => hb (Finset.mem_image.mpr ⟨2, Finset.mem_univ _, h.symm⟩)
  exact (V18_of m (outs m) c b (by simpa using hne)).trans (congrFun (ent5 m c) _)

theorem ent6 (c : Dev nD) : V19 m (outs m) c = V19 m (o6 m) c := V19_congr m _ _ c (agree6 m)

theorem outs6 (c : Dev nD) : outs m 20 main_v29 c = (dat6 (E19 m) c).arrAt 2 cfg6.N :=
  ((Agree.mono (n' := 20) (agree7 m) (by decide)) 20 main_v29 c (Nat.le_refl _)).trans (by unfold o7; exact setOut_self _ _ _ _ c)

theorem hF6 (c : Dev nD) (w : Fin cfg6.W) :
    (dat6 (E19 m) c).arrAt w cfg6.N = (fun b : Ref sig .tc => V20 m (outs m) c b) (Pipeline.arrRef spec6 w) :=
  match w with
  | ⟨0, _⟩ => ((dat6 (E19 m) c).arrAt_in 0 rfl _).trans ((A_eq6 (E19 m) c 0).trans
      ((congrFun (ent6 m c) _).symm.trans (V20_of m (outs m) c _ (by decide)).symm))
  | ⟨1, _⟩ => ((dat6 (E19 m) c).arrAt_in 1 rfl _).trans ((A_eq6 (E19 m) c 1).trans
      ((congrFun (ent6 m c) _).symm.trans (V20_of m (outs m) c _ (by decide)).symm))
  | ⟨2, _⟩ => ((outs6 m c).symm.trans (by simp only [V20, Function.update_self])).trans rfl

theorem hrest6 (c : Dev nD) : ∀ b : Ref sig .tc, b ∉ Finset.univ.image (Pipeline.arrRef spec6) →
    (fun b : Ref sig .tc => V20 m (outs m) c b) b = E19 m c b := fun b hb => by
  have hne : b ≠ main_v29 := fun h => hb (Finset.mem_image.mpr ⟨2, Finset.mem_univ _, h.symm⟩)
  exact (V20_of m (outs m) c b (by simpa using hne)).trans (congrFun (ent6 m c) _)

theorem ent7 (c : Dev nD) : V25 m (outs m) c = V25 m (o7 m) c := V25_congr m _ _ c (agree7 m)

theorem outs7 (c : Dev nD) : outs m 26 main_v47 c = (dat7 (E25 m) c).arrAt 2 cfg7.N :=
  ((Agree.mono (n' := 26) (agree8 m) (by decide)) 26 main_v47 c (Nat.le_refl _)).trans (by unfold o8; exact setOut_self _ _ _ _ c)

theorem hF7 (c : Dev nD) (w : Fin cfg7.W) :
    (dat7 (E25 m) c).arrAt w cfg7.N = (fun b : Ref sig .tc => V26 m (outs m) c b) (Pipeline.arrRef spec7 w) :=
  match w with
  | ⟨0, _⟩ => ((dat7 (E25 m) c).arrAt_in 0 rfl _).trans ((A_eq7 (E25 m) c 0).trans
      ((congrFun (ent7 m c) _).symm.trans (V26_of m (outs m) c _ (by decide)).symm))
  | ⟨1, _⟩ => ((dat7 (E25 m) c).arrAt_in 1 rfl _).trans ((A_eq7 (E25 m) c 1).trans
      ((congrFun (ent7 m c) _).symm.trans (V26_of m (outs m) c _ (by decide)).symm))
  | ⟨2, _⟩ => ((outs7 m c).symm.trans (by simp only [V26, Function.update_self])).trans rfl

theorem hrest7 (c : Dev nD) : ∀ b : Ref sig .tc, b ∉ Finset.univ.image (Pipeline.arrRef spec7) →
    (fun b : Ref sig .tc => V26 m (outs m) c b) b = E25 m c b := fun b hb => by
  have hne : b ≠ main_v47 := fun h => hb (Finset.mem_image.mpr ⟨2, Finset.mem_univ _, h.symm⟩)
  exact (V26_of m (outs m) c b (by simpa using hne)).trans (congrFun (ent7 m c) _)

theorem ent8 (c : Dev nD) : V27 m (outs m) c = V27 m (o8 m) c := V27_congr m _ _ c (agree8 m)

theorem outs8 (c : Dev nD) : outs m 28 main_v49 c = (dat8 (E27 m) c).arrAt 2 cfg8.N :=
  by show o9 m 28 main_v49 c = _; unfold o9; exact setOut_self _ _ _ _ c

theorem hF8 (c : Dev nD) (w : Fin cfg8.W) :
    (dat8 (E27 m) c).arrAt w cfg8.N = (fun b : Ref sig .tc => V28 m (outs m) c b) (Pipeline.arrRef spec8 w) :=
  match w with
  | ⟨0, _⟩ => ((dat8 (E27 m) c).arrAt_in 0 rfl _).trans ((A_eq8 (E27 m) c 0).trans
      ((congrFun (ent8 m c) _).symm.trans (V28_of m (outs m) c _ (by decide)).symm))
  | ⟨1, _⟩ => ((dat8 (E27 m) c).arrAt_in 1 rfl _).trans ((A_eq8 (E27 m) c 1).trans
      ((congrFun (ent8 m c) _).symm.trans (V28_of m (outs m) c _ (by decide)).symm))
  | ⟨2, _⟩ => ((outs8 m c).symm.trans (by simp only [V28, Function.update_self])).trans rfl

theorem hrest8 (c : Dev nD) : ∀ b : Ref sig .tc, b ∉ Finset.univ.image (Pipeline.arrRef spec8) →
    (fun b : Ref sig .tc => V28 m (outs m) c b) b = E27 m c b := fun b hb => by
  have hne : b ≠ main_v49 := fun h => hb (Finset.mem_image.mpr ⟨2, Finset.mem_univ _, h.symm⟩)
  exact (V28_of m (outs m) c b (by simpa using hne)).trans (congrFun (ent8 m c) _)

end Cert.KernelIdeal.Gen

end
-- ==== Proof.KI.Regs.lean ====
import proofs.«425335_j13013750907176_1_alg».proof.Proof.KI.Lin0
import proofs.«425335_j13013750907176_1_alg».proof.Proof.KI.Lin1
import proofs.«425335_j13013750907176_1_alg».proof.Proof.KI.Lin2
import proofs.«425335_j13013750907176_1_alg».proof.Proof.KI.Gat3
import proofs.«425335_j13013750907176_1_alg».proof.Proof.KI.Sca4
import proofs.«425335_j13013750907176_1_alg».proof.Proof.KI.Gat5
import proofs.«425335_j13013750907176_1_alg».proof.Proof.KI.Sca6
import proofs.«425335_j13013750907176_1_alg».proof.Proof.KI.Gat7
import proofs.«425335_j13013750907176_1_alg».proof.Proof.KI.Sca8
import proofs.«425335_j13013750907176_1_alg».proof.Proof.KI.Outs

-- Each of the nine regions carries the valuation before it to the valuation after it.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pd : (p : Fin 9) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E9 m) c
  | ⟨4, _⟩ => fun c => dat4 (E11 m) c
  | ⟨5, _⟩ => fun c => dat5 (E17 m) c
  | ⟨6, _⟩ => fun c => dat6 (E19 m) c
  | ⟨7, _⟩ => fun c => dat7 (E25 m) c
  | ⟨8, _⟩ => fun c => dat8 (E27 m) c

abbrev 𝒱n : Variants := Variants.none

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in
def reg0 : Pipeline.RegionSeg (pcfgs (F := F)) adm (pd m) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E1 m c) (fun b : Ref sig .tc => V2 m (outs m) c b) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg0 (c : Dev nD) :
    (iprop(StableHlo.held (c : Thread nD τ) (Pipeline.ucRefs τ sig) (V1 m c) ∗ Rr c) : sProp 𝕄) ⊢ (reg0 m).pre c := by
  rw [ent0 m c]
  exact .rfl

set_option backward.isDefEq.respectTransparency.types false in
def reg1 : Pipeline.RegionSeg (pcfgs (F := F)) adm (pd m) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lz lvz 1 fun _ _ => rfl
  pre c := iprop(StableHlo.held (c : Thread nD τ) (Pipeline.ucRefs τ sig) (V3 m (o1 m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E3 m c) (fun b : Ref sig .tc => V4 m (outs m) c b) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg1 (c : Dev nD) :
    (iprop(StableHlo.held (c : Thread nD τ) (Pipeline.ucRefs τ sig) (V3 m (outs m) c) ∗ Rr c) : sProp 𝕄) ⊢ (reg1 m).pre c := by
  rw [ent1 m c]
  exact .rfl

set_option backward.isDefEq.respectTransparency.types false in
def reg2 : Pipeline.RegionSeg (pcfgs (F := F)) adm (pd m) () defs₀ 𝒱n Lz lvz 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lz lvz 2 fun _ _ => rfl
  pre c := iprop(StableHlo.held (c : Thread nD τ) (Pipeline.ucRefs τ sig) (V5 m (o2 m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pd m) launch2.win launch2.arr_whole c
      ((pd m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E5 m) c)
    unfold Pipeline.ΦA
    iintro ⟨Hp, -, Hr⟩
    isplitl [Hr]; · iexact Hr
    iexact Hp
  hout c := by
    rw [Pipeline.ownSems0_none]
    refine (hout2 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m) ((pd m 2 c).share_full fun _ => rfl)
      (E5 m c) (fun b : Ref sig .tc => V6 m (outs m) c b) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg2 (c : Dev nD) :
    (iprop(StableHlo.held (c : Thread nD τ) (Pipeline.ucRefs τ sig) (V5 m (outs m) c) ∗ Rr c) : sProp 𝕄) ⊢ (reg2 m).pre c := by
  rw [ent2 m c]
  exact .rfl

set_option backward.isDefEq.respectTransparency.types false in
def reg3 : Pipeline.RegionSeg (pcfgs (F := F)) adm (pd m) () defs₀ 𝒱n Lz lvz 3 where
  win := launch3.win.to₀
  block_pos := launch3.block_pos
  stage_whole := launch3.stage_whole
  K := PEmpty
  osem k := k.elim
  ho := Pipeline.OwnSemFacts.none _
  hbody c := (body_obligation3 (E9 m) c).loose
  hwaits := Pipeline.hwaits_of_owed_zero _ _ _ _ Lz lvz 3 fun _ _ => rfl
  pre c := iprop(StableHlo.held (c : Thread nD τ) (Pipeline.ucRefs τ sig) (V9 m (o3 m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pd m) launch3.win launch3.arr_whole c
      ((pd m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (E9 m) c)
    unfold Pipeline.ΦA
    iintro ⟨Hp, -, Hr⟩
    isplitl [Hr]; · iexact Hr
    iexact Hp
  hout c := by
    rw [Pipeline.ownSems0_none]
    refine (hout3 (E9 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m) ((pd m 3 c).share_full fun _ => rfl)
      (E9 m c) (fun b : Ref sig .tc => V10 m (outs m) c b) ((pd m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg3 (c : Dev nD) :
    (iprop(StableHlo.held (c : Thread nD τ) (Pipeline.ucRefs τ sig) (V9 m (outs m) c) ∗ Rr c) : sProp 𝕄) ⊢ (reg3 m).pre c := by
  rw [ent3 m c]
  exact .rfl

set_option backward.isDefEq.respectTransparency.types false in
def reg4 : Pipeline.RegionSeg (pcfgs (F := F)) adm (pd m) () defs₀ 𝒱n Lz lvz 4 where
  win := launch4.win.to₀
  block_pos := launch4.block_pos
  stage_whole := launch4.stage_whole
  K := PEmpty
  osem k := k.elim
  ho := Pipeline.OwnSemFacts.none _
  hbody c := (body_obligation4 (E11 m) c).loose
  hwaits := Pipeline.hwaits_of_owed_zero _ _ _ _ Lz lvz 4 fun _ _ => rfl
  pre c := iprop(StableHlo.held (c : Thread nD τ) (Pipeline.ucRefs τ sig) (V11 m (o4 m) c) ∗ Rr c)
  post c := iprop(StableHlo.held (c : Thread nD τ) (Pipeline.ucRefs τ sig) (V12 m (outs m) c) ∗ Rr c)
  X c := iprop(∃ r, prngReg c r)
  Y c := iprop(∃ r, prngReg c r)
  Z c := Pipeline.unscopedRest (Ix := Unit) (Name := ℕ) (U := UR sig nD τ) (Lvl := ℕ) spec4 c (E11 m c)
  hentry c := by
    rw [Pipeline.ownSems0_none]
    have hsplit := Pipeline.arrays_of_unscopedBufs (p := 4) (pcfgs (F := F)) adm (pd m) launch4.win launch4.arr_whole c
      ((pd m 4 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (E11 m) c)
    unfold Pipeline.ΦA
    iintro ⟨Hp, -, Hr⟩
    isplitl [Hr]; · iexact Hr
    iexact Hp
  hout c := by
    rw [Pipeline.ownSems0_none]
    refine (hout4 (E11 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pd m) ((pd m 4 c).share_full fun _ => rfl)
      (E11 m c) (fun b : Ref sig .tc => V12 m (outs m) c b) ((pd m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg4 (c : Dev nD) :
    (iprop(StableHlo.held (c : Thread nD τ) (Pipeline.ucRefs τ sig) (V11 m (outs m) c) ∗ Rr c) : sProp 𝕄) ⊢ (reg4 m).pre c := by
  rw [ent4 m c]
  exact .rfl

set_option backward.isDefEq.respectTransparency.types false in
def reg5 : Pipeline.RegionSeg (pcfgs (F := F)) adm (pd m) () defs₀ 𝒱n Lz lvz 5 where
  win := launch5.win.to₀
  block_pos := launch5.block_pos
  stage_whole := launch5.stage_whole
  K := PEmpty
  osem k := k.elim
  ho := Pipeline.OwnSemFacts.none _
  hbody c := (body_obligation5 (E17 m) c).loose
  hwaits := Pipeline.hwaits_of_owed_zero _ _ _ _ Lz lvz 5 fun _ _ => rfl
  pre c := iprop(StableHlo.held (c : Thread nD τ) (Pipeline.ucRefs τ sig) (V17 m (o5 m) c) ∗ Rr c)
  post c := iprop(StableHlo.held (c : Thread nD τ) (Pipeline.ucRefs τ sig) (V18 m (outs m) c) ∗ Rr c)
  X c := iprop(∃ r, prngReg c r)
  Y c := iprop(∃ r, prngReg c r)
  Z c := Pipeline.unscopedRest (Ix := Unit) (Name := ℕ) (U := UR sig nD τ) (Lvl := ℕ) spec5 c (E17 m c)
  hentry c := by
    rw [Pipeline.ownSems0_none]
    have hsplit := Pipeline.arrays_of_unscopedBufs (p := 5) (pcfgs (F := F)) adm (pd m) launch5.win launch5.arr_whole c
      ((pd m 5 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (E17 m) c)
    unfold Pipeline.ΦA
    iintro ⟨Hp, -, Hr⟩
    isplitl [Hr]; · iexact Hr
    iexact Hp
  hout c := by
    rw [Pipeline.ownSems0_none]
    refine (hout5 (E17 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pd m) ((pd m 5 c).share_full fun _ => rfl)
      (E17 m c) (fun b : Ref sig .tc => V18 m (outs m) c b) ((pd m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg5 (c : Dev nD) :
    (iprop(StableHlo.held (c : Thread nD τ) (Pipeline.ucRefs τ sig) (V17 m (outs m) c) ∗ Rr c) : sProp 𝕄) ⊢ (reg5 m).pre c := by
  rw [ent5 m c]
  exact .rfl

set_option backward.isDefEq.respectTransparency.types false in
def reg6 : Pipeline.RegionSeg (pcfgs (F := F)) adm (pd m) () defs₀ 𝒱n Lz lvz 6 where
  win := launch6.win.to₀
  block_pos := launch6.block_pos
  stage_whole := launch6.stage_whole
  K := PEmpty
  osem k := k.elim
  ho := Pipeline.OwnSemFacts.none _
  hbody c := (body_obligation6 (E19 m) c).loose
  hwaits := Pipeline.hwaits_of_owed_zero _ _ _ _ Lz lvz 6 fun _ _ => rfl
  pre c := iprop(StableHlo.held (c : Thread nD τ) (Pipeline.ucRefs τ sig) (V19 m (o6 m) c) ∗ Rr c)
  post c := iprop(StableHlo.held (c : Thread nD τ) (Pipeline.ucRefs τ sig) (V20 m (outs m) c) ∗ Rr c)
  X c := iprop(∃ r, prngReg c r)
  Y c := iprop(∃ r, prngReg c r)
  Z c := Pipeline.unscopedRest (Ix := Unit) (Name := ℕ) (U := UR sig nD τ) (Lvl := ℕ) spec6 c (E19 m c)
  hentry c := by
    rw [Pipeline.ownSems0_none]
    have hsplit := Pipeline.arrays_of_unscopedBufs (p := 6) (pcfgs (F := F)) adm (pd m) launch6.win launch6.arr_whole c
      ((pd m 6 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (E19 m) c)
    unfold Pipeline.ΦA
    iintro ⟨Hp, -, Hr⟩
    isplitl [Hr]; · iexact Hr
    iexact Hp
  hout c := by
    rw [Pipeline.ownSems0_none]
    refine (hout6 (E19 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pd m) ((pd m 6 c).share_full fun _ => rfl)
      (E19 m c) (fun b : Ref sig .tc => V20 m (outs m) c b) ((pd m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg6 (c : Dev nD) :
    (iprop(StableHlo.held (c : Thread nD τ) (Pipeline.ucRefs τ sig) (V19 m (outs m) c) ∗ Rr c) : sProp 𝕄) ⊢ (reg6 m).pre c := by
  rw [ent6 m c]
  exact .rfl

set_option backward.isDefEq.respectTransparency.types false in
def reg7 : Pipeline.RegionSeg (pcfgs (F := F)) adm (pd m) () defs₀ 𝒱n Lz lvz 7 where
  win := launch7.win.to₀
  block_pos := launch7.block_pos
  stage_whole := launch7.stage_whole
  K := PEmpty
  osem k := k.elim
  ho := Pipeline.OwnSemFacts.none _
  hbody c := (body_obligation7 (E25 m) c).loose
  hwaits := Pipeline.hwaits_of_owed_zero _ _ _ _ Lz lvz 7 fun _ _ => rfl
  pre c := iprop(StableHlo.held (c : Thread nD τ) (Pipeline.ucRefs τ sig) (V25 m (o7 m) c) ∗ Rr c)
  post c := iprop(StableHlo.held (c : Thread nD τ) (Pipeline.ucRefs τ sig) (V26 m (outs m) c) ∗ Rr c)
  X c := iprop(∃ r, prngReg c r)
  Y c := iprop(∃ r, prngReg c r)
  Z c := Pipeline.unscopedRest (Ix := Unit) (Name := ℕ) (U := UR sig nD τ) (Lvl := ℕ) spec7 c (E25 m c)
  hentry c := by
    rw [Pipeline.ownSems0_none]
    have hsplit := Pipeline.arrays_of_unscopedBufs (p := 7) (pcfgs (F := F)) adm (pd m) launch7.win launch7.arr_whole c
      ((pd m 7 c).share_full fun _ => rfl) (E25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (E25 m) c)
    unfold Pipeline.ΦA
    iintro ⟨Hp, -, Hr⟩
    isplitl [Hr]; · iexact Hr
    iexact Hp
  hout c := by
    rw [Pipeline.ownSems0_none]
    refine (hout7 (E25 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pd m) ((pd m 7 c).share_full fun _ => rfl)
      (E25 m c) (fun b : Ref sig .tc => V26 m (outs m) c b) ((pd m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg7 (c : Dev nD) :
    (iprop(StableHlo.held (c : Thread nD τ) (Pipeline.ucRefs τ sig) (V25 m (outs m) c) ∗ Rr c) : sProp 𝕄) ⊢ (reg7 m).pre c := by
  rw [ent7 m c]
  exact .rfl

set_option backward.isDefEq.respectTransparency.types false in
def reg8 : Pipeline.RegionSeg (pcfgs (F := F)) adm (pd m) () defs₀ 𝒱n Lz lvz 8 where
  win := launch8.win.to₀
  block_pos := launch8.block_pos
  stage_whole := launch8.stage_whole
  K := PEmpty
  osem k := k.elim
  ho := Pipeline.OwnSemFacts.none _
  hbody c := (body_obligation8 (E27 m) c).loose
  hwaits := Pipeline.hwaits_of_owed_zero _ _ _ _ Lz lvz 8 fun _ _ => rfl
  pre c := iprop(StableHlo.held (c : Thread nD τ) (Pipeline.ucRefs τ sig) (V27 m (o8 m) c) ∗ Rr c)
  post c := iprop(StableHlo.held (c : Thread nD τ) (Pipeline.ucRefs τ sig) (V28 m (outs m) c) ∗ Rr c)
  X c := iprop(∃ r, prngReg c r)
  Y c := iprop(∃ r, prngReg c r)
  Z c := Pipeline.unscopedRest (Ix := Unit) (Name := ℕ) (U := UR sig nD τ) (Lvl := ℕ) spec8 c (E27 m c)
  hentry c := by
    rw [Pipeline.ownSems0_none]
    have hsplit := Pipeline.arrays_of_unscopedBufs (p := 8) (pcfgs (F := F)) adm (pd m) launch8.win launch8.arr_whole c
      ((pd m 8 c).share_full fun _ => rfl) (E27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (E27 m) c)
    unfold Pipeline.ΦA
    iintro ⟨Hp, -, Hr⟩
    isplitl [Hr]; · iexact Hr
    iexact Hp
  hout c := by
    rw [Pipeline.ownSems0_none]
    refine (hout8 (E27 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pd m) ((pd m 8 c).share_full fun _ => rfl)
      (E27 m c) (fun b : Ref sig .tc => V28 m (outs m) c b) ((pd m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem pre_reg8 (c : Dev nD) :
    (iprop(StableHlo.held (c : Thread nD τ) (Pipeline.ucRefs τ sig) (V27 m (outs m) c) ∗ Rr c) : sProp 𝕄) ⊢ (reg8 m).pre c := by
  rw [ent8 m c]
  exact .rfl

end Cert.KernelIdeal.Gen

end
-- ==== Proof.KI.Run.lean ====
import proofs.«425335_j13013750907176_1_alg».proof.Proof.KI.Regs
import proofs.«425335_j13013750907176_1_alg».proof.Proof.KI.RunCond

-- The whole run: every argument array ends as launched, and the result array at the last valuation.

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rest_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ Rr c := by
  iintro ⟨-, HO, -, Hp, -⟩
  isplitl [Hp]; · iexists _; iexact Hp
  iexists ∅; iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = V31 m (outs m) c b) :=
  run_cond m emb₁ () 𝒱n Lz lvz (fun _ _ => rfl) ρ (outs m) (pd m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨H, -⟩
      imodintro
      iapply (rest_of_launch ρ c)
      iexact H)
    (fun c => by iintro ⟨-, H⟩; iexact H)
    (reg0 m) (pre_reg0 m) (fun _ => .rfl)
    (reg1 m) (pre_reg1 m) (fun _ => .rfl)
    (reg2 m) (pre_reg2 m) (fun _ => .rfl)
    (reg3 m) (pre_reg3 m) (fun _ => .rfl)
    (reg4 m) (pre_reg4 m) (fun _ => .rfl)
    (reg5 m) (pre_reg5 m) (fun _ => .rfl)
    (reg6 m) (pre_reg6 m) (fun _ => .rfl)
    (reg7 m) (pre_reg7 m) (fun _ => .rfl)
    (reg8 m) (pre_reg8 m) (fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_result : θ_run defs (onTc (τ := τ) (main (F := F))) ⟨m, fun _ => 0, ρ⟩ (fun r => ∀ c : Dev nD,
      r.2.mem ((c.tc : Thread nD τ).loc main_v66) = V31 m (outs m) c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v66 (by decide)),
      (h c _ (mem_uc main_arg0 (by decide))).trans (V31_main_arg0 m (outs m) c),
      (h c _ (mem_uc main_arg1 (by decide))).trans (V31_main_arg1 m (outs m) c),
      (h c _ (mem_uc main_arg2 (by decide))).trans (V31_main_arg2 m (outs m) c),
      (h c _ (mem_uc main_arg3 (by decide))).trans (V31_main_arg3 m (outs m) c),
      (h c _ (mem_uc main_arg4 (by decide))).trans (V31_main_arg4 m (outs m) c),
      (h c _ (mem_uc main_arg5 (by decide))).trans (V31_main_arg5 m (outs m) c),
      (h c _ (mem_uc main_arg6 (by decide))).trans (V31_main_arg6 m (outs m) c),
      (h c _ (mem_uc main_arg7 (by decide))).trans (V31_main_arg7 m (outs m) c),
      (h c _ (mem_uc main_arg8 (by decide))).trans (V31_main_arg8 m (outs m) c),
      (h c _ (mem_uc main_arg9 (by decide))).trans (V31_main_arg9 m (outs m) c),
      (h c _ (mem_uc main_arg10 (by decide))).trans (V31_main_arg10 m (outs m) c),
      (h c _ (mem_uc main_arg11 (by decide))).trans (V31_main_arg11 m (outs m) c),
      (h c _ (mem_uc main_arg12 (by decide))).trans (V31_main_arg12 m (outs m) c),
      (h c _ (mem_uc main_arg13 (by decide))).trans (V31_main_arg13 m (outs m) c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_result m ρ)

end Cert.KernelIdeal.Gen

end
-- ==== Proof.KI.Lin0Val.lean ====
import proofs.«425335_j13013750907176_1_alg».proof.Proof.KI.Lin0Defs
import Idealize.ShloMosaic.Lib.Pipeline.Value
import Idealize.ShloMosaic.Lib.ValueIdx
import Idealize.ShloMosaic.Lib.ValueLayout
import Idealize.ShloMosaic.PureOps.Ideal.Laws

-- Linear layer, region 0: the output array at row r, column k is (Σ_j h[r,j] · w[j,k]) + b[k]; the 50 blocks tile the rows.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

theorem lin_lhs0_a (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lin_lhs0_b (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem lin_rhs0_a (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem lin_rhs0_b (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

theorem lin_matmul0 (x : FVec Ideal S1000x128 .bf16) (w : FVec Ideal S128x128 .bf16) (p : Fin 1000) (q : Fin 128) :
    (matmul (F := Ideal) dot_S1000x128_S128x128_S1000x128_1_0_0_1_n_n none x w (constant (F := Ideal) S1000x128 .f32 0x00000000#32) : S1000x128.Idx → EReal) (ix2 p q)
      = ∑ j : Fin 128, (x : S1000x128.Idx → EReal) (ix2 p j) * (w : S128x128.Idx → EReal) (ix2 j q) := by
  refine (Ideal.matmul_constant_zero_apply dot_S1000x128_S128x128_S1000x128_1_0_0_1_n_n none x w (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lin_lhs0_a _ _
    | ⟨1, _⟩ => exact (lin_lhs0_b _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (lin_rhs0_a _ _).trans hk
    | ⟨1, _⟩ => exact lin_rhs0_b _ _)
  rw [el, er]

theorem lin_bias0 (b : Vec Ideal S1x128 .f32) (p : Fin 1000) (q : Fin 128) :
    (broadcastTo S1000x128 (shapeCast S1x128 b shapeCasts_S1x128_S1x128) broadcasts_S1x128_S1000x128 : S1000x128.Idx → EReal) (ix2 p q)
      = (b : S1x128.Idx → EReal) (ix2 0 q) := by
  rw [shapeCast_self]
  refine broadcastTo_apply b broadcasts_S1x128_S1000x128 (ix2 p q) (ix2 0 q) fun a => ?_
  match a with
  | ⟨0, _⟩ => rfl
  | ⟨1, _⟩ => rfl

theorem lin_pay0 (x : Vec Ideal S1000x128 .f32) (w : Vec Ideal S128x128 .f32) (b : Vec Ideal S1x128 .f32) (p : Fin 1000) (q : Fin 128) :
    (k0_pay1 (F := Ideal) x w b : S1000x128.Idx → EReal) (ix2 p q)
      = (∑ j : Fin 128, (x : S1000x128.Idx → EReal) (ix2 p j) * (w : S128x128.Idx → EReal) (ix2 j q)) + (b : S1x128.Idx → EReal) (ix2 0 q) := by
  unfold k0_pay1
  show (matmul (F := Ideal) dot_S1000x128_S128x128_S1000x128_1_0_0_1_n_n none _ _ (constant (F := Ideal) S1000x128 .f32 0x00000000#32) : S1000x128.Idx → EReal) (ix2 p q) + (broadcastTo S1000x128 (shapeCast S1x128 b shapeCasts_S1x128_S1x128) broadcasts_S1x128_S1000x128 : S1000x128.Idx → EReal) (ix2 p q) = _
  rw [lin_bias0]
  exact congrArg (· + (b : S1x128.Idx → EReal) (ix2 0 q)) (lin_matmul0 _ _ p q)

variable (V : (c : Dev nD) → (b : Ref sig .tc) → Buf (Elt Ideal) ((c : Thread nD τ).loc b))

abbrev linH0 (c : Dev nD) : S50000x128.Idx → EReal := V c (Pipeline.arrRef spec0 0)
abbrev linW0 (c : Dev nD) : S128x128.Idx → EReal := V c (Pipeline.arrRef spec0 1)
abbrev linB0 (c : Dev nD) : S1x128.Idx → EReal := V c (Pipeline.arrRef spec0 2)

abbrev linHblk0 (c : Dev nD) (t : Fin cfg0.N) : S1000x128.Idx → EReal := iblk0 V c 0 t
abbrev linWblk0 (c : Dev nD) (t : Fin cfg0.N) : S128x128.Idx → EReal := iblk0 V c 1 t
abbrev linBblk0 (c : Dev nD) (t : Fin cfg0.N) : S1x128.Idx → EReal := iblk0 V c 2 t

theorem lin_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lin_flush0 : ∀ t : Fin cfg0.N, (cfg0.win 3).flush t = true :=
  (by decide +kernel : ∀ t : Fin grid0.N, win0_3.flush t = true)

theorem lin_hblk0 (c : Dev nD) (t : Fin cfg0.N) (p : Fin 1000) (q : Fin 128) (hrow : t.val * 1000 + p.val < 50000) :
    linHblk0 V c t (ix2 p q) = linH0 V c (ix2 ⟨t.val * 1000 + p.val, hrow⟩ q) := by
  obtain ⟨erow, ecol, -⟩ := lin_idx0 t
  show V c (Pipeline.arrRef spec0 0) (((cfg0.win 0).blk t).view.emb (ix2 p q)) = V c (Pipeline.arrRef spec0 0) (ix2 ⟨t.val * 1000 + p.val, hrow⟩ q)
  refine congrArg _ (funext fun a => Fin.ext ?_)
  match a with
  | ⟨0, _⟩ => show win0_0.index t (0 : Fin 2) * 1000 + 1 * p.val = t.val * 1000 + p.val; rw [erow]; omega
  | ⟨1, _⟩ => show win0_0.index t (1 : Fin 2) * 128 + 1 * q.val = q.val; rw [ecol]; omega

theorem lin_wblk0 (c : Dev nD) (t : Fin cfg0.N) (p : Fin 128) (q : Fin 128) :
    linWblk0 V c t (ix2 p q) = linW0 V c (ix2 p q) := by
  obtain ⟨-, -, erow, ecol, -⟩ := lin_idx0 t
  show V c (Pipeline.arrRef spec0 1) (((cfg0.win 1).blk t).view.emb (ix2 p q)) = V c (Pipeline.arrRef spec0 1) (ix2 p q)
  refine congrArg _ (funext fun a => Fin.ext ?_)
  match a with
  | ⟨0, _⟩ => show win0_1.index t (0 : Fin 2) * 128 + 1 * p.val = p.val; rw [erow]; omega
  | ⟨1, _⟩ => show win0_1.index t (1 : Fin 2) * 128 + 1 * q.val = q.val; rw [ecol]; omega

theorem lin_bblk0 (c : Dev nD) (t : Fin cfg0.N) (p : Fin 1) (q : Fin 128) :
    linBblk0 V c t (ix2 p q) = linB0 V c (ix2 p q) := by
  obtain ⟨-, -, -, -, erow, ecol, -⟩ := lin_idx0 t
  show V c (Pipeline.arrRef spec0 2) (((cfg0.win 2).blk t).view.emb (ix2 p q)) = V c (Pipeline.arrRef spec0 2) (ix2 p q)
  refine congrArg _ (funext fun a => Fin.ext ?_)
  match a with
  | ⟨0, _⟩ => show win0_2.index t (0 : Fin 2) * 1 + 1 * p.val = p.val; rw [erow]; omega
  | ⟨1, _⟩ => show win0_2.index t (1 : Fin 2) * 128 + 1 * q.val = q.val; rw [ecol]; omega

def linOut0 (h : S50000x128.Idx → EReal) (w : S128x128.Idx → EReal) (b : S1x128.Idx → EReal) : S50000x128.Idx → EReal :=
  fun i => (∑ j : Fin 128, h (ix2 (⟨(i 0).val, idx2_lt0 i⟩ : Fin 50000) j) * w (ix2 j (⟨(i 1).val, idx2_lt1 i⟩ : Fin 128)))
    + b (ix2 0 (⟨(i 1).val, idx2_lt1 i⟩ : Fin 128))

theorem linOut0_apply (h : S50000x128.Idx → EReal) (w : S128x128.Idx → EReal) (b : S1x128.Idx → EReal) (r : Fin 50000) (k : Fin 128) :
    linOut0 h w b (ix2 r k) = (∑ j : Fin 128, h (ix2 r j) * w (ix2 j k)) + b (ix2 0 k) := rfl

theorem lin_flushed0 (c : Dev nD) (t : Fin cfg0.N) :
    (dat0 (F := Ideal) V c).flushed 3 t
      = ((cfg0.win 3).blk t).view.read (Elt Ideal) (linOut0 (linH0 V c) (linW0 V c) (linB0 V c)) := by
  show (cfg0.win 3).cut (grid0.coords t) ((dat0 (F := Ideal) V c).after 3 t) = _
  rw [after0_3]
  refine funext fun (j : S1000x128.Idx) => ?_
  obtain ⟨p, q, rfl⟩ : ∃ (p : Fin 1000) (q : Fin 128), j = ix2 p q := ⟨j 0, j 1, eq_ix2 j⟩
  have hN : cfg0.N = 50 := N_0
  have hrow : t.val * 1000 + p.val < 50000 := by have := t.isLt; omega
  obtain ⟨-, -, -, -, -, -, erow, ecol⟩ := lin_idx0 t
  have hemb : ((cfg0.win 3).blk t).view.emb (ix2 p q) = (ix2 ⟨t.val * 1000 + p.val, hrow⟩ q : S50000x128.Idx) :=
    funext fun a => Fin.ext (by
      match a with
      | ⟨0, _⟩ => show win0_3.index t (0 : Fin 2) * 1000 + 1 * p.val = t.val * 1000 + p.val; rw [erow]; omega
      | ⟨1, _⟩ => show win0_3.index t (1 : Fin 2) * 128 + 1 * q.val = q.val; rw [ecol]; omega)
  show (k0_pay1 (F := Ideal) (linHblk0 V c t) (linWblk0 V c t) (linBblk0 V c t) : S1000x128.Idx → EReal) (ix2 p q)
      = linOut0 (linH0 V c) (linW0 V c) (linB0 V c) (((cfg0.win 3).blk t).view.emb (ix2 p q))
  rw [hemb, linOut0_apply]
  refine (lin_pay0 (linHblk0 V c t) (linWblk0 V c t) (linBblk0 V c t) p q).trans ?_
  refine congrArg₂ (· + ·) (Finset.sum_congr rfl fun j _ => ?_) (lin_bblk0 V c t 0 q)
  exact congrArg₂ (· * ·) (lin_hblk0 V c t p j hrow) (lin_wblk0 V c t j q)

theorem lin_mem_blk0 (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole (Pipeline.arrRef spec0 3)).slice (win0_3.rect t)).set ↔ _
  rw [View.set_slice_whole, Rect.mem_set_unit]
  exact Iff.rfl

theorem lin_arr0 (c : Dev nD) :
    (dat0 (F := Ideal) V c).arrAt 3 cfg0.N = linOut0 (linH0 V c) (linW0 V c) (linB0 V c) :=
  (dat0 (F := Ideal) V c).arrAt_eq_of_cover 3 (linOut0 (linH0 V c) (linW0 V c) (linB0 V c)) (fun t _ => lin_flushed0 V c t) fun i => by
    have hN : cfg0.N = 50 := N_0
    have hrow : (i 0).val < 50000 := idx2_lt0 i
    have hcol : (i 1).val < 128 := idx2_lt1 i
    have ht : (i 0).val / 1000 < cfg0.N := by rw [hN]; omega
    obtain ⟨-, -, -, -, -, -, erow, ecol⟩ := lin_idx0 ⟨(i 0).val / 1000, ht⟩
    refine ⟨⟨(i 0).val / 1000, ht⟩, lin_flush0 _, ?_⟩
    rw [lin_mem_blk0]
    intro a
    match a with
    | ⟨0, _⟩ =>
      show win0_3.index ⟨(i 0).val / 1000, ht⟩ (0 : Fin 2) * 1000 ≤ (i 0).val ∧ (i 0).val < win0_3.index ⟨(i 0).val / 1000, ht⟩ (0 : Fin 2) * 1000 + 1000
      rw [erow]; dsimp only; omega
    | ⟨1, _⟩ =>
      show win0_3.index ⟨(i 0).val / 1000, ht⟩ (1 : Fin 2) * 128 ≤ (i 1).val ∧ (i 1).val < win0_3.index ⟨(i 0).val / 1000, ht⟩ (1 : Fin 2) * 128 + 128
      rw [ecol]; omega

theorem lin_final0 (c : Dev nD) (r : Fin 50000) (k : Fin 128) :
    ((dat0 (F := Ideal) V c).arrAt 3 cfg0.N : S50000x128.Idx → EReal) (ix2 r k)
      = (∑ j : Fin 128, linH0 V c (ix2 r j) * linW0 V c (ix2 j k)) + linB0 V c (ix2 0 k) :=
  (congrFun (lin_arr0 V c) (ix2 r k)).trans (linOut0_apply _ _ _ r k)

end Cert.KernelIdeal.Gen

end
-- ==== Proof.KI.Lin1Val.lean ====
import proofs.«425335_j13013750907176_1_alg».proof.Proof.KI.Lin1Defs
import proofs.«425335_j13013750907176_1_alg».proof.Proof.KI.Lin0Val
import proofs.«425335_j13013750907176_1_alg».proof.Proof.Verbatim
import Idealize.ShloMosaic.Lib.Pipeline.Value
import Idealize.ShloMosaic.Lib.ValueIdx
import Idealize.ShloMosaic.Lib.ValueLayout
import Idealize.ShloMosaic.PureOps.Ideal.Laws

-- Linear layer, region 1: the output array at row r, column k is (Σ_j h[r,j] · w[j,k]) + b[k]; the 50 blocks tile the rows.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

theorem lin_lhs1_a (i : S1000x128.Idx) (q : dot_S1000x128_S128x128_S1000x128_1_0_0_1_n_n.contr.Idx) :
    (dot_S1000x128_S128x128_S1000x128_1_0_0_1_n_n.lhsIdx i q 0).val = (i 0).val := by
  exact_verbatim lin_lhs0_a i q
theorem lin_lhs1_b (i : S1000x128.Idx) (q : dot_S1000x128_S128x128_S1000x128_1_0_0_1_n_n.contr.Idx) :
    (dot_S1000x128_S128x128_S1000x128_1_0_0_1_n_n.lhsIdx i q 1).val = (q ⟨0, by decide⟩).val := by
  exact_verbatim lin_lhs0_b i q
theorem lin_rhs1_a (i : S1000x128.Idx) (q : dot_S1000x128_S128x128_S1000x128_1_0_0_1_n_n.contr.Idx) :
    (dot_S1000x128_S128x128_S1000x128_1_0_0_1_n_n.rhsIdx i q 0).val = (q ⟨0, by decide⟩).val := by
  exact_verbatim lin_rhs0_a i q
theorem lin_rhs1_b (i : S1000x128.Idx) (q : dot_S1000x128_S128x128_S1000x128_1_0_0_1_n_n.contr.Idx) :
    (dot_S1000x128_S128x128_S1000x128_1_0_0_1_n_n.rhsIdx i q 1).val = (i 1).val := by
  exact_verbatim lin_rhs0_b i q

theorem lin_matmul1 (x : FVec Ideal S1000x128 .bf16) (w : FVec Ideal S128x128 .bf16) (p : Fin 1000) (q : Fin 128) :
    (matmul (F := Ideal) dot_S1000x128_S128x128_S1000x128_1_0_0_1_n_n none x w (constant (F := Ideal) S1000x128 .f32 0x00000000#32) : S1000x128.Idx → EReal) (ix2 p q)
      = ∑ j : Fin 128, (x : S1000x128.Idx → EReal) (ix2 p j) * (w : S128x128.Idx → EReal) (ix2 j q) := by
  exact_verbatim lin_matmul0 x w p q

theorem lin_bias1 (b : Vec Ideal S1x128 .f32) (p : Fin 1000) (q : Fin 128) :
    (broadcastTo S1000x128 (shapeCast S1x128 b shapeCasts_S1x128_S1x128) broadcasts_S1x128_S1000x128 : S1000x128.Idx → EReal) (ix2 p q)
      = (b : S1x128.Idx → EReal) (ix2 0 q) := by
  exact_verbatim lin_bias0 b p q

theorem lin_pay1 (x : Vec Ideal S1000x128 .f32) (w : Vec Ideal S128x128 .f32) (b : Vec Ideal S1x128 .f32) (p : Fin 1000) (q : Fin 128) :
    (k1_pay1 (F := Ideal) x w b : S1000x128.Idx → EReal) (ix2 p q)
      = (∑ j : Fin 128, (x : S1000x128.Idx → EReal) (ix2 p j) * (w : S128x128.Idx → EReal) (ix2 j q)) + (b : S1x128.Idx → EReal) (ix2 0 q) := by
  exact_verbatim lin_pay0 x w b p q

variable (V : (c : Dev nD) → (b : Ref sig .tc) → Buf (Elt Ideal) ((c : Thread nD τ).loc b))

abbrev linH1 (c : Dev nD) : S50000x128.Idx → EReal := V c (Pipeline.arrRef spec1 0)
abbrev linW1 (c : Dev nD) : S128x128.Idx → EReal := V c (Pipeline.arrRef spec1 1)
abbrev linB1 (c : Dev nD) : S1x128.Idx → EReal := V c (Pipeline.arrRef spec1 2)

abbrev linHblk1 (c : Dev nD) (t : Fin cfg1.N) : S1000x128.Idx → EReal := iblk1 V c 0 t
abbrev linWblk1 (c : Dev nD) (t : Fin cfg1.N) : S128x128.Idx → EReal := iblk1 V c 1 t
abbrev linBblk1 (c : Dev nD) (t : Fin cfg1.N) : S1x128.Idx → EReal := iblk1 V c 2 t

theorem lin_idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 := by
  exact_verbatim lin_idx0

theorem lin_flush1 : ∀ t : Fin cfg1.N, (cfg1.win 3).flush t = true := by
  exact_verbatim lin_flush0

theorem lin_hblk1 (c : Dev nD) (t : Fin cfg1.N) (p : Fin 1000) (q : Fin 128) (hrow : t.val * 1000 + p.val < 50000) :
    linHblk1 V c t (ix2 p q) = linH1 V c (ix2 ⟨t.val * 1000 + p.val, hrow⟩ q) := by
  obtain ⟨erow, ecol, -⟩ := lin_idx1 t
  show V c (Pipeline.arrRef spec1 0) (((cfg1.win 0).blk t).view.emb (ix2 p q)) = V c (Pipeline.arrRef spec1 0) (ix2 ⟨t.val * 1000 + p.val, hrow⟩ q)
  refine congrArg _ (funext fun a => Fin.ext ?_)
  match a with
  | ⟨0, _⟩ => show win1_0.index t (0 : Fin 2) * 1000 + 1 * p.val = t.val * 1000 + p.val; rw [erow]; omega
  | ⟨1, _⟩ => show win1_0.index t (1 : Fin 2) * 128 + 1 * q.val = q.val; rw [ecol]; omega

theorem lin_wblk1 (c : Dev nD) (t : Fin cfg1.N) (p : Fin 128) (q : Fin 128) :
    linWblk1 V c t (ix2 p q) = linW1 V c (ix2 p q) := by
  obtain ⟨-, -, erow, ecol, -⟩ := lin_idx1 t
  show V c (Pipeline.arrRef spec1 1) (((cfg1.win 1).blk t).view.emb (ix2 p q)) = V c (Pipeline.arrRef spec1 1) (ix2 p q)
  refine congrArg _ (funext fun a => Fin.ext ?_)
  match a with
  | ⟨0, _⟩ => show win1_1.index t (0 : Fin 2) * 128 + 1 * p.val = p.val; rw [erow]; omega
  | ⟨1, _⟩ => show win1_1.index t (1 : Fin 2) * 128 + 1 * q.val = q.val; rw [ecol]; omega

theorem lin_bblk1 (c : Dev nD) (t : Fin cfg1.N) (p : Fin 1) (q : Fin 128) :
    linBblk1 V c t (ix2 p q) = linB1 V c (ix2 p q) := by
  obtain ⟨-, -, -, -, erow, ecol, -⟩ := lin_idx1 t
  show V c (Pipeline.arrRef spec1 2) (((cfg1.win 2).blk t).view.emb (ix2 p q)) = V c (Pipeline.arrRef spec1 2) (ix2 p q)
  refine congrArg _ (funext fun a => Fin.ext ?_)
  match a with
  | ⟨0, _⟩ => show win1_2.index t (0 : Fin 2) * 1 + 1 * p.val = p.val; rw [erow]; omega
  | ⟨1, _⟩ => show win1_2.index t (1 : Fin 2) * 128 + 1 * q.val = q.val; rw [ecol]; omega

def linOut1 (h : S50000x128.Idx → EReal) (w : S128x128.Idx → EReal) (b : S1x128.Idx → EReal) : S50000x128.Idx → EReal :=
  fun i => (∑ j : Fin 128, h (ix2 (⟨(i 0).val, idx2_lt0 i⟩ : Fin 50000) j) * w (ix2 j (⟨(i 1).val, idx2_lt1 i⟩ : Fin 128)))
    + b (ix2 0 (⟨(i 1).val, idx2_lt1 i⟩ : Fin 128))

theorem linOut1_apply (h : S50000x128.Idx → EReal) (w : S128x128.Idx → EReal) (b : S1x128.Idx → EReal) (r : Fin 50000) (k : Fin 128) :
    linOut1 h w b (ix2 r k) = (∑ j : Fin 128, h (ix2 r j) * w (ix2 j k)) + b (ix2 0 k) := rfl

theorem lin_flushed1 (c : Dev nD) (t : Fin cfg1.N) :
    (dat1 (F := Ideal) V c).flushed 3 t
      = ((cfg1.win 3).blk t).view.read (Elt Ideal) (linOut1 (linH1 V c) (linW1 V c) (linB1 V c)) := by
  show (cfg1.win 3).cut (grid1.coords t) ((dat1 (F := Ideal) V c).after 3 t) = _
  rw [after1_3]
  refine funext fun (j : S1000x128.Idx) => ?_
  obtain ⟨p, q, rfl⟩ : ∃ (p : Fin 1000) (q : Fin 128), j = ix2 p q := ⟨j 0, j 1, eq_ix2 j⟩
  have hN : cfg1.N = 50 := N_1
  have hrow : t.val * 1000 + p.val < 50000 := by have := t.isLt; omega
  obtain ⟨-, -, -, -, -, -, erow, ecol⟩ := lin_idx1 t
  have hemb : ((cfg1.win 3).blk t).view.emb (ix2 p q) = (ix2 ⟨t.val * 1000 + p.val, hrow⟩ q : S50000x128.Idx) :=
    funext fun a => Fin.ext (by
      match a with
      | ⟨0, _⟩ => show win1_3.index t (0 : Fin 2) * 1000 + 1 * p.val = t.val * 1000 + p.val; rw [erow]; omega
      | ⟨1, _⟩ => show win1_3.index t (1 : Fin 2) * 128 + 1 * q.val = q.val; rw [ecol]; omega)
  show (k1_pay1 (F := Ideal) (linHblk1 V c t) (linWblk1 V c t) (linBblk1 V c t) : S1000x128.Idx → EReal) (ix2 p q)
      = linOut1 (linH1 V c) (linW1 V c) (linB1 V c) (((cfg1.win 3).blk t).view.emb (ix2 p q))
  rw [hemb, linOut1_apply]
  refine (lin_pay1 (linHblk1 V c t) (linWblk1 V c t) (linBblk1 V c t) p q).trans ?_
  refine congrArg₂ (· + ·) (Finset.sum_congr rfl fun j _ => ?_) (lin_bblk1 V c t 0 q)
  exact congrArg₂ (· * ·) (lin_hblk1 V c t p j hrow) (lin_wblk1 V c t j q)

theorem lin_mem_blk1 (t : Fin cfg1.N) (i : S50000x128.Idx) :
    i ∈ ((cfg1.win 3).blk t).view.set ↔ ∀ a : Fin 2, win1_3.index t a * S1000x128.size a ≤ (i a).val ∧ (i a).val < win1_3.index t a * S1000x128.size a + S1000x128.size a := by
  exact_verbatim lin_mem_blk0 t i

theorem lin_arr1 (c : Dev nD) :
    (dat1 (F := Ideal) V c).arrAt 3 cfg1.N = linOut1 (linH1 V c) (linW1 V c) (linB1 V c) :=
  (dat1 (F := Ideal) V c).arrAt_eq_of_cover 3 (linOut1 (linH1 V c) (linW1 V c) (linB1 V c)) (fun t _ => lin_flushed1 V c t) fun i => by
    have hN : cfg1.N = 50 := N_1
    have hrow : (i 0).val < 50000 := idx2_lt0 i
    have hcol : (i 1).val < 128 := idx2_lt1 i
    have ht : (i 0).val / 1000 < cfg1.N := by rw [hN]; omega
    obtain ⟨-, -, -, -, -, -, erow, ecol⟩ := lin_idx1 ⟨(i 0).val / 1000, ht⟩
    refine ⟨⟨(i 0).val / 1000, ht⟩, lin_flush1 _, ?_⟩
    rw [lin_mem_blk1]
    intro a
    match a with
    | ⟨0, _⟩ =>
      show win1_3.index ⟨(i 0).val / 1000, ht⟩ (0 : Fin 2) * 1000 ≤ (i 0).val ∧ (i 0).val < win1_3.index ⟨(i 0).val / 1000, ht⟩ (0 : Fin 2) * 1000 + 1000
      rw [erow]; dsimp only; omega
    | ⟨1, _⟩ =>
      show win1_3.index ⟨(i 0).val / 1000, ht⟩ (1 : Fin 2) * 128 ≤ (i 1).val ∧ (i 1).val < win1_3.index ⟨(i 0).val / 1000, ht⟩ (1 : Fin 2) * 128 + 128
      rw [ecol]; omega

theorem lin_final1 (c : Dev nD) (r : Fin 50000) (k : Fin 128) :
    ((dat1 (F := Ideal) V c).arrAt 3 cfg1.N : S50000x128.Idx → EReal) (ix2 r k)
      = (∑ j : Fin 128, linH1 V c (ix2 r j) * linW1 V c (ix2 j k)) + linB1 V c (ix2 0 k) :=
  (congrFun (lin_arr1 V c) (ix2 r k)).trans (linOut1_apply _ _ _ r k)

end Cert.KernelIdeal.Gen

end
-- ==== Proof.KI.Lin2Val.lean ====
import proofs.«425335_j13013750907176_1_alg».proof.Proof.KI.Lin2Defs
import proofs.«425335_j13013750907176_1_alg».proof.Proof.KI.Lin0Val
import proofs.«425335_j13013750907176_1_alg».proof.Proof.Verbatim
import Idealize.ShloMosaic.Lib.Pipeline.Value
import Idealize.ShloMosaic.Lib.ValueIdx
import Idealize.ShloMosaic.Lib.ValueLayout
import Idealize.ShloMosaic.PureOps.Ideal.Laws

-- Linear layer, region 2: the output array at row r, column k is (Σ_j h[r,j] · w[j,k]) + b[k]; the 50 blocks tile the rows.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

theorem lin_lhs2_a (i : S1000x128.Idx) (q : dot_S1000x128_S128x128_S1000x128_1_0_0_1_n_n.contr.Idx) :
    (dot_S1000x128_S128x128_S1000x128_1_0_0_1_n_n.lhsIdx i q 0).val = (i 0).val := by
  exact_verbatim lin_lhs0_a i q
theorem lin_lhs2_b (i : S1000x128.Idx) (q : dot_S1000x128_S128x128_S1000x128_1_0_0_1_n_n.contr.Idx) :
    (dot_S1000x128_S128x128_S1000x128_1_0_0_1_n_n.lhsIdx i q 1).val = (q ⟨0, by decide⟩).val := by
  exact_verbatim lin_lhs0_b i q
theorem lin_rhs2_a (i : S1000x128.Idx) (q : dot_S1000x128_S128x128_S1000x128_1_0_0_1_n_n.contr.Idx) :
    (dot_S1000x128_S128x128_S1000x128_1_0_0_1_n_n.rhsIdx i q 0).val = (q ⟨0, by decide⟩).val := by
  exact_verbatim lin_rhs0_a i q
theorem lin_rhs2_b (i : S1000x128.Idx) (q : dot_S1000x128_S128x128_S1000x128_1_0_0_1_n_n.contr.Idx) :
    (dot_S1000x128_S128x128_S1000x128_1_0_0_1_n_n.rhsIdx i q 1).val = (i 1).val := by
  exact_verbatim lin_rhs0_b i q

theorem lin_matmul2 (x : FVec Ideal S1000x128 .bf16) (w : FVec Ideal S128x128 .bf16) (p : Fin 1000) (q : Fin 128) :
    (matmul (F := Ideal) dot_S1000x128_S128x128_S1000x128_1_0_0_1_n_n none x w (constant (F := Ideal) S1000x128 .f32 0x00000000#32) : S1000x128.Idx → EReal) (ix2 p q)
      = ∑ j : Fin 128, (x : S1000x128.Idx → EReal) (ix2 p j) * (w : S128x128.Idx → EReal) (ix2 j q) := by
  exact_verbatim lin_matmul0 x w p q

theorem lin_bias2 (b : Vec Ideal S1x128 .f32) (p : Fin 1000) (q : Fin 128) :
    (broadcastTo S1000x128 (shapeCast S1x128 b shapeCasts_S1x128_S1x128) broadcasts_S1x128_S1000x128 : S1000x128.Idx → EReal) (ix2 p q)
      = (b : S1x128.Idx → EReal) (ix2 0 q) := by
  exact_verbatim lin_bias0 b p q

theorem lin_pay2 (x : Vec Ideal S1000x128 .f32) (w : Vec Ideal S128x128 .f32) (b : Vec Ideal S1x128 .f32) (p : Fin 1000) (q : Fin 128) :
    (k2_pay1 (F := Ideal) x w b : S1000x128.Idx → EReal) (ix2 p q)
      = (∑ j : Fin 128, (x : S1000x128.Idx → EReal) (ix2 p j) * (w : S128x128.Idx → EReal) (ix2 j q)) + (b : S1x128.Idx → EReal) (ix2 0 q) := by
  exact_verbatim lin_pay0 x w b p q

variable (V : (c : Dev nD) → (b : Ref sig .tc) → Buf (Elt Ideal) ((c : Thread nD τ).loc b))

abbrev linH2 (c : Dev nD) : S50000x128.Idx → EReal := V c (Pipeline.arrRef spec2 0)
abbrev linW2 (c : Dev nD) : S128x128.Idx → EReal := V c (Pipeline.arrRef spec2 1)
abbrev linB2 (c : Dev nD) : S1x128.Idx → EReal := V c (Pipeline.arrRef spec2 2)

abbrev linHblk2 (c : Dev nD) (t : Fin cfg2.N) : S1000x128.Idx → EReal := iblk2 V c 0 t
abbrev linWblk2 (c : Dev nD) (t : Fin cfg2.N) : S128x128.Idx → EReal := iblk2 V c 1 t
abbrev linBblk2 (c : Dev nD) (t : Fin cfg2.N) : S1x128.Idx → EReal := iblk2 V c 2 t

theorem lin_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 := by
  exact_verbatim lin_idx0

theorem lin_flush2 : ∀ t : Fin cfg2.N, (cfg2.win 3).flush t = true := by
  exact_verbatim lin_flush0

theorem lin_hblk2 (c : Dev nD) (t : Fin cfg2.N) (p : Fin 1000) (q : Fin 128) (hrow : t.val * 1000 + p.val < 50000) :
    linHblk2 V c t (ix2 p q) = linH2 V c (ix2 ⟨t.val * 1000 + p.val, hrow⟩ q) := by
  obtain ⟨erow, ecol, -⟩ := lin_idx2 t
  show V c (Pipeline.arrRef spec2 0) (((cfg2.win 0).blk t).view.emb (ix2 p q)) = V c (Pipeline.arrRef spec2 0) (ix2 ⟨t.val * 1000 + p.val, hrow⟩ q)
  refine congrArg _ (funext fun a => Fin.ext ?_)
  match a with
  | ⟨0, _⟩ => show win2_0.index t (0 : Fin 2) * 1000 + 1 * p.val = t.val * 1000 + p.val; rw [erow]; omega
  | ⟨1, _⟩ => show win2_0.index t (1 : Fin 2) * 128 + 1 * q.val = q.val; rw [ecol]; omega

theorem lin_wblk2 (c : Dev nD) (t : Fin cfg2.N) (p : Fin 128) (q : Fin 128) :
    linWblk2 V c t (ix2 p q) = linW2 V c (ix2 p q) := by
  obtain ⟨-, -, erow, ecol, -⟩ := lin_idx2 t
  show V c (Pipeline.arrRef spec2 1) (((cfg2.win 1).blk t).view.emb (ix2 p q)) = V c (Pipeline.arrRef spec2 1) (ix2 p q)
  refine congrArg _ (funext fun a => Fin.ext ?_)
  match a with
  | ⟨0, _⟩ => show win2_1.index t (0 : Fin 2) * 128 + 1 * p.val = p.val; rw [erow]; omega
  | ⟨1, _⟩ => show win2_1.index t (1 : Fin 2) * 128 + 1 * q.val = q.val; rw [ecol]; omega

theorem lin_bblk2 (c : Dev nD) (t : Fin cfg2.N) (p : Fin 1) (q : Fin 128) :
    linBblk2 V c t (ix2 p q) = linB2 V c (ix2 p q) := by
  obtain ⟨-, -, -, -, erow, ecol, -⟩ := lin_idx2 t
  show V c (Pipeline.arrRef spec2 2) (((cfg2.win 2).blk t).view.emb (ix2 p q)) = V c (Pipeline.arrRef spec2 2) (ix2 p q)
  refine congrArg _ (funext fun a => Fin.ext ?_)
  match a with
  | ⟨0, _⟩ => show win2_2.index t (0 : Fin 2) * 1 + 1 * p.val = p.val; rw [erow]; omega
  | ⟨1, _⟩ => show win2_2.index t (1 : Fin 2) * 128 + 1 * q.val = q.val; rw [ecol]; omega

def linOut2 (h : S50000x128.Idx → EReal) (w : S128x128.Idx → EReal) (b : S1x128.Idx → EReal) : S50000x128.Idx → EReal :=
  fun i => (∑ j : Fin 128, h (ix2 (⟨(i 0).val, idx2_lt0 i⟩ : Fin 50000) j) * w (ix2 j (⟨(i 1).val, idx2_lt1 i⟩ : Fin 128)))
    + b (ix2 0 (⟨(i 1).val, idx2_lt1 i⟩ : Fin 128))

theorem linOut2_apply (h : S50000x128.Idx → EReal) (w : S128x128.Idx → EReal) (b : S1x128.Idx → EReal) (r : Fin 50000) (k : Fin 128) :
    linOut2 h w b (ix2 r k) = (∑ j : Fin 128, h (ix2 r j) * w (ix2 j k)) + b (ix2 0 k) := rfl

theorem lin_flushed2 (c : Dev nD) (t : Fin cfg2.N) :
    (dat2 (F := Ideal) V c).flushed 3 t
      = ((cfg2.win 3).blk t).view.read (Elt Ideal) (linOut2 (linH2 V c) (linW2 V c) (linB2 V c)) := by
  show (cfg2.win 3).cut (grid2.coords t) ((dat2 (F := Ideal) V c).after 3 t) = _
  rw [after2_3]
  refine funext fun (j : S1000x128.Idx) => ?_
  obtain ⟨p, q, rfl⟩ : ∃ (p : Fin 1000) (q : Fin 128), j = ix2 p q := ⟨j 0, j 1, eq_ix2 j⟩
  have hN : cfg2.N = 50 := N_2
  have hrow : t.val * 1000 + p.val < 50000 := by have := t.isLt; omega
  obtain ⟨-, -, -, -, -, -, erow, ecol⟩ := lin_idx2 t
  have hemb : ((cfg2.win 3).blk t).view.emb (ix2 p q) = (ix2 ⟨t.val * 1000 + p.val, hrow⟩ q : S50000x128.Idx) :=
    funext fun a => Fin.ext (by
      match a with
      | ⟨0, _⟩ => show win2_3.index t (0 : Fin 2) * 1000 + 1 * p.val = t.val * 1000 + p.val; rw [erow]; omega
      | ⟨1, _⟩ => show win2_3.index t (1 : Fin 2) * 128 + 1 * q.val = q.val; rw [ecol]; omega)
  show (k2_pay1 (F := Ideal) (linHblk2 V c t) (linWblk2 V c t) (linBblk2 V c t) : S1000x128.Idx → EReal) (ix2 p q)
      = linOut2 (linH2 V c) (linW2 V c) (linB2 V c) (((cfg2.win 3).blk t).view.emb (ix2 p q))
  rw [hemb, linOut2_apply]
  refine (lin_pay2 (linHblk2 V c t) (linWblk2 V c t) (linBblk2 V c t) p q).trans ?_
  refine congrArg₂ (· + ·) (Finset.sum_congr rfl fun j _ => ?_) (lin_bblk2 V c t 0 q)
  exact congrArg₂ (· * ·) (lin_hblk2 V c t p j hrow) (lin_wblk2 V c t j q)

theorem lin_mem_blk2 (t : Fin cfg2.N) (i : S50000x128.Idx) :
    i ∈ ((cfg2.win 3).blk t).view.set ↔ ∀ a : Fin 2, win2_3.index t a * S1000x128.size a ≤ (i a).val ∧ (i a).val < win2_3.index t a * S1000x128.size a + S1000x128.size a := by
  exact_verbatim lin_mem_blk0 t i

theorem lin_arr2 (c : Dev nD) :
    (dat2 (F := Ideal) V c).arrAt 3 cfg2.N = linOut2 (linH2 V c) (linW2 V c) (linB2 V c) :=
  (dat2 (F := Ideal) V c).arrAt_eq_of_cover 3 (linOut2 (linH2 V c) (linW2 V c) (linB2 V c)) (fun t _ => lin_flushed2 V c t) fun i => by
    have hN : cfg2.N = 50 := N_2
    have hrow : (i 0).val < 50000 := idx2_lt0 i
    have hcol : (i 1).val < 128 := idx2_lt1 i
    have ht : (i 0).val / 1000 < cfg2.N := by rw [hN]; omega
    obtain ⟨-, -, -, -, -, -, erow, ecol⟩ := lin_idx2 ⟨(i 0).val / 1000, ht⟩
    refine ⟨⟨(i 0).val / 1000, ht⟩, lin_flush2 _, ?_⟩
    rw [lin_mem_blk2]
    intro a
    match a with
    | ⟨0, _⟩ =>
      show win2_3.index ⟨(i 0).val / 1000, ht⟩ (0 : Fin 2) * 1000 ≤ (i 0).val ∧ (i 0).val < win2_3.index ⟨(i 0).val / 1000, ht⟩ (0 : Fin 2) * 1000 + 1000
      rw [erow]; dsimp only; omega
    | ⟨1, _⟩ =>
      show win2_3.index ⟨(i 0).val / 1000, ht⟩ (1 : Fin 2) * 128 ≤ (i 1).val ∧ (i 1).val < win2_3.index ⟨(i 0).val / 1000, ht⟩ (1 : Fin 2) * 128 + 128
      rw [ecol]; omega

theorem lin_final2 (c : Dev nD) (r : Fin 50000) (k : Fin 128) :
    ((dat2 (F := Ideal) V c).arrAt 3 cfg2.N : S50000x128.Idx → EReal) (ix2 r k)
      = (∑ j : Fin 128, linH2 V c (ix2 r j) * linW2 V c (ix2 j k)) + linB2 V c (ix2 0 k) :=
  (congrFun (lin_arr2 V c) (ix2 r k)).trans (linOut2_apply _ _ _ r k)

end Cert.KernelIdeal.Gen

end
-- ==== Proof.LibScatterRows.lean ====
import Idealize.ShloMosaic.PureOps.Ideal
import Idealize.ShloMosaic.Lib.ValueIdx
import Mathlib.Logic.Equiv.Fin.Basic

-- A scatter-add read at an entry: the operand's value plus the sum of the updates whose index, read signed, names that entry; other indices add nothing.

noncomputable section

open scoped BigOperators

namespace Cert.LibScatterRows

open Idealize.ShloMosaic Idealize.ShloMosaic.ValueIdx

theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Rows
variable {G D N : Nat}

abbrev sR (G D : Nat) : Shape := ⟨2, ![G, D]⟩

abbrev siR (N : Nat) : Shape := ⟨2, ![N, 1]⟩

abbrev uR (N D : Nat) : Shape := ⟨2, ![N, D]⟩

theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

section Vec
variable {G N : Nat}

abbrev sV (G : Nat) : Shape := ⟨1, ![G]⟩

abbrev uV (N : Nat) : Shape := ⟨1, ![N]⟩

theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

end Cert.LibScatterRows
-- ==== Proof.KI.GatMath.lean ====
import proofs.«425335_j13013750907176_1_alg».proof.Proof.LibScatterRows
import Idealize.ShloMosaic.PureOps.Ideal
import Idealize.ShloMosaic.Lib.ValueIdx
import Mathlib.Algebra.BigOperators.Intervals

-- A one-hot row times a table block is the named row or zero: 1 · x = x and 0 · x = 0 for every extended real.

noncomputable section

open scoped BigOperators

namespace Cert.GatMath

open Idealize.ShloMosaic

theorem colWord_eq (n q : ℕ) :
    BitVec.ofNat 32 q + BitVec.ofNat 32 n * 512#32 = BitVec.ofNat 32 (512 * n + q) := by
  rw [show (512#32 : BitVec 32) = BitVec.ofNat 32 512 from rfl, ← BitVec.ofNat_mul, ← BitVec.ofNat_add]
  congr 1
  omega

theorem eq_colWord_iff (s : BitVec 32) (n q : ℕ) (h : 512 * n + q < 2 ^ 31) :
    s = BitVec.ofNat 32 q + BitVec.ofNat 32 n * 512#32 ↔ s.toInt = ((512 * n + q : ℕ) : ℤ) := by
  rw [colWord_eq]
  exact Cert.LibScatterRows.eq_ofNat_iff_toInt s (512 * n + q) h

theorem onehot_val (s w : BitVec 32) :
    (FloatOps.sitofp (F := Ideal) .f32 ((IntOp.cmpi .eq s w).setWidth 32) : EReal) = if s = w then 1 else 0 := by
  show ((((IntOp.cmpi .eq s w).setWidth 32).toInt : ℝ) : EReal) = _
  unfold IntOp.cmpi
  by_cases h : s = w
  · have hb : (s == w) = true := by simpa using h
    rw [if_pos h]
    simp only [hb]
    have : ((BitVec.ofBool true).setWidth 32).toInt = 1 := by decide
    rw [this]
    simp
  · have hb : (s == w) = false := by simpa using h
    rw [if_neg h]
    simp only [hb]
    have : ((BitVec.ofBool false).setWidth 32).toInt = 0 := by decide
    rw [this]
    simp

theorem onehot_row (s : BitVec 32) (n : ℕ) (hn : n < 98) (T : Fin 512 → EReal) :
    ∑ q : Fin 512, (FloatOps.sitofp (F := Ideal) .f32
        ((IntOp.cmpi .eq s (BitVec.ofNat 32 q.val + BitVec.ofNat 32 n * 512#32)).setWidth 32) : EReal) * T q
      = ∑ q : Fin 512, if s.toInt = ((512 * n + q.val : ℕ) : ℤ) then T q else 0 := by
  refine Finset.sum_congr rfl fun q _ => ?_
  have hq : q.val < 512 := q.isLt
  rw [onehot_val]
  by_cases hc : s = BitVec.ofNat 32 q.val + BitVec.ofNat 32 n * 512#32
  · rw [if_pos hc, if_pos ((eq_colWord_iff s n q.val (by omega)).1 hc), one_mul]
  · rw [if_neg hc, if_neg fun h' => hc ((eq_colWord_iff s n q.val (by omega)).2 h'), zero_mul]

theorem sum_blocks_nat {M : Type*} [AddCommMonoid M] (a b N : ℕ) (hN : a * b = N) (g : ℕ → M) :
    ∑ n ∈ Finset.range a, ∑ q : Fin b, g (b * n + q.val) = ∑ j : Fin N, g j.val := by
  subst hN
  rw [Finset.sum_range, Cert.LibScatterRows.sum_blocks a b (fun n q => g (b * n.val + q.val))]
  refine Finset.sum_congr rfl fun j _ => ?_
  show g (b * (j.val / b) + j.val % b) = g j.val
  rw [Nat.div_add_mod]

end Cert.GatMath

end
-- ==== Proof.KI.GatDot.lean ====
import proofs.«425335_j13013750907176_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

-- The gather's block product at (p, k): the sum over q of [id_p = 512 n + q] · table[q, k].

set_option maxRecDepth 16384

noncomputable section

namespace Cert.KernelIdeal.Gen.Gat

open Idealize.ShloMosaic Idealize.ShloMosaic.TcCoe Idealize.ShloMosaic.ValueIdx
open Idealize.SL Idealize.SL.Sem
open Cert.KernelIdeal.Gen

theorem lhs_0 (i : S3200x128.Idx) (q : dot_S3200x512_S512x128_S3200x128_1_0_0_1_n_n.contr.Idx) :
    (dot_S3200x512_S512x128_S3200x128_1_0_0_1_n_n.lhsIdx i q 0).val = (i 0).val := by
  unfold DotDims.lhsIdx
  rw [dif_neg (show ¬(0 : Fin S3200x512.rank) ∈ dot_S3200x512_S512x128_S3200x128_1_0_0_1_n_n.lhsBatch by decide), dif_pos (show (0 : Fin S3200x512.rank) ∈ dot_S3200x512_S512x128_S3200x128_1_0_0_1_n_n.lhsNonContracting by decide)]
  rfl

theorem lhs_1 (i : S3200x128.Idx) (q : dot_S3200x512_S512x128_S3200x128_1_0_0_1_n_n.contr.Idx) :
    (dot_S3200x512_S512x128_S3200x128_1_0_0_1_n_n.lhsIdx i q 1).val = (q ⟨0, by decide⟩).val :=
  dot_S3200x512_S512x128_S3200x128_1_0_0_1_n_n.lhsIdx_val_of_single rfl i q

theorem rhs_0 (i : S3200x128.Idx) (q : dot_S3200x512_S512x128_S3200x128_1_0_0_1_n_n.contr.Idx) :
    (dot_S3200x512_S512x128_S3200x128_1_0_0_1_n_n.rhsIdx i q 0).val = (q ⟨0, by decide⟩).val :=
  dot_S3200x512_S512x128_S3200x128_1_0_0_1_n_n.rhsIdx_val_of_single rfl i q

theorem rhs_1 (i : S3200x128.Idx) (q : dot_S3200x512_S512x128_S3200x128_1_0_0_1_n_n.contr.Idx) :
    (dot_S3200x512_S512x128_S3200x128_1_0_0_1_n_n.rhsIdx i q 1).val = (i 1).val := by
  unfold DotDims.rhsIdx
  rw [dif_neg (show ¬(1 : Fin S512x128.rank) ∈ dot_S3200x512_S512x128_S3200x128_1_0_0_1_n_n.rhsBatch by decide), dif_pos (show (1 : Fin S512x128.rank) ∈ dot_S3200x512_S512x128_S3200x128_1_0_0_1_n_n.rhsNonContracting by decide)]
  rfl

theorem mm_apply (l : FVec Ideal S3200x512 .bf16) (r : FVec Ideal S512x128 .bf16) (p : Fin 3200) (k : Fin 128) :
    (matmul (F := Ideal) dot_S3200x512_S512x128_S3200x128_1_0_0_1_n_n none l r (constant (F := Ideal) S3200x128 .f32 0x00000000#32)
        : S3200x128.Idx → EReal) (ix2 p k)
      = ∑ q : Fin 512, l (ix2 p q) * r (ix2 q k) := by
  refine (Ideal.matmul_constant_zero_apply dot_S3200x512_S512x128_S3200x128_1_0_0_1_n_n none l r (ix2 p k)).trans ?_
  rw [← Equiv.sum_comp (ValueIdx.contrEquiv1 dot_S3200x512_S512x128_S3200x128_1_0_0_1_n_n 512 rfl rfl).symm]
  refine Finset.sum_congr rfl fun q _ => ?_
  have hk := ValueIdx.contrEquiv1_symm_val dot_S3200x512_S512x128_S3200x128_1_0_0_1_n_n 512 rfl rfl q
  have el : dot_S3200x512_S512x128_S3200x128_1_0_0_1_n_n.lhsIdx (ix2 p k) ((ValueIdx.contrEquiv1 dot_S3200x512_S512x128_S3200x128_1_0_0_1_n_n 512 rfl rfl).symm q) = ix2 p q := funext fun a => Fin.ext (by
    match a with
    | ⟨0, _⟩ => exact lhs_0 _ _
    | ⟨1, _⟩ => exact (lhs_1 _ _).trans hk)
  have er : dot_S3200x512_S512x128_S3200x128_1_0_0_1_n_n.rhsIdx (ix2 p k) ((ValueIdx.contrEquiv1 dot_S3200x512_S512x128_S3200x128_1_0_0_1_n_n 512 rfl rfl).symm q) = ix2 q k := funext fun a => Fin.ext (by
    match a with
    | ⟨0, _⟩ => exact (rhs_0 _ _).trans hk
    | ⟨1, _⟩ => exact rhs_1 _ _)
  rw [el, er]

theorem onehot_apply (n : ℕ) (v7 : Vec Ideal S3200x1 .i32) (p : Fin 3200) (q : Fin 512) :
    (truncf .bf16 (sitofp (F := Ideal) .f32 (extui 32 (cmpi .eq
        (broadcastTo S3200x512 (shapeCast S3200x1 v7 shapeCasts_S3200x1_S3200x1) broadcasts_S3200x1_S3200x512)
        (addi (iota .tc S3200x512 32 [1] iota_S3200x512_d1_w32)
          (broadcast S3200x512 (Scalar.muli (BitVec.ofNat 32 n) 512#32)))) natLt_1_32)) bitsLt_bf16_f32
      : S3200x512.Idx → EReal) (ix2 p q)
      = FloatOps.sitofp (F := Ideal) .f32
          ((IntOp.cmpi .eq (v7 (ix2 p 0)) (BitVec.ofNat 32 q.val + BitVec.ofNat 32 n * 512#32)).setWidth 32) := by
  have hA : broadcastTo S3200x512 (shapeCast S3200x1 v7 shapeCasts_S3200x1_S3200x1) broadcasts_S3200x1_S3200x512 (ix2 p q)
      = v7 (ix2 p 0) := by
    rw [shapeCast_self]
    exact broadcastTo_apply v7 broadcasts_S3200x1_S3200x512 (ix2 p q) (ix2 p 0) (fun a => match a with
      | ⟨0, _⟩ => by show p.val = if (3200 : Nat) = 1 then 0 else p.val; rw [if_neg (by decide)]
      | ⟨1, _⟩ => by show 0 = if (1 : Nat) = 1 then 0 else q.val; rw [if_pos rfl])
  have hB : iota .tc S3200x512 32 [1] iota_S3200x512_d1_w32 (ix2 p q) = BitVec.ofNat 32 q.val :=
    iota_single_apply .tc S3200x512 32 1 iota_S3200x512_d1_w32 (ix2 p q)
  show FloatOps.sitofp (F := Ideal) .f32 ((IntOp.cmpi .eq
      (broadcastTo S3200x512 (shapeCast S3200x1 v7 shapeCasts_S3200x1_S3200x1) broadcasts_S3200x1_S3200x512 (ix2 p q))
      (IntOp.addi (iota .tc S3200x512 32 [1] iota_S3200x512_d1_w32 (ix2 p q))
        (Scalar.muli (BitVec.ofNat 32 n) 512#32))).setWidth 32) = _
  rw [hA, hB]
  rfl

end Cert.KernelIdeal.Gen.Gat

end
-- ==== Proof.KI.Gat3Val.lean ====
import proofs.«425335_j13013750907176_1_alg».proof.Proof.KI.Gat3Defs
import proofs.«425335_j13013750907176_1_alg».proof.Proof.KI.GatMath
import proofs.«425335_j13013750907176_1_alg».proof.Proof.KI.GatDot
import Idealize.ShloMosaic.Lib.Pipeline.Value
import Idealize.ShloMosaic.Lib.ValueIdx
import Idealize.ShloMosaic.Lib.ValueLayout
import Idealize.ShloMosaic.PureOps.Ideal.Laws

-- Gather, region 3: edge e, column k ends at the sum over the table rows j of table[j,k] where the source id is j.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev gatSrc3 (c : Dev nD) : S800000x1.Idx → BitVec 32 := V c (Pipeline.arrRef spec3 0)

abbrev gatTbl3 (c : Dev nD) : S50176x128.Idx → EReal := V c (Pipeline.arrRef spec3 1)

namespace Gat3

abbrev srcBlk (c : Dev nD) (t : Fin cfg3.N) : Vec Ideal S3200x1 .i32 := iblk3 V c 0 t

abbrev tblBlk (c : Dev nD) (t : Fin cfg3.N) : Vec Ideal S512x128 .bf16 := iblk3 V c 1 t

def srcAt (c : Dev nD) (r : ℕ) : BitVec 32 :=
  if h : r < 800000 then gatSrc3 V c (ix2 (⟨r, h⟩ : Fin 800000) (0 : Fin 1)) else 0

def tblAt (c : Dev nD) (j : ℕ) (k : Fin 128) : EReal :=
  if h : j < 50176 then gatTbl3 V c (ix2 (⟨j, h⟩ : Fin 50176) k) else 0

def term (c : Dev nD) (r : ℕ) (k : Fin 128) (n : ℕ) : EReal :=
  ∑ q : Fin 512, if (srcAt V c r).toInt = ((512 * n + q.val : ℕ) : ℤ) then tblAt V c (512 * n + q.val) k else 0

def rowsum (c : Dev nD) (r : ℕ) (k : Fin 128) : EReal := ∑ n ∈ Finset.range 98, term V c r k n

def G (c : Dev nD) : S800000x128.Idx → EReal := fun i => rowsum V c (i 0).val ⟨(i 1).val, idx2_lt1 i⟩

theorem N_lt (t : Fin cfg3.N) : t.val < 24500 := lt_of_lt_of_eq t.isLt N_3

theorem coords_0 (t : Fin cfg3.N) : (grid3.coords t (0 : Fin 2)).val = t.val / 98 := by
  have hN := N_lt t
  show t.val / grid3.stride (0 : Fin 2) % 250 = t.val / 98
  rw [show grid3.stride (0 : Fin 2) = 98 from by decide]
  omega

theorem coords_1 (t : Fin cfg3.N) : (grid3.coords t (1 : Fin 2)).val = t.val % 98 := by
  show t.val / grid3.stride (1 : Fin 2) % 98 = t.val % 98
  rw [show grid3.stride (1 : Fin 2) = 1 from by decide, Nat.div_one]

theorem toNat_small (x : ℕ) (h : x < 250) : (BitVec.ofNat 32 x).toNat = x := by
  rw [BitVec.toNat_ofNat]; exact Nat.mod_eq_of_lt (by omega)

theorem idx_facts (t : Fin cfg3.N) : win3_0.index t (0 : Fin 2) = t.val / 98 ∧ win3_0.index t (1 : Fin 2) = 0
    ∧ win3_1.index t (0 : Fin 2) = t.val % 98 ∧ win3_1.index t (1 : Fin 2) = 0
    ∧ win3_2.index t (0 : Fin 2) = t.val / 98 ∧ win3_2.index t (1 : Fin 2) = 0 := by
  have hN := N_lt t
  have h0 := coords_0 t
  have h1 := coords_1 t
  refine ⟨?_, rfl, ?_, rfl, ?_, rfl⟩
  · show (BitVec.ofNat 32 (grid3.coords t (0 : Fin 2)).val).toNat = _
    rw [h0, toNat_small _ (by omega)]
  · show (BitVec.ofNat 32 (grid3.coords t (1 : Fin 2)).val).toNat = _
    rw [h1, toNat_small _ (by omega)]
  · show (BitVec.ofNat 32 (grid3.coords t (0 : Fin 2)).val).toNat = _
    rw [h0, toNat_small _ (by omega)]

theorem flush_iff (t : Fin cfg3.N) : (cfg3.win 2).flush t = true ↔ t.val % 98 = 97 := by
  have hN := N_lt t
  have hG : grid3.N = 24500 := N_3
  show win3_2.flush t = true ↔ _
  unfold Pipeline.Window.flush
  rw [show win3_2.isOut = true from rfl, Bool.true_and, Bool.or_eq_true, decide_eq_true_eq, decide_eq_true_eq]
  constructor
  · rintro (h | ⟨h, hne⟩)
    · have h' : t.val + 1 = 24500 := h.trans hG
      omega
    · by_contra hc
      apply hne
      obtain ⟨-, -, -, -, a0, a1⟩ := idx_facts ⟨t.val + 1, h⟩
      obtain ⟨-, -, -, -, b0, b1⟩ := idx_facts t
      funext a
      match a with
      | ⟨0, _⟩ =>
        show win3_2.index ⟨t.val + 1, h⟩ (0 : Fin 2) = win3_2.index t (0 : Fin 2)
        rw [a0, b0]
        show (t.val + 1) / 98 = t.val / 98
        omega
      | ⟨1, _⟩ =>
        show win3_2.index ⟨t.val + 1, h⟩ (1 : Fin 2) = win3_2.index t (1 : Fin 2)
        rw [a1, b1]
  · intro h97
    by_cases hl : t.val + 1 = grid3.N
    · exact Or.inl hl
    · have hl' : t.val + 1 ≠ 24500 := fun e => hl (e.trans hG.symm)
      have h : t.val + 1 < grid3.N := lt_of_lt_of_eq (by omega : t.val + 1 < 24500) hG.symm
      refine Or.inr ⟨h, fun heq => ?_⟩
      obtain ⟨-, -, -, -, a0, -⟩ := idx_facts ⟨t.val + 1, h⟩
      obtain ⟨-, -, -, -, b0, -⟩ := idx_facts t
      have e : win3_2.index ⟨t.val + 1, h⟩ (0 : Fin 2) = win3_2.index t (0 : Fin 2) := congrFun heq 0
      rw [a0, b0] at e
      have e' : (t.val + 1) / 98 = t.val / 98 := e
      omega

theorem srcBlk_apply (c : Dev nD) (t : Fin cfg3.N) (p : Fin 3200) :
    srcBlk V c t (ix2 p 0) = srcAt V c (3200 * (t.val / 98) + p.val) := by
  have hN := N_lt t
  have hr : 3200 * (t.val / 98) + p.val < 800000 := by have := p.isLt; omega
  obtain ⟨e0, e1, -, -, -, -⟩ := idx_facts t
  unfold srcAt
  rw [dif_pos hr]
  show V c (Pipeline.arrRef spec3 0) (((cfg3.win 0).blk t).view.emb (ix2 p 0)) = V c (Pipeline.arrRef spec3 0) (ix2 ⟨_, hr⟩ 0)
  congr 1
  funext a
  apply Fin.ext
  match a with
  | ⟨0, _⟩ => show win3_0.index t (0 : Fin 2) * 3200 + 1 * p.val = 3200 * (t.val / 98) + p.val; rw [e0]; omega
  | ⟨1, _⟩ => show win3_0.index t (1 : Fin 2) * 1 + 1 * 0 = 0; rw [e1]

theorem tblBlk_apply (c : Dev nD) (t : Fin cfg3.N) (q : Fin 512) (k : Fin 128) :
    tblBlk V c t (ix2 q k) = tblAt V c (512 * (t.val % 98) + q.val) k := by
  have hj : 512 * (t.val % 98) + q.val < 50176 := by have := q.isLt; omega
  obtain ⟨-, -, e0, e1, -, -⟩ := idx_facts t
  unfold tblAt
  rw [dif_pos hj]
  show V c (Pipeline.arrRef spec3 1) (((cfg3.win 1).blk t).view.emb (ix2 q k)) = V c (Pipeline.arrRef spec3 1) (ix2 ⟨_, hj⟩ k)
  congr 1
  funext a
  apply Fin.ext
  match a with
  | ⟨0, _⟩ => show win3_1.index t (0 : Fin 2) * 512 + 1 * q.val = 512 * (t.val % 98) + q.val; rw [e0]; omega
  | ⟨1, _⟩ => show win3_1.index t (1 : Fin 2) * 128 + 1 * k.val = k.val; rw [e1]; omega

theorem pay1_apply (p : Fin 3200) (k : Fin 128) : (k3_pay1 (F := Ideal) : S3200x128.Idx → EReal) (ix2 p k) = 0 := by
  unfold k3_pay1
  refine (congrFun (shapeCast_self _ shapeCasts_S3200x128_S3200x128) (ix2 p k)).trans ?_
  show Ideal.ofBits .f32 0x00000000#32 = 0
  exact Ideal.ofBits_zero_f32

theorem pay2_apply (i : grid3.Coords) (n : ℕ) (hi : (i 1).val = n) (hn : n < 98) (v7 : Vec Ideal S3200x1 .i32)
    (v14 : Vec Ideal S3200x128 .f32) (v15 : Vec Ideal S512x128 .bf16) (p : Fin 3200) (k : Fin 128) :
    (k3_pay2 (F := Ideal) i v7 v14 v15 : S3200x128.Idx → EReal) (ix2 p k)
      = v14 (ix2 p k) + ∑ q : Fin 512, if (v7 (ix2 p 0)).toInt = ((512 * n + q.val : ℕ) : ℤ) then v15 (ix2 q k) else 0 := by
  subst hi
  unfold k3_pay2
  dsimp only
  refine (congrFun (shapeCast_self _ shapeCasts_S3200x128_S3200x128) (ix2 p k)).trans ?_
  refine (addf_apply v14 _ (ix2 p k)).trans ?_
  congr 1
  refine (Gat.mm_apply _ _ p k).trans ?_
  refine Eq.trans (Finset.sum_congr rfl fun q _ => ?_)
    (Cert.GatMath.onehot_row (v7 (ix2 p 0)) (i 1).val hn (fun q => v15 (ix2 q k)))
  rw [Gat.onehot_apply, shapeCast_self]

theorem point_apply (c : Dev nD) (t : Fin cfg3.N) (a : Vec Ideal S3200x128 .f32) (p : Fin 3200) (k : Fin 128) :
    (k3_pay2 (F := Ideal) (grid3.coords t) (srcBlk V c t) a (tblBlk V c t) : S3200x128.Idx → EReal) (ix2 p k)
      = a (ix2 p k) + term V c (3200 * (t.val / 98) + p.val) k (t.val % 98) := by
  have hN := N_lt t
  refine (pay2_apply (grid3.coords t) (t.val % 98) (coords_1 t) (by omega) (srcBlk V c t) a (tblBlk V c t) p k).trans ?_
  rw [srcBlk_apply]
  unfold term
  congr 1
  refine Finset.sum_congr rfl fun q _ => ?_
  rw [tblBlk_apply]

theorem acc_eq (c : Dev nD) : ∀ (t : ℕ) (ht : t < cfg3.N) (p : Fin 3200) (k : Fin 128),
    (acc3 (F := Ideal) V c t ht : S3200x128.Idx → EReal) (ix2 p k)
      = ∑ n ∈ Finset.range (t % 98 + 1), term V c (3200 * (t / 98) + p.val) k n := by
  intro t
  induction t using Nat.strong_induction_on with
  | _ t ih =>
    intro ht p k
    by_cases h0 : t % 98 = 0
    · refine (congrFun (acc3_reset V c ⟨t, ht⟩ h0) (ix2 p k)).trans ?_
      refine (point_apply V c ⟨t, ht⟩ (k3_pay1 (F := Ideal)) p k).trans ?_
      rw [pay1_apply, zero_add]
      show term V c (3200 * (t / 98) + p.val) k (t % 98) = _
      rw [h0, Finset.sum_range_one]
    · have hpos : 0 < t := Nat.pos_of_ne_zero fun hz => h0 (by rw [hz])
      refine (congrFun (acc3_step V c ⟨t, ht⟩ h0) (ix2 p k)).trans ?_
      refine (point_apply V c ⟨t, ht⟩ _ p k).trans ?_
      show acc3 V c (t - 1) _ (ix2 p k) + term V c (3200 * (t / 98) + p.val) k (t % 98) = _
      rw [ih (t - 1) (by omega) _ p k]
      have e1 : (t - 1) % 98 + 1 = t % 98 := by omega
      have e2 : (t - 1) / 98 = t / 98 := by omega
      rw [e2, e1, Finset.sum_range_succ]

theorem flushed_eq (c : Dev nD) (t : Fin cfg3.N) (hf : (cfg3.win 2).flush t = true) :
    (dat3 V c).flushed 2 t = ((cfg3.win 2).blk t).view.read (Elt Ideal) (G V c) := by
  have h97 : t.val % 98 = 97 := (flush_iff t).mp hf
  obtain ⟨-, -, -, -, e0, e1⟩ := idx_facts t
  show (cfg3.win 2).cut (grid3.coords t) ((dat3 V c).after 2 t) = _
  rw [after3_2]
  funext y
  have hp : (y 0).val < 3200 := (y 0).isLt
  have hk : (y 1).val < 128 := (y 1).isLt
  have hx : (cfg3.win 2).xinj (grid3.coords t) y = ix2 (⟨(y 0).val, hp⟩ : Fin 3200) (⟨(y 1).val, hk⟩ : Fin 128) :=
    funext fun a => match a with | ⟨0, _⟩ => rfl | ⟨1, _⟩ => rfl
  have r0 : ((((cfg3.win 2).blk t).view.emb y) 0).val = 3200 * (t.val / 98) + (y 0).val := by
    show win3_2.index t (0 : Fin 2) * 3200 + 1 * (y 0).val = _; rw [e0]; omega
  have r1 : ((((cfg3.win 2).blk t).view.emb y) 1).val = (y 1).val := by
    show win3_2.index t (1 : Fin 2) * 128 + 1 * (y 1).val = _; rw [e1]; omega
  rw [View.read_apply]
  show (acc3 (F := Ideal) V c t.val t.isLt : S3200x128.Idx → EReal) ((cfg3.win 2).xinj (grid3.coords t) y) = _
  rw [hx, acc_eq V c t.val t.isLt, h97]
  show rowsum V c (3200 * (t.val / 98) + (y 0).val) ⟨(y 1).val, hk⟩ = rowsum V c _ _
  exact (congrArg₂ (rowsum V c) r0 (Fin.ext r1)).symm

theorem mem_blk (t : Fin cfg3.N) (i : S800000x128.Idx) :
    i ∈ ((cfg3.win 2).blk t).view.set ↔ ∀ a : Fin 2, win3_2.index t a * S3200x128.size a ≤ (i a).val
      ∧ (i a).val < win3_2.index t a * S3200x128.size a + S3200x128.size a := by
  show i ∈ ((View.whole (Pipeline.arrRef spec3 2)).slice (win3_2.rect t)).set ↔ _
  rw [View.set_slice_whole, Rect.mem_set_unit]
  exact Iff.rfl

theorem cover (i : S800000x128.Idx) :
    ∃ t : Fin cfg3.N, (cfg3.win 2).flush t = true ∧ i ∈ ((cfg3.win 2).blk t).view.set := by
  have hi0 : (i 0).val < 800000 := (i 0).isLt
  have hi1 : (i 1).val < 128 := (i 1).isLt
  have ht : 98 * ((i 0).val / 3200) + 97 < cfg3.N := lt_of_lt_of_eq (by omega : _ < 24500) N_3.symm
  have hdiv : (98 * ((i 0).val / 3200) + 97) / 98 = (i 0).val / 3200 := by omega
  obtain ⟨-, -, -, -, e0, e1⟩ := idx_facts ⟨98 * ((i 0).val / 3200) + 97, ht⟩
  refine ⟨⟨98 * ((i 0).val / 3200) + 97, ht⟩, (flush_iff _).mpr (by show (98 * ((i 0).val / 3200) + 97) % 98 = 97; omega), ?_⟩
  rw [mem_blk]
  intro a
  match a with
  | ⟨0, _⟩ =>
    show win3_2.index ⟨98 * ((i 0).val / 3200) + 97, ht⟩ (0 : Fin 2) * 3200 ≤ (i 0).val
      ∧ (i 0).val < win3_2.index ⟨98 * ((i 0).val / 3200) + 97, ht⟩ (0 : Fin 2) * 3200 + 3200
    rw [e0]
    show (98 * ((i 0).val / 3200) + 97) / 98 * 3200 ≤ (i 0).val ∧ (i 0).val < (98 * ((i 0).val / 3200) + 97) / 98 * 3200 + 3200
    rw [hdiv]
    omega
  | ⟨1, _⟩ =>
    show win3_2.index ⟨98 * ((i 0).val / 3200) + 97, ht⟩ (1 : Fin 2) * 128 ≤ (i 1).val
      ∧ (i 1).val < win3_2.index ⟨98 * ((i 0).val / 3200) + 97, ht⟩ (1 : Fin 2) * 128 + 128
    rw [e1]
    omega

theorem final (c : Dev nD) : (dat3 V c).arrAt 2 cfg3.N = G V c :=
  (dat3 V c).arrAt_eq_of_cover 2 (G V c) (fun t hf => flushed_eq V c t hf) cover

end Gat3

theorem gat_final3 (c : Dev nD) (e : Fin 800000) (k : Fin 128) :
    ((dat3 (F := Ideal) V c).arrAt 2 cfg3.N : S800000x128.Idx → EReal) (ix2 e k)
      = ∑ j : Fin 50176, if (gatSrc3 V c (ix2 e 0)).toInt = (j.val : ℤ) then gatTbl3 V c (ix2 j k) else 0 := by
  refine (congrFun (Gat3.final V c) (ix2 e k)).trans ?_
  show Gat3.rowsum V c e.val k = _
  unfold Gat3.rowsum Gat3.term
  refine (Cert.GatMath.sum_blocks_nat 98 512 50176 rfl
    (fun m => if (Gat3.srcAt V c e.val).toInt = ((m : ℕ) : ℤ) then Gat3.tblAt V c m k else 0)).trans ?_
  refine Finset.sum_congr rfl fun j _ => ?_
  unfold Gat3.srcAt Gat3.tblAt
  rw [dif_pos e.isLt, dif_pos j.isLt]

end Cert.KernelIdeal.Gen

end
-- ==== Proof.KI.Gat5Val.lean ====
import proofs.«425335_j13013750907176_1_alg».proof.Proof.KI.Gat5Defs
import proofs.«425335_j13013750907176_1_alg».proof.Proof.KI.Gat3Val
import proofs.«425335_j13013750907176_1_alg».proof.Proof.Verbatim
import proofs.«425335_j13013750907176_1_alg».proof.Proof.KI.GatMath
import proofs.«425335_j13013750907176_1_alg».proof.Proof.KI.GatDot
import Idealize.ShloMosaic.Lib.Pipeline.Value
import Idealize.ShloMosaic.Lib.ValueIdx
import Idealize.ShloMosaic.Lib.ValueLayout
import Idealize.ShloMosaic.PureOps.Ideal.Laws

-- Gather, region 5: edge e, column k ends at the sum over the table rows j of table[j,k] where the source id is j.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev gatSrc5 (c : Dev nD) : S800000x1.Idx → BitVec 32 := V c (Pipeline.arrRef spec5 0)

abbrev gatTbl5 (c : Dev nD) : S50176x128.Idx → EReal := V c (Pipeline.arrRef spec5 1)

namespace Gat5

abbrev srcBlk (c : Dev nD) (t : Fin cfg5.N) : Vec Ideal S3200x1 .i32 := iblk5 V c 0 t

abbrev tblBlk (c : Dev nD) (t : Fin cfg5.N) : Vec Ideal S512x128 .bf16 := iblk5 V c 1 t

def srcAt (c : Dev nD) (r : ℕ) : BitVec 32 :=
  if h : r < 800000 then gatSrc5 V c (ix2 (⟨r, h⟩ : Fin 800000) (0 : Fin 1)) else 0

def tblAt (c : Dev nD) (j : ℕ) (k : Fin 128) : EReal :=
  if h : j < 50176 then gatTbl5 V c (ix2 (⟨j, h⟩ : Fin 50176) k) else 0

def term (c : Dev nD) (r : ℕ) (k : Fin 128) (n : ℕ) : EReal :=
  ∑ q : Fin 512, if (srcAt V c r).toInt = ((512 * n + q.val : ℕ) : ℤ) then tblAt V c (512 * n + q.val) k else 0

def rowsum (c : Dev nD) (r : ℕ) (k : Fin 128) : EReal := ∑ n ∈ Finset.range 98, term V c r k n

def G (c : Dev nD) : S800000x128.Idx → EReal := fun i => rowsum V c (i 0).val ⟨(i 1).val, idx2_lt1 i⟩

theorem N_lt (t : Fin cfg5.N) : t.val < 24500 := lt_of_lt_of_eq t.isLt N_5

theorem coords_0 (t : Fin cfg5.N) : (grid5.coords t (0 : Fin 2)).val = t.val / 98 := by
  exact_verbatim Gat3.coords_0 t

theorem coords_1 (t : Fin cfg5.N) : (grid5.coords t (1 : Fin 2)).val = t.val % 98 := by
  exact_verbatim Gat3.coords_1 t

theorem toNat_small (x : ℕ) (h : x < 250) : (BitVec.ofNat 32 x).toNat = x := by
  exact_verbatim Gat3.toNat_small x h

theorem idx_facts (t : Fin cfg5.N) : win5_0.index t (0 : Fin 2) = t.val / 98 ∧ win5_0.index t (1 : Fin 2) = 0
    ∧ win5_1.index t (0 : Fin 2) = t.val % 98 ∧ win5_1.index t (1 : Fin 2) = 0
    ∧ win5_2.index t (0 : Fin 2) = t.val / 98 ∧ win5_2.index t (1 : Fin 2) = 0 := by
  exact_verbatim Gat3.idx_facts t

theorem flush_iff (t : Fin cfg5.N) : (cfg5.win 2).flush t = true ↔ t.val % 98 = 97 := by
  exact_verbatim Gat3.flush_iff t

theorem srcBlk_apply (c : Dev nD) (t : Fin cfg5.N) (p : Fin 3200) :
    srcBlk V c t (ix2 p 0) = srcAt V c (3200 * (t.val / 98) + p.val) := by
  have hN := N_lt t
  have hr : 3200 * (t.val / 98) + p.val < 800000 := by have := p.isLt; omega
  obtain ⟨e0, e1, -, -, -, -⟩ := idx_facts t
  unfold srcAt
  rw [dif_pos hr]
  show V c (Pipeline.arrRef spec5 0) (((cfg5.win 0).blk t).view.emb (ix2 p 0)) = V c (Pipeline.arrRef spec5 0) (ix2 ⟨_, hr⟩ 0)
  congr 1
  funext a
  apply Fin.ext
  match a with
  | ⟨0, _⟩ => show win5_0.index t (0 : Fin 2) * 3200 + 1 * p.val = 3200 * (t.val / 98) + p.val; rw [e0]; omega
  | ⟨1, _⟩ => show win5_0.index t (1 : Fin 2) * 1 + 1 * 0 = 0; rw [e1]

theorem tblBlk_apply (c : Dev nD) (t : Fin cfg5.N) (q : Fin 512) (k : Fin 128) :
    tblBlk V c t (ix2 q k) = tblAt V c (512 * (t.val % 98) + q.val) k := by
  have hj : 512 * (t.val % 98) + q.val < 50176 := by have := q.isLt; omega
  obtain ⟨-, -, e0, e1, -, -⟩ := idx_facts t
  unfold tblAt
  rw [dif_pos hj]
  show V c (Pipeline.arrRef spec5 1) (((cfg5.win 1).blk t).view.emb (ix2 q k)) = V c (Pipeline.arrRef spec5 1) (ix2 ⟨_, hj⟩ k)
  congr 1
  funext a
  apply Fin.ext
  match a with
  | ⟨0, _⟩ => show win5_1.index t (0 : Fin 2) * 512 + 1 * q.val = 512 * (t.val % 98) + q.val; rw [e0]; omega
  | ⟨1, _⟩ => show win5_1.index t (1 : Fin 2) * 128 + 1 * k.val = k.val; rw [e1]; omega

theorem pay1_apply (p : Fin 3200) (k : Fin 128) : (k5_pay1 (F := Ideal) : S3200x128.Idx → EReal) (ix2 p k) = 0 := by
  exact_verbatim Gat3.pay1_apply p k

theorem pay2_apply (i : grid5.Coords) (n : ℕ) (hi : (i 1).val = n) (hn : n < 98) (v7 : Vec Ideal S3200x1 .i32)
    (v14 : Vec Ideal S3200x128 .f32) (v15 : Vec Ideal S512x128 .bf16) (p : Fin 3200) (k : Fin 128) :
    (k5_pay2 (F := Ideal) i v7 v14 v15 : S3200x128.Idx → EReal) (ix2 p k)
      = v14 (ix2 p k) + ∑ q : Fin 512, if (v7 (ix2 p 0)).toInt = ((512 * n + q.val : ℕ) : ℤ) then v15 (ix2 q k) else 0 := by
  exact_verbatim Gat3.pay2_apply i n hi hn v7 v14 v15 p k

theorem point_apply (c : Dev nD) (t : Fin cfg5.N) (a : Vec Ideal S3200x128 .f32) (p : Fin 3200) (k : Fin 128) :
    (k5_pay2 (F := Ideal) (grid5.coords t) (srcBlk V c t) a (tblBlk V c t) : S3200x128.Idx → EReal) (ix2 p k)
      = a (ix2 p k) + term V c (3200 * (t.val / 98) + p.val) k (t.val % 98) := by
  have hN := N_lt t
  refine (pay2_apply (grid5.coords t) (t.val % 98) (coords_1 t) (by omega) (srcBlk V c t) a (tblBlk V c t) p k).trans ?_
  rw [srcBlk_apply]
  unfold term
  congr 1
  refine Finset.sum_congr rfl fun q _ => ?_
  rw [tblBlk_apply]

theorem acc_eq (c : Dev nD) : ∀ (t : ℕ) (ht : t < cfg5.N) (p : Fin 3200) (k : Fin 128),
    (acc5 (F := Ideal) V c t ht : S3200x128.Idx → EReal) (ix2 p k)
      = ∑ n ∈ Finset.range (t % 98 + 1), term V c (3200 * (t / 98) + p.val) k n := by
  intro t
  induction t using Nat.strong_induction_on with
  | _ t ih =>
    intro ht p k
    by_cases h0 : t % 98 = 0
    · refine (congrFun (acc5_reset V c ⟨t, ht⟩ h0) (ix2 p k)).trans ?_
      refine (point_apply V c ⟨t, ht⟩ (k5_pay1 (F := Ideal)) p k).trans ?_
      rw [pay1_apply, zero_add]
      show term V c (3200 * (t / 98) + p.val) k (t % 98) = _
      rw [h0, Finset.sum_range_one]
    · have hpos : 0 < t := Nat.pos_of_ne_zero fun hz => h0 (by rw [hz])
      refine (congrFun (acc5_step V c ⟨t, ht⟩ h0) (ix2 p k)).trans ?_
      refine (point_apply V c ⟨t, ht⟩ _ p k).trans ?_
      show acc5 V c (t - 1) _ (ix2 p k) + term V c (3200 * (t / 98) + p.val) k (t % 98) = _
      rw [ih (t - 1) (by omega) _ p k]
      have e1 : (t - 1) % 98 + 1 = t % 98 := by omega
      have e2 : (t - 1) / 98 = t / 98 := by omega
      rw [e2, e1, Finset.sum_range_succ]

theorem flushed_eq (c : Dev nD) (t : Fin cfg5.N) (hf : (cfg5.win 2).flush t = true) :
    (dat5 V c).flushed 2 t = ((cfg5.win 2).blk t).view.read (Elt Ideal) (G V c) := by
  have h97 : t.val % 98 = 97 := (flush_iff t).mp hf
  obtain ⟨-, -, -, -, e0, e1⟩ := idx_facts t
  show (cfg5.win 2).cut (grid5.coords t) ((dat5 V c).after 2 t) = _
  rw [after5_2]
  funext y
  have hp : (y 0).val < 3200 := (y 0).isLt
  have hk : (y 1).val < 128 := (y 1).isLt
  have hx : (cfg5.win 2).xinj (grid5.coords t) y = ix2 (⟨(y 0).val, hp⟩ : Fin 3200) (⟨(y 1).val, hk⟩ : Fin 128) :=
    funext fun a => match a with | ⟨0, _⟩ => rfl | ⟨1, _⟩ => rfl
  have r0 : ((((cfg5.win 2).blk t).view.emb y) 0).val = 3200 * (t.val / 98) + (y 0).val := by
    show win5_2.index t (0 : Fin 2) * 3200 + 1 * (y 0).val = _; rw [e0]; omega
  have r1 : ((((cfg5.win 2).blk t).view.emb y) 1).val = (y 1).val := by
    show win5_2.index t (1 : Fin 2) * 128 + 1 * (y 1).val = _; rw [e1]; omega
  rw [View.read_apply]
  show (acc5 (F := Ideal) V c t.val t.isLt : S3200x128.Idx → EReal) ((cfg5.win 2).xinj (grid5.coords t) y) = _
  rw [hx, acc_eq V c t.val t.isLt, h97]
  show rowsum V c (3200 * (t.val / 98) + (y 0).val) ⟨(y 1).val, hk⟩ = rowsum V c _ _
  exact (congrArg₂ (rowsum V c) r0 (Fin.ext r1)).symm

theorem mem_blk (t : Fin cfg5.N) (i : S800000x128.Idx) :
    i ∈ ((cfg5.win 2).blk t).view.set ↔ ∀ a : Fin 2, win5_2.index t a * S3200x128.size a ≤ (i a).val
      ∧ (i a).val < win5_2.index t a * S3200x128.size a + S3200x128.size a := by
  exact_verbatim Gat3.mem_blk t i

theorem cover (i : S800000x128.Idx) :
    ∃ t : Fin cfg5.N, (cfg5.win 2).flush t = true ∧ i ∈ ((cfg5.win 2).blk t).view.set := by
  exact_verbatim Gat3.cover i

theorem final (c : Dev nD) : (dat5 V c).arrAt 2 cfg5.N = G V c :=
  (dat5 V c).arrAt_eq_of_cover 2 (G V c) (fun t hf => flushed_eq V c t hf) cover

end Gat5

theorem gat_final5 (c : Dev nD) (e : Fin 800000) (k : Fin 128) :
    ((dat5 (F := Ideal) V c).arrAt 2 cfg5.N : S800000x128.Idx → EReal) (ix2 e k)
      = ∑ j : Fin 50176, if (gatSrc5 V c (ix2 e 0)).toInt = (j.val : ℤ) then gatTbl5 V c (ix2 j k) else 0 := by
  refine (congrFun (Gat5.final V c) (ix2 e k)).trans ?_
  show Gat5.rowsum V c e.val k = _
  unfold Gat5.rowsum Gat5.term
  refine (Cert.GatMath.sum_blocks_nat 98 512 50176 rfl
    (fun m => if (Gat5.srcAt V c e.val).toInt = ((m : ℕ) : ℤ) then Gat5.tblAt V c m k else 0)).trans ?_
  refine Finset.sum_congr rfl fun j _ => ?_
  unfold Gat5.srcAt Gat5.tblAt
  rw [dif_pos e.isLt, dif_pos j.isLt]

end Cert.KernelIdeal.Gen

end
-- ==== Proof.KI.Gat7Val.lean ====
import proofs.«425335_j13013750907176_1_alg».proof.Proof.KI.Gat7Defs
import proofs.«425335_j13013750907176_1_alg».proof.Proof.KI.Gat3Val
import proofs.«425335_j13013750907176_1_alg».proof.Proof.Verbatim
import proofs.«425335_j13013750907176_1_alg».proof.Proof.KI.GatMath
import proofs.«425335_j13013750907176_1_alg».proof.Proof.KI.GatDot
import Idealize.ShloMosaic.Lib.Pipeline.Value
import Idealize.ShloMosaic.Lib.ValueIdx
import Idealize.ShloMosaic.Lib.ValueLayout
import Idealize.ShloMosaic.PureOps.Ideal.Laws

-- Gather, region 7: edge e, column k ends at the sum over the table rows j of table[j,k] where the source id is j.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev gatSrc7 (c : Dev nD) : S800000x1.Idx → BitVec 32 := V c (Pipeline.arrRef spec7 0)

abbrev gatTbl7 (c : Dev nD) : S50176x128.Idx → EReal := V c (Pipeline.arrRef spec7 1)

namespace Gat7

abbrev srcBlk (c : Dev nD) (t : Fin cfg7.N) : Vec Ideal S3200x1 .i32 := iblk7 V c 0 t

abbrev tblBlk (c : Dev nD) (t : Fin cfg7.N) : Vec Ideal S512x128 .bf16 := iblk7 V c 1 t

def srcAt (c : Dev nD) (r : ℕ) : BitVec 32 :=
  if h : r < 800000 then gatSrc7 V c (ix2 (⟨r, h⟩ : Fin 800000) (0 : Fin 1)) else 0

def tblAt (c : Dev nD) (j : ℕ) (k : Fin 128) : EReal :=
  if h : j < 50176 then gatTbl7 V c (ix2 (⟨j, h⟩ : Fin 50176) k) else 0

def term (c : Dev nD) (r : ℕ) (k : Fin 128) (n : ℕ) : EReal :=
  ∑ q : Fin 512, if (srcAt V c r).toInt = ((512 * n + q.val : ℕ) : ℤ) then tblAt V c (512 * n + q.val) k else 0

def rowsum (c : Dev nD) (r : ℕ) (k : Fin 128) : EReal := ∑ n ∈ Finset.range 98, term V c r k n

def G (c : Dev nD) : S800000x128.Idx → EReal := fun i => rowsum V c (i 0).val ⟨(i 1).val, idx2_lt1 i⟩

theorem N_lt (t : Fin cfg7.N) : t.val < 24500 := lt_of_lt_of_eq t.isLt N_7

theorem coords_0 (t : Fin cfg7.N) : (grid7.coords t (0 : Fin 2)).val = t.val / 98 := by
  exact_verbatim Gat3.coords_0 t

theorem coords_1 (t : Fin cfg7.N) : (grid7.coords t (1 : Fin 2)).val = t.val % 98 := by
  exact_verbatim Gat3.coords_1 t

theorem toNat_small (x : ℕ) (h : x < 250) : (BitVec.ofNat 32 x).toNat = x := by
  exact_verbatim Gat3.toNat_small x h

theorem idx_facts (t : Fin cfg7.N) : win7_0.index t (0 : Fin 2) = t.val / 98 ∧ win7_0.index t (1 : Fin 2) = 0
    ∧ win7_1.index t (0 : Fin 2) = t.val % 98 ∧ win7_1.index t (1 : Fin 2) = 0
    ∧ win7_2.index t (0 : Fin 2) = t.val / 98 ∧ win7_2.index t (1 : Fin 2) = 0 := by
  exact_verbatim Gat3.idx_facts t

theorem flush_iff (t : Fin cfg7.N) : (cfg7.win 2).flush t = true ↔ t.val % 98 = 97 := by
  exact_verbatim Gat3.flush_iff t

theorem srcBlk_apply (c : Dev nD) (t : Fin cfg7.N) (p : Fin 3200) :
    srcBlk V c t (ix2 p 0) = srcAt V c (3200 * (t.val / 98) + p.val) := by
  have hN := N_lt t
  have hr : 3200 * (t.val / 98) + p.val < 800000 := by have := p.isLt; omega
  obtain ⟨e0, e1, -, -, -, -⟩ := idx_facts t
  unfold srcAt
  rw [dif_pos hr]
  show V c (Pipeline.arrRef spec7 0) (((cfg7.win 0).blk t).view.emb (ix2 p 0)) = V c (Pipeline.arrRef spec7 0) (ix2 ⟨_, hr⟩ 0)
  congr 1
  funext a
  apply Fin.ext
  match a with
  | ⟨0, _⟩ => show win7_0.index t (0 : Fin 2) * 3200 + 1 * p.val = 3200 * (t.val / 98) + p.val; rw [e0]; omega
  | ⟨1, _⟩ => show win7_0.index t (1 : Fin 2) * 1 + 1 * 0 = 0; rw [e1]

theorem tblBlk_apply (c : Dev nD) (t : Fin cfg7.N) (q : Fin 512) (k : Fin 128) :
    tblBlk V c t (ix2 q k) = tblAt V c (512 * (t.val % 98) + q.val) k := by
  have hj : 512 * (t.val % 98) + q.val < 50176 := by have := q.isLt; omega
  obtain ⟨-, -, e0, e1, -, -⟩ := idx_facts t
  unfold tblAt
  rw [dif_pos hj]
  show V c (Pipeline.arrRef spec7 1) (((cfg7.win 1).blk t).view.emb (ix2 q k)) = V c (Pipeline.arrRef spec7 1) (ix2 ⟨_, hj⟩ k)
  congr 1
  funext a
  apply Fin.ext
  match a with
  | ⟨0, _⟩ => show win7_1.index t (0 : Fin 2) * 512 + 1 * q.val = 512 * (t.val % 98) + q.val; rw [e0]; omega
  | ⟨1, _⟩ => show win7_1.index t (1 : Fin 2) * 128 + 1 * k.val = k.val; rw [e1]; omega

theorem pay1_apply (p : Fin 3200) (k : Fin 128) : (k7_pay1 (F := Ideal) : S3200x128.Idx → EReal) (ix2 p k) = 0 := by
  exact_verbatim Gat3.pay1_apply p k

theorem pay2_apply (i : grid7.Coords) (n : ℕ) (hi : (i 1).val = n) (hn : n < 98) (v7 : Vec Ideal S3200x1 .i32)
    (v14 : Vec Ideal S3200x128 .f32) (v15 : Vec Ideal S512x128 .bf16) (p : Fin 3200) (k : Fin 128) :
    (k7_pay2 (F := Ideal) i v7 v14 v15 : S3200x128.Idx → EReal) (ix2 p k)
      = v14 (ix2 p k) + ∑ q : Fin 512, if (v7 (ix2 p 0)).toInt = ((512 * n + q.val : ℕ) : ℤ) then v15 (ix2 q k) else 0 := by
  exact_verbatim Gat3.pay2_apply i n hi hn v7 v14 v15 p k

theorem point_apply (c : Dev nD) (t : Fin cfg7.N) (a : Vec Ideal S3200x128 .f32) (p : Fin 3200) (k : Fin 128) :
    (k7_pay2 (F := Ideal) (grid7.coords t) (srcBlk V c t) a (tblBlk V c t) : S3200x128.Idx → EReal) (ix2 p k)
      = a (ix2 p k) + term V c (3200 * (t.val / 98) + p.val) k (t.val % 98) := by
  have hN := N_lt t
  refine (pay2_apply (grid7.coords t) (t.val % 98) (coords_1 t) (by omega) (srcBlk V c t) a (tblBlk V c t) p k).trans ?_
  rw [srcBlk_apply]
  unfold term
  congr 1
  refine Finset.sum_congr rfl fun q _ => ?_
  rw [tblBlk_apply]

theorem acc_eq (c : Dev nD) : ∀ (t : ℕ) (ht : t < cfg7.N) (p : Fin 3200) (k : Fin 128),
    (acc7 (F := Ideal) V c t ht : S3200x128.Idx → EReal) (ix2 p k)
      = ∑ n ∈ Finset.range (t % 98 + 1), term V c (3200 * (t / 98) + p.val) k n := by
  intro t
  induction t using Nat.strong_induction_on with
  | _ t ih =>
    intro ht p k
    by_cases h0 : t % 98 = 0
    · refine (congrFun (acc7_reset V c ⟨t, ht⟩ h0) (ix2 p k)).trans ?_
      refine (point_apply V c ⟨t, ht⟩ (k7_pay1 (F := Ideal)) p k).trans ?_
      rw [pay1_apply, zero_add]
      show term V c (3200 * (t / 98) + p.val) k (t % 98) = _
      rw [h0, Finset.sum_range_one]
    · have hpos : 0 < t := Nat.pos_of_ne_zero fun hz => h0 (by rw [hz])
      refine (congrFun (acc7_step V c ⟨t, ht⟩ h0) (ix2 p k)).trans ?_
      refine (point_apply V c ⟨t, ht⟩ _ p k).trans ?_
      show acc7 V c (t - 1) _ (ix2 p k) + term V c (3200 * (t / 98) + p.val) k (t % 98) = _
      rw [ih (t - 1) (by omega) _ p k]
      have e1 : (t - 1) % 98 + 1 = t % 98 := by omega
      have e2 : (t - 1) / 98 = t / 98 := by omega
      rw [e2, e1, Finset.sum_range_succ]

theorem flushed_eq (c : Dev nD) (t : Fin cfg7.N) (hf : (cfg7.win 2).flush t = true) :
    (dat7 V c).flushed 2 t = ((cfg7.win 2).blk t).view.read (Elt Ideal) (G V c) := by
  have h97 : t.val % 98 = 97 := (flush_iff t).mp hf
  obtain ⟨-, -, -, -, e0, e1⟩ := idx_facts t
  show (cfg7.win 2).cut (grid7.coords t) ((dat7 V c).after 2 t) = _
  rw [after7_2]
  funext y
  have hp : (y 0).val < 3200 := (y 0).isLt
  have hk : (y 1).val < 128 := (y 1).isLt
  have hx : (cfg7.win 2).xinj (grid7.coords t) y = ix2 (⟨(y 0).val, hp⟩ : Fin 3200) (⟨(y 1).val, hk⟩ : Fin 128) :=
    funext fun a => match a with | ⟨0, _⟩ => rfl | ⟨1, _⟩ => rfl
  have r0 : ((((cfg7.win 2).blk t).view.emb y) 0).val = 3200 * (t.val / 98) + (y 0).val := by
    show win7_2.index t (0 : Fin 2) * 3200 + 1 * (y 0).val = _; rw [e0]; omega
  have r1 : ((((cfg7.win 2).blk t).view.emb y) 1).val = (y 1).val := by
    show win7_2.index t (1 : Fin 2) * 128 + 1 * (y 1).val = _; rw [e1]; omega
  rw [View.read_apply]
  show (acc7 (F := Ideal) V c t.val t.isLt : S3200x128.Idx → EReal) ((cfg7.win 2).xinj (grid7.coords t) y) = _
  rw [hx, acc_eq V c t.val t.isLt, h97]
  show rowsum V c (3200 * (t.val / 98) + (y 0).val) ⟨(y 1).val, hk⟩ = rowsum V c _ _
  exact (congrArg₂ (rowsum V c) r0 (Fin.ext r1)).symm

theorem mem_blk (t : Fin cfg7.N) (i : S800000x128.Idx) :
    i ∈ ((cfg7.win 2).blk t).view.set ↔ ∀ a : Fin 2, win7_2.index t a * S3200x128.size a ≤ (i a).val
      ∧ (i a).val < win7_2.index t a * S3200x128.size a + S3200x128.size a := by
  exact_verbatim Gat3.mem_blk t i

theorem cover (i : S800000x128.Idx) :
    ∃ t : Fin cfg7.N, (cfg7.win 2).flush t = true ∧ i ∈ ((cfg7.win 2).blk t).view.set := by
  exact_verbatim Gat3.cover i

theorem final (c : Dev nD) : (dat7 V c).arrAt 2 cfg7.N = G V c :=
  (dat7 V c).arrAt_eq_of_cover 2 (G V c) (fun t hf => flushed_eq V c t hf) cover

end Gat7

theorem gat_final7 (c : Dev nD) (e : Fin 800000) (k : Fin 128) :
    ((dat7 (F := Ideal) V c).arrAt 2 cfg7.N : S800000x128.Idx → EReal) (ix2 e k)
      = ∑ j : Fin 50176, if (gatSrc7 V c (ix2 e 0)).toInt = (j.val : ℤ) then gatTbl7 V c (ix2 j k) else 0 := by
  refine (congrFun (Gat7.final V c) (ix2 e k)).trans ?_
  show Gat7.rowsum V c e.val k = _
  unfold Gat7.rowsum Gat7.term
  refine (Cert.GatMath.sum_blocks_nat 98 512 50176 rfl
    (fun m => if (Gat7.srcAt V c e.val).toInt = ((m : ℕ) : ℤ) then Gat7.tblAt V c m k else 0)).trans ?_
  refine Finset.sum_congr rfl fun j _ => ?_
  unfold Gat7.srcAt Gat7.tblAt
  rw [dif_pos e.isLt, dif_pos j.isLt]

end Cert.KernelIdeal.Gen

end
-- ==== Proof.KI.Sca4ValA.lean ====
import proofs.«425335_j13013750907176_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

-- Scatter, region 4, one grid point at (r, k): the sum over the block's edges of [id_e = the row's number] · msg[e, k].

set_option maxRecDepth 16384

noncomputable section

namespace Cert.KernelIdeal.Gen

open Idealize.ShloMosaic Idealize.ShloMosaic.TcCoe Idealize.ShloMosaic.ValueIdx

theorem onehot4_val (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have e : IntOp.cmpi .eq a a = 1#1 := by unfold IntOp.cmpi; simp
    rw [e]
    norm_num
  · rw [if_neg h]
    have e : IntOp.cmpi .eq a b = 0#1 := by
      show BitVec.ofBool (a == b) = 0#1
      rw [beq_eq_false_iff_ne.mpr h]; rfl
    rw [e]
    norm_num

theorem lhs4_0 (i : S512x128.Idx) (q : dot_S512x3200_S3200x128_S512x128_1_0_0_1_n_n.contr.Idx) :
    (dot_S512x3200_S3200x128_S512x128_1_0_0_1_n_n.lhsIdx i q 0).val = (i 0).val := by
  unfold DotDims.lhsIdx
  rw [dif_neg (show ¬(0 : Fin S512x3200.rank) ∈ dot_S512x3200_S3200x128_S512x128_1_0_0_1_n_n.lhsBatch by decide), dif_pos (show (0 : Fin S512x3200.rank) ∈ dot_S512x3200_S3200x128_S512x128_1_0_0_1_n_n.lhsNonContracting by decide)]
  rfl
theorem lhs4_1 (i : S512x128.Idx) (q : dot_S512x3200_S3200x128_S512x128_1_0_0_1_n_n.contr.Idx) :
    (dot_S512x3200_S3200x128_S512x128_1_0_0_1_n_n.lhsIdx i q 1).val = (q ⟨0, by decide⟩).val :=
  dot_S512x3200_S3200x128_S512x128_1_0_0_1_n_n.lhsIdx_val_of_single rfl i q
theorem rhs4_0 (i : S512x128.Idx) (q : dot_S512x3200_S3200x128_S512x128_1_0_0_1_n_n.contr.Idx) :
    (dot_S512x3200_S3200x128_S512x128_1_0_0_1_n_n.rhsIdx i q 0).val = (q ⟨0, by decide⟩).val :=
  dot_S512x3200_S3200x128_S512x128_1_0_0_1_n_n.rhsIdx_val_of_single rfl i q
theorem rhs4_1 (i : S512x128.Idx) (q : dot_S512x3200_S3200x128_S512x128_1_0_0_1_n_n.contr.Idx) :
    (dot_S512x3200_S3200x128_S512x128_1_0_0_1_n_n.rhsIdx i q 1).val = (i 1).val := by
  unfold DotDims.rhsIdx
  rw [dif_neg (show ¬(1 : Fin S3200x128.rank) ∈ dot_S512x3200_S3200x128_S512x128_1_0_0_1_n_n.rhsBatch by decide), dif_pos (show (1 : Fin S3200x128.rank) ∈ dot_S512x3200_S3200x128_S512x128_1_0_0_1_n_n.rhsNonContracting by decide)]
  rfl

theorem matmul4_apply (lhs : FVec Ideal S512x3200 .bf16) (rhs : FVec Ideal S3200x128 .bf16) (r : Fin 512) (k : Fin 128) :
    matmul (F := Ideal) dot_S512x3200_S3200x128_S512x128_1_0_0_1_n_n none lhs rhs (constant (F := Ideal) S512x128 .f32 0x00000000#32) (ix2 r k)
      = ∑ ee : Fin 3200, lhs (ix2 r ee) * rhs (ix2 ee k) := by
  simp only [matmul]
  rw [Ideal.matmul_constant_zero_apply, ← Equiv.sum_comp (ValueIdx.contrEquiv1 dot_S512x3200_S3200x128_S512x128_1_0_0_1_n_n 3200 rfl rfl).symm]
  refine Finset.sum_congr rfl fun ee _ => ?_
  have hk := ValueIdx.contrEquiv1_symm_val dot_S512x3200_S3200x128_S512x128_1_0_0_1_n_n 3200 rfl rfl ee
  have el : dot_S512x3200_S3200x128_S512x128_1_0_0_1_n_n.lhsIdx (ix2 r k) ((ValueIdx.contrEquiv1 dot_S512x3200_S3200x128_S512x128_1_0_0_1_n_n 3200 rfl rfl).symm ee) = ix2 r ee := funext fun a => Fin.ext (by
    match a with
    | ⟨0, _⟩ => exact lhs4_0 _ _
    | ⟨1, _⟩ => exact (lhs4_1 _ _).trans hk)
  have er : dot_S512x3200_S3200x128_S512x128_1_0_0_1_n_n.rhsIdx (ix2 r k) ((ValueIdx.contrEquiv1 dot_S512x3200_S3200x128_S512x128_1_0_0_1_n_n 3200 rfl rfl).symm ee) = ix2 ee k := funext fun a => Fin.ext (by
    match a with
    | ⟨0, _⟩ => exact (rhs4_0 _ _).trans hk
    | ⟨1, _⟩ => exact rhs4_1 _ _)
  rw [el, er]

theorem k4_pay1_apply (j : S512x128.Idx) : k4_pay1 (F := Ideal) j = 0 := by
  unfold k4_pay1
  refine (congrFun (shapeCast_self _ _) j).trans ?_
  exact Ideal.ofBits_zero_f32

theorem k4_pay2_apply (i : grid4.Coords) (x0 : Vec Ideal S1x3200 .i32) (acc : Vec Ideal S512x128 .f32)
    (x1 : Vec Ideal S3200x128 .bf16) (r : Fin 512) (k : Fin 128) :
    k4_pay2 (F := Ideal) i x0 acc x1 (ix2 r k)
      = acc (ix2 r k) + ∑ ee : Fin 3200,
          (if BitVec.ofNat 32 r.val + BitVec.ofNat 32 (i 0).val * 512#32 = x0 (ix2 0 ee) then (1 : EReal) else 0) * x1 (ix2 ee k) := by
  unfold k4_pay2
  dsimp only
  refine (congrFun (shapeCast_self _ _) (ix2 r k)).trans ?_
  refine congrArg (acc (ix2 r k) + ·) ?_
  refine (matmul4_apply _ _ r k).trans ?_
  refine Finset.sum_congr rfl fun ee _ => ?_
  refine congrArg₂ (· * ·) ?_ (congrFun (shapeCast_self x1 _) (ix2 ee k))
  show FloatOps.sitofp (F := Ideal) .f32 ((IntOp.cmpi .eq
      (IntOp.addi (iota .tc S512x3200 32 [0] iota_S512x3200_d0_w32 (ix2 r ee)) (Scalar.muli (BitVec.ofNat 32 (i 0).val) 512#32))
      (broadcastTo S512x3200 (shapeCast S1x3200 x0 shapeCasts_S1x3200_S1x3200) broadcasts_S1x3200_S512x3200 (ix2 r ee))).setWidth 32) = _
  rw [iota_single_apply, broadcastTo_1b_ab_apply, shapeCast_self, onehot4_val]
  rfl

end Cert.KernelIdeal.Gen

end
-- ==== Proof.KI.Sca4Val.lean ====
import proofs.«425335_j13013750907176_1_alg».proof.Proof.KI.Sca4Defs
import proofs.«425335_j13013750907176_1_alg».proof.Proof.KI.Sca4ValA
import proofs.«425335_j13013750907176_1_alg».proof.Proof.LibScatterRows
import Idealize.ShloMosaic.Lib.Pipeline.Value
import Idealize.ShloMosaic.Lib.ValueIdx
import Idealize.ShloMosaic.Lib.ValueLayout
import Idealize.ShloMosaic.PureOps.Ideal.Laws

-- Scatter, region 4: row d, column k ends at the sum over all edges e of msg[e,k] where the destination id is d.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem coords4_0 (t : Fin cfg4.N) : ((grid4.coords t) 0).val = t.val / 250 := by
  have ht : t.val < 24500 := N_4 ▸ t.isLt
  show t.val / grid4.stride 0 % grid4.bound 0 = _
  rw [show grid4.stride 0 = 250 from by decide, show grid4.bound 0 = 98 from rfl]
  omega

theorem coords4_1 (t : Fin cfg4.N) : ((grid4.coords t) 1).val = t.val % 250 := by
  show t.val / grid4.stride 1 % grid4.bound 1 = _
  rw [show grid4.stride 1 = 1 from by decide, show grid4.bound 1 = 250 from rfl]
  omega

theorem idx_facts4 (t : Fin cfg4.N) :
    win4_0.index t (0 : Fin 2) = 0 ∧ win4_0.index t (1 : Fin 2) = t.val % 250
    ∧ win4_1.index t (0 : Fin 2) = t.val % 250 ∧ win4_1.index t (1 : Fin 2) = 0
    ∧ win4_2.index t (0 : Fin 2) = t.val / 250 ∧ win4_2.index t (1 : Fin 2) = 0 := by
  have h0 := coords4_0 t
  have h1 := coords4_1 t
  have ht : t.val < 24500 := N_4 ▸ t.isLt
  refine ⟨rfl, ?_, ?_, rfl, ?_, rfl⟩
  · show (BitVec.ofNat 32 ((grid4.coords t) 1).val).toNat = _
    rw [BitVec.toNat_ofNat, h1]; omega
  · show (BitVec.ofNat 32 ((grid4.coords t) 1).val).toNat = _
    rw [BitVec.toNat_ofNat, h1]; omega
  · show (BitVec.ofNat 32 ((grid4.coords t) 0).val).toNat = _
    rw [BitVec.toNat_ofNat, h0]; omega

theorem flush4_iff (t : Fin cfg4.N) : (cfg4.win 2).flush t = true ↔ t.val % 250 = 249 := by
  have hN : grid4.N = 24500 := N_4
  have ht : t.val < 24500 := hN ▸ t.isLt
  obtain ⟨-, -, -, -, e4, e5⟩ := idx_facts4 t
  show (true && (decide (t.val + 1 = grid4.N)
      || decide (∃ h : t.val + 1 < grid4.N, win4_2.index ⟨t.val + 1, h⟩ ≠ win4_2.index t))) = true ↔ _
  rw [Bool.true_and, Bool.or_eq_true, decide_eq_true_eq, decide_eq_true_eq]
  constructor
  · rintro (h | ⟨h, hne⟩)
    · omega
    · by_contra hc
      apply hne
      obtain ⟨-, -, -, -, f4, f5⟩ := idx_facts4 ⟨t.val + 1, h⟩
      have f4' : win4_2.index ⟨t.val + 1, h⟩ (0 : Fin 2) = (t.val + 1) / 250 := f4
      funext a
      match a with
      | ⟨0, _⟩ => show win4_2.index ⟨t.val + 1, h⟩ (0 : Fin 2) = win4_2.index t (0 : Fin 2); omega
      | ⟨1, _⟩ => show win4_2.index ⟨t.val + 1, h⟩ (1 : Fin 2) = win4_2.index t (1 : Fin 2); omega
  · intro hlast
    by_cases hl : t.val + 1 = grid4.N
    · exact Or.inl hl
    · have hlt : t.val + 1 < grid4.N := by omega
      refine Or.inr ⟨hlt, fun he => ?_⟩
      obtain ⟨-, -, -, -, f4, -⟩ := idx_facts4 ⟨t.val + 1, hlt⟩
      have f4' : win4_2.index ⟨t.val + 1, hlt⟩ (0 : Fin 2) = (t.val + 1) / 250 := f4
      have h0 : win4_2.index ⟨t.val + 1, hlt⟩ (0 : Fin 2) = win4_2.index t (0 : Fin 2) := congrFun he 0
      omega

abbrev scaDst4 (c : Dev nD) : S1x800000.Idx → BitVec 32 := V c (Pipeline.arrRef spec4 0)

abbrev scaMsg4 (c : Dev nD) : S800000x128.Idx → EReal := V c (Pipeline.arrRef spec4 1)

abbrev dblk4 (c : Dev nD) (t : Fin cfg4.N) : Vec Ideal S1x3200 .i32 := iblk4 V c 0 t

abbrev mblk4 (c : Dev nD) (t : Fin cfg4.N) : Vec Ideal S3200x128 .bf16 := iblk4 V c 1 t

theorem dblk4_apply (c : Dev nD) (t : Fin cfg4.N) (ee : Fin 3200) (g : Fin 800000)
    (hg : g.val = 3200 * (t.val % 250) + ee.val) : dblk4 V c t (ix2 0 ee) = scaDst4 V c (ix2 0 g) := by
  obtain ⟨e0, e1, -⟩ := idx_facts4 t
  show V c (Pipeline.arrRef spec4 0) (((cfg4.win 0).blk t).view.emb (ix2 0 ee)) = V c (Pipeline.arrRef spec4 0) (ix2 0 g)
  refine congrArg _ (funext fun a => Fin.ext ?_)
  match a with
  | ⟨0, _⟩ => show win4_0.index t (0 : Fin 2) * 1 + 1 * 0 = 0; omega
  | ⟨1, _⟩ => show win4_0.index t (1 : Fin 2) * 3200 + 1 * ee.val = g.val; omega

theorem mblk4_apply (c : Dev nD) (t : Fin cfg4.N) (ee : Fin 3200) (k : Fin 128) (g : Fin 800000)
    (hg : g.val = 3200 * (t.val % 250) + ee.val) : mblk4 V c t (ix2 ee k) = scaMsg4 V c (ix2 g k) := by
  obtain ⟨-, -, e2, e3, -⟩ := idx_facts4 t
  show V c (Pipeline.arrRef spec4 1) (((cfg4.win 1).blk t).view.emb (ix2 ee k)) = V c (Pipeline.arrRef spec4 1) (ix2 g k)
  refine congrArg _ (funext fun a => Fin.ext ?_)
  match a with
  | ⟨0, _⟩ => show win4_1.index t (0 : Fin 2) * 3200 + 1 * ee.val = g.val; omega
  | ⟨1, _⟩ => show win4_1.index t (1 : Fin 2) * 128 + 1 * k.val = k.val; omega

def term4 (c : Dev nD) (ρ : ℕ) (k : Fin 128) (g : Fin 800000) : EReal :=
  if (scaDst4 V c (ix2 0 g)).toInt = (ρ : ℤ) then scaMsg4 V c (ix2 g k) else 0

def addend4 (c : Dev nD) (ρ : ℕ) (k : Fin 128) (e : ℕ) : EReal :=
  ∑ ee : Fin 3200, term4 V c ρ k ⟨3200 * (e % 250) + ee.val, by have := ee.isLt; omega⟩

def total4 (c : Dev nD) (ρ : ℕ) (k : Fin 128) : EReal := ∑ g : Fin 800000, term4 V c ρ k g

theorem word4_iff (r : Fin 512) (d : ℕ) (hd : d < 98) (w : BitVec 32) :
    BitVec.ofNat 32 r.val + BitVec.ofNat 32 d * 512#32 = w ↔ w.toInt = ((512 * d + r.val : ℕ) : ℤ) := by
  have hr := r.isLt
  have e : BitVec.ofNat 32 r.val + BitVec.ofNat 32 d * 512#32 = BitVec.ofNat 32 (512 * d + r.val) := by
    apply BitVec.eq_of_toNat_eq
    rw [BitVec.toNat_add, BitVec.toNat_mul, BitVec.toNat_ofNat, BitVec.toNat_ofNat, BitVec.toNat_ofNat]
    show (r.val % 2 ^ 32 + d % 2 ^ 32 * 512 % 2 ^ 32) % 2 ^ 32 = (512 * d + r.val) % 2 ^ 32
    omega
  rw [e, eq_comm]
  exact Cert.LibScatterRows.eq_ofNat_iff_toInt w _ (by omega)

theorem point4 (c : Dev nD) (t : Fin cfg4.N) (acc : Vec Ideal S512x128 .f32) (r : Fin 512) (k : Fin 128) :
    k4_pay2 (F := Ideal) (grid4.coords t) (dblk4 V c t) acc (mblk4 V c t) (ix2 r k)
      = acc (ix2 r k) + addend4 V c (512 * (t.val / 250) + r.val) k (t.val % 250) := by
  have ht : t.val < 24500 := N_4 ▸ t.isLt
  refine (k4_pay2_apply (grid4.coords t) (dblk4 V c t) acc (mblk4 V c t) r k).trans ?_
  refine congrArg (acc (ix2 r k) + ·) ?_
  refine Finset.sum_congr rfl fun ee _ => ?_
  have hee := ee.isLt
  rw [coords4_0 t,
    dblk4_apply V c t ee ⟨3200 * (t.val % 250 % 250) + ee.val, by omega⟩
      (by show 3200 * (t.val % 250 % 250) + ee.val = 3200 * (t.val % 250) + ee.val; omega),
    mblk4_apply V c t ee k ⟨3200 * (t.val % 250 % 250) + ee.val, by omega⟩
      (by show 3200 * (t.val % 250 % 250) + ee.val = 3200 * (t.val % 250) + ee.val; omega)]
  unfold term4
  by_cases hc : (scaDst4 V c (ix2 0 ⟨3200 * (t.val % 250 % 250) + ee.val, by omega⟩)).toInt = ((512 * (t.val / 250) + r.val : ℕ) : ℤ)
  · rw [if_pos ((word4_iff r (t.val / 250) (by omega) _).2 hc), if_pos hc, one_mul]
  · rw [if_neg (fun h => hc ((word4_iff r (t.val / 250) (by omega) _).1 h)), if_neg hc, zero_mul]

theorem acc4_apply (c : Dev nD) : ∀ (n : ℕ) (hn : n < cfg4.N) (r : Fin 512) (k : Fin 128),
    acc4 V c n hn (ix2 r k) = ∑ e ∈ Finset.range (n % 250 + 1), addend4 V c (512 * (n / 250) + r.val) k e
  | 0, hn, r, k => by
    refine (congrFun (acc4_reset V c ⟨0, hn⟩ rfl) (ix2 r k)).trans ?_
    refine (point4 V c ⟨0, hn⟩ (k4_pay1 (F := Ideal)) r k).trans ?_
    rw [k4_pay1_apply, zero_add]
    show addend4 V c (512 * (0 / 250) + r.val) k (0 % 250) = _
    rw [Finset.sum_range_one]
  | n + 1, hn, r, k => by
    by_cases h0 : (n + 1) % 250 = 0
    · refine (congrFun (acc4_reset V c ⟨n + 1, hn⟩ h0) (ix2 r k)).trans ?_
      refine (point4 V c ⟨n + 1, hn⟩ (k4_pay1 (F := Ideal)) r k).trans ?_
      rw [k4_pay1_apply, zero_add]
      show addend4 V c (512 * ((n + 1) / 250) + r.val) k ((n + 1) % 250) = _
      rw [h0, Finset.sum_range_one]
    · refine (congrFun (acc4_step V c ⟨n + 1, hn⟩ h0) (ix2 r k)).trans ?_
      refine (point4 V c ⟨n + 1, hn⟩ (acc4 V c n (Nat.lt_of_succ_lt hn)) r k).trans ?_
      show acc4 V c n (Nat.lt_of_succ_lt hn) (ix2 r k) + addend4 V c (512 * ((n + 1) / 250) + r.val) k ((n + 1) % 250) = _
      rw [acc4_apply c n (Nat.lt_of_succ_lt hn) r k]
      have e1 : (n + 1) / 250 = n / 250 := by omega
      have e2 : (n + 1) % 250 = n % 250 + 1 := by omega
      rw [e1, e2]
      exact (Finset.sum_range_succ _ _).symm

theorem sum_addend4 (c : Dev nD) (ρ : ℕ) (k : Fin 128) :
    ∑ e ∈ Finset.range (249 + 1), addend4 V c ρ k e = total4 V c ρ k := by
  show ∑ e ∈ Finset.range 250, addend4 V c ρ k e = total4 V c ρ k
  rw [Finset.sum_range]
  refine (Cert.LibScatterRows.sum_blocks 250 3200 (fun (e : Fin 250) (ee : Fin 3200) =>
    term4 V c ρ k ⟨3200 * (e.val % 250) + ee.val, by have := ee.isLt; omega⟩)).trans ?_
  refine Finset.sum_congr rfl fun g _ => ?_
  refine congrArg (term4 V c ρ k) (Fin.ext ?_)
  show 3200 * (g.val / 3200 % 250) + g.val % 3200 = g.val
  have := g.isLt
  omega

def out4 (c : Dev nD) : Vec Ideal S50176x128 .f32 := fun j => total4 V c (j 0).val (⟨(j 1).val, (j 1).isLt⟩ : Fin 128)

theorem out4_apply (c : Dev nD) (j : S50176x128.Idx) :
    out4 V c j = total4 V c (j 0).val (⟨(j 1).val, (j 1).isLt⟩ : Fin 128) := rfl

theorem acc4_last (c : Dev nD) (t : Fin cfg4.N) (hlast : t.val % 250 = 249) (p : Fin 512) (q : Fin 128) :
    acc4 V c t.val t.isLt (ix2 p q) = total4 V c (512 * (t.val / 250) + p.val) q := by
  rw [acc4_apply V c t.val t.isLt p q, hlast, sum_addend4]

theorem flushed4_eq (c : Dev nD) (t : Fin cfg4.N) (hf : (cfg4.win 2).flush t = true) :
    (dat4 V c).flushed 2 t = ((cfg4.win 2).blk t).view.read (Elt Ideal) (out4 V c) := by
  have hlast : t.val % 250 = 249 := (flush4_iff t).mp hf
  obtain ⟨-, -, -, -, e4, e5⟩ := idx_facts4 t
  show (cfg4.win 2).cut (grid4.coords t) ((dat4 V c).after 2 t) = _
  rw [after4_2]
  funext j
  obtain ⟨p, q, rfl⟩ : ∃ (p : Fin 512) (q : Fin 128), j = ix2 p q := ⟨j 0, j 1, eq_ix2 j⟩
  have hx : (cfg4.win 2).xinj (grid4.coords t) (ix2 p q) = ix2 p q := funext fun a => Fin.ext rfl
  refine ((congrArg (acc4 V c t.val t.isLt) hx).trans (acc4_last V c t hlast p q)).trans ?_
  have hread : ∀ G : Vec Ideal S50176x128 .f32,
      ((cfg4.win 2).blk t).view.read (Elt Ideal) G (ix2 p q) = G (((cfg4.win 2).blk t).view.emb (ix2 p q)) := fun G => rfl
  refine Eq.trans ?_ (hread (out4 V c)).symm
  refine Eq.trans ?_ (out4_apply V c (((cfg4.win 2).blk t).view.emb (ix2 p q))).symm
  have i0 : ((((cfg4.win 2).blk t).view.emb (ix2 p q)) 0).val = 512 * (t.val / 250) + p.val := by
    show win4_2.index t (0 : Fin 2) * 512 + 1 * p.val = _; omega
  have i1 : ((((cfg4.win 2).blk t).view.emb (ix2 p q)) 1).val = q.val := by
    show win4_2.index t (1 : Fin 2) * 128 + 1 * q.val = _; omega
  exact congrArg₂ (total4 V c) i0.symm (Fin.ext i1.symm)

theorem mem_blk4 (t : Fin cfg4.N) (i : S50176x128.Idx) :
    i ∈ ((cfg4.win 2).blk t).view.set ↔ ∀ a : Fin 2, win4_2.index t a * S512x128.size a ≤ (i a).val ∧ (i a).val < win4_2.index t a * S512x128.size a + S512x128.size a := by
  show i ∈ ((View.whole (Pipeline.arrRef spec4 2)).slice (win4_2.rect t)).set ↔ _
  rw [View.set_slice_whole, Rect.mem_set_unit]
  exact Iff.rfl

theorem cover4 (i : S50176x128.Idx) :
    ∃ t : Fin cfg4.N, (cfg4.win 2).flush t = true ∧ i ∈ ((cfg4.win 2).blk t).view.set := by
  have h0 : (i 0).val < 50176 := (i 0).isLt
  have h1 : (i 1).val < 128 := (i 1).isLt
  have hN : cfg4.N = 24500 := N_4
  let t : Fin cfg4.N := ⟨250 * ((i 0).val / 512) + 249, by rw [hN]; omega⟩
  have htv : t.val = 250 * ((i 0).val / 512) + 249 := rfl
  obtain ⟨-, -, -, -, e4, e5⟩ := idx_facts4 t
  refine ⟨t, (flush4_iff t).mpr (by rw [htv]; omega), ?_⟩
  rw [mem_blk4]
  intro a
  match a with
  | ⟨0, _⟩ => show win4_2.index t (0 : Fin 2) * 512 ≤ (i 0).val ∧ (i 0).val < win4_2.index t (0 : Fin 2) * 512 + 512; rw [e4, htv]; omega
  | ⟨1, _⟩ => show win4_2.index t (1 : Fin 2) * 128 ≤ (i 1).val ∧ (i 1).val < win4_2.index t (1 : Fin 2) * 128 + 128; rw [e5]; omega

theorem out4_final (c : Dev nD) : (dat4 V c).arrAt 2 cfg4.N = out4 V c :=
  (dat4 V c).arrAt_eq_of_cover 2 (out4 V c) (fun t hf => flushed4_eq V c t hf) cover4

theorem sca_final4 (c : Dev nD) (d : Fin 50176) (k : Fin 128) :
    ((dat4 (F := Ideal) V c).arrAt 2 cfg4.N : S50176x128.Idx → EReal) (ix2 d k)
      = ∑ e : Fin 800000, if (scaDst4 V c (ix2 0 e)).toInt = (d.val : ℤ) then scaMsg4 V c (ix2 e k) else 0 := by
  refine (congrFun (out4_final V c) (ix2 d k)).trans ?_
  rfl

end Cert.KernelIdeal.Gen

end
-- ==== Proof.KI.Sca6ValA.lean ====
import proofs.«425335_j13013750907176_1_alg».proof.Proof.Gen.KernelIdeal.Skeleton
import proofs.«425335_j13013750907176_1_alg».proof.Proof.KI.Sca4ValA
import proofs.«425335_j13013750907176_1_alg».proof.Proof.Verbatim
import Idealize.ShloMosaic.Lib.Pipeline.Value
import Idealize.ShloMosaic.Lib.ValueIdx
import Idealize.ShloMosaic.Lib.ValueLayout
import Idealize.ShloMosaic.PureOps.Ideal.Laws

-- Scatter, region 6, one grid point at (r, k): the sum over the block's edges of [id_e = the row's number] · msg[e, k].

set_option maxRecDepth 16384

noncomputable section

namespace Cert.KernelIdeal.Gen

open Idealize.ShloMosaic Idealize.ShloMosaic.TcCoe Idealize.ShloMosaic.ValueIdx

theorem onehot6_val (a b : BitVec 32) :
    (FloatOps.sitofp (F := Ideal) .f32 ((IntOp.cmpi .eq a b).setWidth 32) : EReal) = if a = b then 1 else 0 := by
  exact_verbatim onehot4_val a b

theorem lhs6_0 (i : S512x128.Idx) (q : dot_S512x3200_S3200x128_S512x128_1_0_0_1_n_n.contr.Idx) :
    (dot_S512x3200_S3200x128_S512x128_1_0_0_1_n_n.lhsIdx i q 0).val = (i 0).val := by
  exact_verbatim lhs4_0 i q
theorem lhs6_1 (i : S512x128.Idx) (q : dot_S512x3200_S3200x128_S512x128_1_0_0_1_n_n.contr.Idx) :
    (dot_S512x3200_S3200x128_S512x128_1_0_0_1_n_n.lhsIdx i q 1).val = (q ⟨0, by decide⟩).val := by
  exact_verbatim lhs4_1 i q
theorem rhs6_0 (i : S512x128.Idx) (q : dot_S512x3200_S3200x128_S512x128_1_0_0_1_n_n.contr.Idx) :
    (dot_S512x3200_S3200x128_S512x128_1_0_0_1_n_n.rhsIdx i q 0).val = (q ⟨0, by decide⟩).val := by
  exact_verbatim rhs4_0 i q
theorem rhs6_1 (i : S512x128.Idx) (q : dot_S512x3200_S3200x128_S512x128_1_0_0_1_n_n.contr.Idx) :
    (dot_S512x3200_S3200x128_S512x128_1_0_0_1_n_n.rhsIdx i q 1).val = (i 1).val := by
  exact_verbatim rhs4_1 i q

theorem matmul6_apply (lhs : FVec Ideal S512x3200 .bf16) (rhs : FVec Ideal S3200x128 .bf16) (r : Fin 512) (k : Fin 128) :
    matmul (F := Ideal) dot_S512x3200_S3200x128_S512x128_1_0_0_1_n_n none lhs rhs (constant (F := Ideal) S512x128 .f32 0x00000000#32) (ix2 r k)
      = ∑ ee : Fin 3200, lhs (ix2 r ee) * rhs (ix2 ee k) := by
  exact_verbatim matmul4_apply lhs rhs r k

theorem k6_pay1_apply (j : S512x128.Idx) : k6_pay1 (F := Ideal) j = 0 := by
  exact_verbatim k4_pay1_apply j

theorem k6_pay2_apply (i : grid6.Coords) (x0 : Vec Ideal S1x3200 .i32) (acc : Vec Ideal S512x128 .f32)
    (x1 : Vec Ideal S3200x128 .bf16) (r : Fin 512) (k : Fin 128) :
    k6_pay2 (F := Ideal) i x0 acc x1 (ix2 r k)
      = acc (ix2 r k) + ∑ ee : Fin 3200,
          (if BitVec.ofNat 32 r.val + BitVec.ofNat 32 (i 0).val * 512#32 = x0 (ix2 0 ee) then (1 : EReal) else 0) * x1 (ix2 ee k) := by
  exact_verbatim k4_pay2_apply i x0 acc x1 r k

end Cert.KernelIdeal.Gen

end
-- ==== Proof.KI.Sca6Val.lean ====
import proofs.«425335_j13013750907176_1_alg».proof.Proof.KI.Sca6Defs
import proofs.«425335_j13013750907176_1_alg».proof.Proof.KI.Sca4Val
import proofs.«425335_j13013750907176_1_alg».proof.Proof.Verbatim
import proofs.«425335_j13013750907176_1_alg».proof.Proof.KI.Sca6ValA
import proofs.«425335_j13013750907176_1_alg».proof.Proof.LibScatterRows
import Idealize.ShloMosaic.Lib.Pipeline.Value
import Idealize.ShloMosaic.Lib.ValueIdx
import Idealize.ShloMosaic.Lib.ValueLayout
import Idealize.ShloMosaic.PureOps.Ideal.Laws

-- Scatter, region 6: row d, column k ends at the sum over all edges e of msg[e,k] where the destination id is d.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem coords6_0 (t : Fin cfg6.N) : ((grid6.coords t) 0).val = t.val / 250 := by
  exact_verbatim coords4_0 t

theorem coords6_1 (t : Fin cfg6.N) : ((grid6.coords t) 1).val = t.val % 250 := by
  exact_verbatim coords4_1 t

theorem idx_facts6 (t : Fin cfg6.N) :
    win6_0.index t (0 : Fin 2) = 0 ∧ win6_0.index t (1 : Fin 2) = t.val % 250
    ∧ win6_1.index t (0 : Fin 2) = t.val % 250 ∧ win6_1.index t (1 : Fin 2) = 0
    ∧ win6_2.index t (0 : Fin 2) = t.val / 250 ∧ win6_2.index t (1 : Fin 2) = 0 := by
  exact_verbatim idx_facts4 t

theorem flush6_iff (t : Fin cfg6.N) : (cfg6.win 2).flush t = true ↔ t.val % 250 = 249 := by
  exact_verbatim flush4_iff t

abbrev scaDst6 (c : Dev nD) : S1x800000.Idx → BitVec 32 := V c (Pipeline.arrRef spec6 0)

abbrev scaMsg6 (c : Dev nD) : S800000x128.Idx → EReal := V c (Pipeline.arrRef spec6 1)

abbrev dblk6 (c : Dev nD) (t : Fin cfg6.N) : Vec Ideal S1x3200 .i32 := iblk6 V c 0 t

abbrev mblk6 (c : Dev nD) (t : Fin cfg6.N) : Vec Ideal S3200x128 .bf16 := iblk6 V c 1 t

theorem dblk6_apply (c : Dev nD) (t : Fin cfg6.N) (ee : Fin 3200) (g : Fin 800000)
    (hg : g.val = 3200 * (t.val % 250) + ee.val) : dblk6 V c t (ix2 0 ee) = scaDst6 V c (ix2 0 g) := by
  obtain ⟨e0, e1, -⟩ := idx_facts6 t
  show V c (Pipeline.arrRef spec6 0) (((cfg6.win 0).blk t).view.emb (ix2 0 ee)) = V c (Pipeline.arrRef spec6 0) (ix2 0 g)
  refine congrArg _ (funext fun a => Fin.ext ?_)
  match a with
  | ⟨0, _⟩ => show win6_0.index t (0 : Fin 2) * 1 + 1 * 0 = 0; omega
  | ⟨1, _⟩ => show win6_0.index t (1 : Fin 2) * 3200 + 1 * ee.val = g.val; omega

theorem mblk6_apply (c : Dev nD) (t : Fin cfg6.N) (ee : Fin 3200) (k : Fin 128) (g : Fin 800000)
    (hg : g.val = 3200 * (t.val % 250) + ee.val) : mblk6 V c t (ix2 ee k) = scaMsg6 V c (ix2 g k) := by
  obtain ⟨-, -, e2, e3, -⟩ := idx_facts6 t
  show V c (Pipeline.arrRef spec6 1) (((cfg6.win 1).blk t).view.emb (ix2 ee k)) = V c (Pipeline.arrRef spec6 1) (ix2 g k)
  refine congrArg _ (funext fun a => Fin.ext ?_)
  match a with
  | ⟨0, _⟩ => show win6_1.index t (0 : Fin 2) * 3200 + 1 * ee.val = g.val; omega
  | ⟨1, _⟩ => show win6_1.index t (1 : Fin 2) * 128 + 1 * k.val = k.val; omega

def term6 (c : Dev nD) (ρ : ℕ) (k : Fin 128) (g : Fin 800000) : EReal :=
  if (scaDst6 V c (ix2 0 g)).toInt = (ρ : ℤ) then scaMsg6 V c (ix2 g k) else 0

def addend6 (c : Dev nD) (ρ : ℕ) (k : Fin 128) (e : ℕ) : EReal :=
  ∑ ee : Fin 3200, term6 V c ρ k ⟨3200 * (e % 250) + ee.val, by have := ee.isLt; omega⟩

def total6 (c : Dev nD) (ρ : ℕ) (k : Fin 128) : EReal := ∑ g : Fin 800000, term6 V c ρ k g

theorem word6_iff (r : Fin 512) (d : ℕ) (hd : d < 98) (w : BitVec 32) :
    BitVec.ofNat 32 r.val + BitVec.ofNat 32 d * 512#32 = w ↔ w.toInt = ((512 * d + r.val : ℕ) : ℤ) := by
  exact_verbatim word4_iff r d hd w

theorem point6 (c : Dev nD) (t : Fin cfg6.N) (acc : Vec Ideal S512x128 .f32) (r : Fin 512) (k : Fin 128) :
    k6_pay2 (F := Ideal) (grid6.coords t) (dblk6 V c t) acc (mblk6 V c t) (ix2 r k)
      = acc (ix2 r k) + addend6 V c (512 * (t.val / 250) + r.val) k (t.val % 250) := by
  have ht : t.val < 24500 := N_6 ▸ t.isLt
  refine (k6_pay2_apply (grid6.coords t) (dblk6 V c t) acc (mblk6 V c t) r k).trans ?_
  refine congrArg (acc (ix2 r k) + ·) ?_
  refine Finset.sum_congr rfl fun ee _ => ?_
  have hee := ee.isLt
  rw [coords6_0 t,
    dblk6_apply V c t ee ⟨3200 * (t.val % 250 % 250) + ee.val, by omega⟩
      (by show 3200 * (t.val % 250 % 250) + ee.val = 3200 * (t.val % 250) + ee.val; omega),
    mblk6_apply V c t ee k ⟨3200 * (t.val % 250 % 250) + ee.val, by omega⟩
      (by show 3200 * (t.val % 250 % 250) + ee.val = 3200 * (t.val % 250) + ee.val; omega)]
  unfold term6
  by_cases hc : (scaDst6 V c (ix2 0 ⟨3200 * (t.val % 250 % 250) + ee.val, by omega⟩)).toInt = ((512 * (t.val / 250) + r.val : ℕ) : ℤ)
  · rw [if_pos ((word6_iff r (t.val / 250) (by omega) _).2 hc), if_pos hc, one_mul]
  · rw [if_neg (fun h => hc ((word6_iff r (t.val / 250) (by omega) _).1 h)), if_neg hc, zero_mul]

theorem acc6_apply (c : Dev nD) : ∀ (n : ℕ) (hn : n < cfg6.N) (r : Fin 512) (k : Fin 128),
    acc6 V c n hn (ix2 r k) = ∑ e ∈ Finset.range (n % 250 + 1), addend6 V c (512 * (n / 250) + r.val) k e
  | 0, hn, r, k => by
    refine (congrFun (acc6_reset V c ⟨0, hn⟩ rfl) (ix2 r k)).trans ?_
    refine (point6 V c ⟨0, hn⟩ (k6_pay1 (F := Ideal)) r k).trans ?_
    rw [k6_pay1_apply, zero_add]
    show addend6 V c (512 * (0 / 250) + r.val) k (0 % 250) = _
    rw [Finset.sum_range_one]
  | n + 1, hn, r, k => by
    by_cases h0 : (n + 1) % 250 = 0
    · refine (congrFun (acc6_reset V c ⟨n + 1, hn⟩ h0) (ix2 r k)).trans ?_
      refine (point6 V c ⟨n + 1, hn⟩ (k6_pay1 (F := Ideal)) r k).trans ?_
      rw [k6_pay1_apply, zero_add]
      show addend6 V c (512 * ((n + 1) / 250) + r.val) k ((n + 1) % 250) = _
      rw [h0, Finset.sum_range_one]
    · refine (congrFun (acc6_step V c ⟨n + 1, hn⟩ h0) (ix2 r k)).trans ?_
      refine (point6 V c ⟨n + 1, hn⟩ (acc6 V c n (Nat.lt_of_succ_lt hn)) r k).trans ?_
      show acc6 V c n (Nat.lt_of_succ_lt hn) (ix2 r k) + addend6 V c (512 * ((n + 1) / 250) + r.val) k ((n + 1) % 250) = _
      rw [acc6_apply c n (Nat.lt_of_succ_lt hn) r k]
      have e1 : (n + 1) / 250 = n / 250 := by omega
      have e2 : (n + 1) % 250 = n % 250 + 1 := by omega
      rw [e1, e2]
      exact (Finset.sum_range_succ _ _).symm

theorem sum_addend6 (c : Dev nD) (ρ : ℕ) (k : Fin 128) :
    ∑ e ∈ Finset.range (249 + 1), addend6 V c ρ k e = total6 V c ρ k := by
  show ∑ e ∈ Finset.range 250, addend6 V c ρ k e = total6 V c ρ k
  rw [Finset.sum_range]
  refine (Cert.LibScatterRows.sum_blocks 250 3200 (fun (e : Fin 250) (ee : Fin 3200) =>
    term6 V c ρ k ⟨3200 * (e.val % 250) + ee.val, by have := ee.isLt; omega⟩)).trans ?_
  refine Finset.sum_congr rfl fun g _ => ?_
  refine congrArg (term6 V c ρ k) (Fin.ext ?_)
  show 3200 * (g.val / 3200 % 250) + g.val % 3200 = g.val
  have := g.isLt
  omega

def out6 (c : Dev nD) : Vec Ideal S50176x128 .f32 := fun j => total6 V c (j 0).val (⟨(j 1).val, (j 1).isLt⟩ : Fin 128)

theorem out6_apply (c : Dev nD) (j : S50176x128.Idx) :
    out6 V c j = total6 V c (j 0).val (⟨(j 1).val, (j 1).isLt⟩ : Fin 128) := rfl

theorem acc6_last (c : Dev nD) (t : Fin cfg6.N) (hlast : t.val % 250 = 249) (p : Fin 512) (q : Fin 128) :
    acc6 V c t.val t.isLt (ix2 p q) = total6 V c (512 * (t.val / 250) + p.val) q := by
  rw [acc6_apply V c t.val t.isLt p q, hlast, sum_addend6]

theorem flushed6_eq (c : Dev nD) (t : Fin cfg6.N) (hf : (cfg6.win 2).flush t = true) :
    (dat6 V c).flushed 2 t = ((cfg6.win 2).blk t).view.read (Elt Ideal) (out6 V c) := by
  have hlast : t.val % 250 = 249 := (flush6_iff t).mp hf
  obtain ⟨-, -, -, -, e4, e5⟩ := idx_facts6 t
  show (cfg6.win 2).cut (grid6.coords t) ((dat6 V c).after 2 t) = _
  rw [after6_2]
  funext j
  obtain ⟨p, q, rfl⟩ : ∃ (p : Fin 512) (q : Fin 128), j = ix2 p q := ⟨j 0, j 1, eq_ix2 j⟩
  have hx : (cfg6.win 2).xinj (grid6.coords t) (ix2 p q) = ix2 p q := funext fun a => Fin.ext rfl
  refine ((congrArg (acc6 V c t.val t.isLt) hx).trans (acc6_last V c t hlast p q)).trans ?_
  have hread : ∀ G : Vec Ideal S50176x128 .f32,
      ((cfg6.win 2).blk t).view.read (Elt Ideal) G (ix2 p q) = G (((cfg6.win 2).blk t).view.emb (ix2 p q)) := fun G => rfl
  refine Eq.trans ?_ (hread (out6 V c)).symm
  refine Eq.trans ?_ (out6_apply V c (((cfg6.win 2).blk t).view.emb (ix2 p q))).symm
  have i0 : ((((cfg6.win 2).blk t).view.emb (ix2 p q)) 0).val = 512 * (t.val / 250) + p.val := by
    show win6_2.index t (0 : Fin 2) * 512 + 1 * p.val = _; omega
  have i1 : ((((cfg6.win 2).blk t).view.emb (ix2 p q)) 1).val = q.val := by
    show win6_2.index t (1 : Fin 2) * 128 + 1 * q.val = _; omega
  exact congrArg₂ (total6 V c) i0.symm (Fin.ext i1.symm)

theorem mem_blk6 (t : Fin cfg6.N) (i : S50176x128.Idx) :
    i ∈ ((cfg6.win 2).blk t).view.set ↔ ∀ a : Fin 2, win6_2.index t a * S512x128.size a ≤ (i a).val ∧ (i a).val < win6_2.index t a * S512x128.size a + S512x128.size a := by
  exact_verbatim mem_blk4 t i

theorem cover6 (i : S50176x128.Idx) :
    ∃ t : Fin cfg6.N, (cfg6.win 2).flush t = true ∧ i ∈ ((cfg6.win 2).blk t).view.set := by
  exact_verbatim cover4 i

theorem out6_final (c : Dev nD) : (dat6 V c).arrAt 2 cfg6.N = out6 V c :=
  (dat6 V c).arrAt_eq_of_cover 2 (out6 V c) (fun t hf => flushed6_eq V c t hf) cover6

theorem sca_final6 (c : Dev nD) (d : Fin 50176) (k : Fin 128) :
    ((dat6 (F := Ideal) V c).arrAt 2 cfg6.N : S50176x128.Idx → EReal) (ix2 d k)
      = ∑ e : Fin 800000, if (scaDst6 V c (ix2 0 e)).toInt = (d.val : ℤ) then scaMsg6 V c (ix2 e k) else 0 := by
  refine (congrFun (out6_final V c) (ix2 d k)).trans ?_
  rfl

end Cert.KernelIdeal.Gen

end
-- ==== Proof.KI.Sca8ValA.lean ====
import proofs.«425335_j13013750907176_1_alg».proof.Proof.Gen.KernelIdeal.Skeleton
import proofs.«425335_j13013750907176_1_alg».proof.Proof.KI.Sca4ValA
import proofs.«425335_j13013750907176_1_alg».proof.Proof.Verbatim
import Idealize.ShloMosaic.Lib.Pipeline.Value
import Idealize.ShloMosaic.Lib.ValueIdx
import Idealize.ShloMosaic.Lib.ValueLayout
import Idealize.ShloMosaic.PureOps.Ideal.Laws

-- Scatter, region 8, one grid point at (r, k): the sum over the block's edges of [id_e = the row's number] · msg[e, k].

set_option maxRecDepth 16384

noncomputable section

namespace Cert.KernelIdeal.Gen

open Idealize.ShloMosaic Idealize.ShloMosaic.TcCoe Idealize.ShloMosaic.ValueIdx

theorem onehot8_val (a b : BitVec 32) :
    (FloatOps.sitofp (F := Ideal) .f32 ((IntOp.cmpi .eq a b).setWidth 32) : EReal) = if a = b then 1 else 0 := by
  exact_verbatim onehot4_val a b

theorem lhs8_0 (i : S512x128.Idx) (q : dot_S512x3200_S3200x128_S512x128_1_0_0_1_n_n.contr.Idx) :
    (dot_S512x3200_S3200x128_S512x128_1_0_0_1_n_n.lhsIdx i q 0).val = (i 0).val := by
  exact_verbatim lhs4_0 i q
theorem lhs8_1 (i : S512x128.Idx) (q : dot_S512x3200_S3200x128_S512x128_1_0_0_1_n_n.contr.Idx) :
    (dot_S512x3200_S3200x128_S512x128_1_0_0_1_n_n.lhsIdx i q 1).val = (q ⟨0, by decide⟩).val := by
  exact_verbatim lhs4_1 i q
theorem rhs8_0 (i : S512x128.Idx) (q : dot_S512x3200_S3200x128_S512x128_1_0_0_1_n_n.contr.Idx) :
    (dot_S512x3200_S3200x128_S512x128_1_0_0_1_n_n.rhsIdx i q 0).val = (q ⟨0, by decide⟩).val := by
  exact_verbatim rhs4_0 i q
theorem rhs8_1 (i : S512x128.Idx) (q : dot_S512x3200_S3200x128_S512x128_1_0_0_1_n_n.contr.Idx) :
    (dot_S512x3200_S3200x128_S512x128_1_0_0_1_n_n.rhsIdx i q 1).val = (i 1).val := by
  exact_verbatim rhs4_1 i q

theorem matmul8_apply (lhs : FVec Ideal S512x3200 .bf16) (rhs : FVec Ideal S3200x128 .bf16) (r : Fin 512) (k : Fin 128) :
    matmul (F := Ideal) dot_S512x3200_S3200x128_S512x128_1_0_0_1_n_n none lhs rhs (constant (F := Ideal) S512x128 .f32 0x00000000#32) (ix2 r k)
      = ∑ ee : Fin 3200, lhs (ix2 r ee) * rhs (ix2 ee k) := by
  exact_verbatim matmul4_apply lhs rhs r k

theorem k8_pay1_apply (j : S512x128.Idx) : k8_pay1 (F := Ideal) j = 0 := by
  exact_verbatim k4_pay1_apply j

theorem k8_pay2_apply (i : grid8.Coords) (x0 : Vec Ideal S1x3200 .i32) (acc : Vec Ideal S512x128 .f32)
    (x1 : Vec Ideal S3200x128 .bf16) (r : Fin 512) (k : Fin 128) :
    k8_pay2 (F := Ideal) i x0 acc x1 (ix2 r k)
      = acc (ix2 r k) + ∑ ee : Fin 3200,
          (if BitVec.ofNat 32 r.val + BitVec.ofNat 32 (i 0).val * 512#32 = x0 (ix2 0 ee) then (1 : EReal) else 0) * x1 (ix2 ee k) := by
  exact_verbatim k4_pay2_apply i x0 acc x1 r k

end Cert.KernelIdeal.Gen

end
-- ==== Proof.KI.Sca8Val.lean ====
import proofs.«425335_j13013750907176_1_alg».proof.Proof.KI.Sca8Defs
import proofs.«425335_j13013750907176_1_alg».proof.Proof.KI.Sca4Val
import proofs.«425335_j13013750907176_1_alg».proof.Proof.Verbatim
import proofs.«425335_j13013750907176_1_alg».proof.Proof.KI.Sca8ValA
import proofs.«425335_j13013750907176_1_alg».proof.Proof.LibScatterRows
import Idealize.ShloMosaic.Lib.Pipeline.Value
import Idealize.ShloMosaic.Lib.ValueIdx
import Idealize.ShloMosaic.Lib.ValueLayout
import Idealize.ShloMosaic.PureOps.Ideal.Laws

-- Scatter, region 8: row d, column k ends at the sum over all edges e of msg[e,k] where the destination id is d.

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem coords8_0 (t : Fin cfg8.N) : ((grid8.coords t) 0).val = t.val / 250 := by
  exact_verbatim coords4_0 t

theorem coords8_1 (t : Fin cfg8.N) : ((grid8.coords t) 1).val = t.val % 250 := by
  exact_verbatim coords4_1 t

theorem idx_facts8 (t : Fin cfg8.N) :
    win8_0.index t (0 : Fin 2) = 0 ∧ win8_0.index t (1 : Fin 2) = t.val % 250
    ∧ win8_1.index t (0 : Fin 2) = t.val % 250 ∧ win8_1.index t (1 : Fin 2) = 0
    ∧ win8_2.index t (0 : Fin 2) = t.val / 250 ∧ win8_2.index t (1 : Fin 2) = 0 := by
  exact_verbatim idx_facts4 t

theorem flush8_iff (t : Fin cfg8.N) : (cfg8.win 2).flush t = true ↔ t.val % 250 = 249 := by
  exact_verbatim flush4_iff t

abbrev scaDst8 (c : Dev nD) : S1x800000.Idx → BitVec 32 := V c (Pipeline.arrRef spec8 0)

abbrev scaMsg8 (c : Dev nD) : S800000x128.Idx → EReal := V c (Pipeline.arrRef spec8 1)

abbrev dblk8 (c : Dev nD) (t : Fin cfg8.N) : Vec Ideal S1x3200 .i32 := iblk8 V c 0 t

abbrev mblk8 (c : Dev nD) (t : Fin cfg8.N) : Vec Ideal S3200x128 .bf16 := iblk8 V c 1 t

theorem dblk8_apply (c : Dev nD) (t : Fin cfg8.N) (ee : Fin 3200) (g : Fin 800000)
    (hg : g.val = 3200 * (t.val % 250) + ee.val) : dblk8 V c t (ix2 0 ee) = scaDst8 V c (ix2 0 g) := by
  obtain ⟨e0, e1, -⟩ := idx_facts8 t
  show V c (Pipeline.arrRef spec8 0) (((cfg8.win 0).blk t).view.emb (ix2 0 ee)) = V c (Pipeline.arrRef spec8 0) (ix2 0 g)
  refine congrArg _ (funext fun a => Fin.ext ?_)
  match a with
  | ⟨0, _⟩ => show win8_0.index t (0 : Fin 2) * 1 + 1 * 0 = 0; omega
  | ⟨1, _⟩ => show win8_0.index t (1 : Fin 2) * 3200 + 1 * ee.val = g.val; omega

theorem mblk8_apply (c : Dev nD) (t : Fin cfg8.N) (ee : Fin 3200) (k : Fin 128) (g : Fin 800000)
    (hg : g.val = 3200 * (t.val % 250) + ee.val) : mblk8 V c t (ix2 ee k) = scaMsg8 V c (ix2 g k) := by
  obtain ⟨-, -, e2, e3, -⟩ := idx_facts8 t
  show V c (Pipeline.arrRef spec8 1) (((cfg8.win 1).blk t).view.emb (ix2 ee k)) = V c (Pipeline.arrRef spec8 1) (ix2 g k)
  refine congrArg _ (funext fun a => Fin.ext ?_)
  match a with
  | ⟨0, _⟩ => show win8_1.index t (0 : Fin 2) * 3200 + 1 * ee.val = g.val; omega
  | ⟨1, _⟩ => show win8_1.index t (1 : Fin 2) * 128 + 1 * k.val = k.val; omega

def term8 (c : Dev nD) (ρ : ℕ) (k : Fin 128) (g : Fin 800000) : EReal :=
  if (scaDst8 V c (ix2 0 g)).toInt = (ρ : ℤ) then scaMsg8 V c (ix2 g k) else 0

def addend8 (c : Dev nD) (ρ : ℕ) (k : Fin 128) (e : ℕ) : EReal :=
  ∑ ee : Fin 3200, term8 V c ρ k ⟨3200 * (e % 250) + ee.val, by have := ee.isLt; omega⟩

def total8 (c : Dev nD) (ρ : ℕ) (k : Fin 128) : EReal := ∑ g : Fin 800000, term8 V c ρ k g

theorem word8_iff (r : Fin 512) (d : ℕ) (hd : d < 98) (w : BitVec 32) :
    BitVec.ofNat 32 r.val + BitVec.ofNat 32 d * 512#32 = w ↔ w.toInt = ((512 * d + r.val : ℕ) : ℤ) := by
  exact_verbatim word4_iff r d hd w

theorem point8 (c : Dev nD) (t : Fin cfg8.N) (acc : Vec Ideal S512x128 .f32) (r : Fin 512) (k : Fin 128) :
    k8_pay2 (F := Ideal) (grid8.coords t) (dblk8 V c t) acc (mblk8 V c t) (ix2 r k)
      = acc (ix2 r k) + addend8 V c (512 * (t.val / 250) + r.val) k (t.val % 250) := by
  have ht : t.val < 24500 := N_8 ▸ t.isLt
  refine (k8_pay2_apply (grid8.coords t) (dblk8 V c t) acc (mblk8 V c t) r k).trans ?_
  refine congrArg (acc (ix2 r k) + ·) ?_
  refine Finset.sum_congr rfl fun ee _ => ?_
  have hee := ee.isLt
  rw [coords8_0 t,
    dblk8_apply V c t ee ⟨3200 * (t.val % 250 % 250) + ee.val, by omega⟩
      (by show 3200 * (t.val % 250 % 250) + ee.val = 3200 * (t.val % 250) + ee.val; omega),
    mblk8_apply V c t ee k ⟨3200 * (t.val % 250 % 250) + ee.val, by omega⟩
      (by show 3200 * (t.val % 250 % 250) + ee.val = 3200 * (t.val % 250) + ee.val; omega)]
  unfold term8
  by_cases hc : (scaDst8 V c (ix2 0 ⟨3200 * (t.val % 250 % 250) + ee.val, by omega⟩)).toInt = ((512 * (t.val / 250) + r.val : ℕ) : ℤ)
  · rw [if_pos ((word8_iff r (t.val / 250) (by omega) _).2 hc), if_pos hc, one_mul]
  · rw [if_neg (fun h => hc ((word8_iff r (t.val / 250) (by omega) _).1 h)), if_neg hc, zero_mul]

theorem acc8_apply (c : Dev nD) : ∀ (n : ℕ) (hn : n < cfg8.N) (r : Fin 512) (k : Fin 128),
    acc8 V c n hn (ix2 r k) = ∑ e ∈ Finset.range (n % 250 + 1), addend8 V c (512 * (n / 250) + r.val) k e
  | 0, hn, r, k => by
    refine (congrFun (acc8_reset V c ⟨0, hn⟩ rfl) (ix2 r k)).trans ?_
    refine (point8 V c ⟨0, hn⟩ (k8_pay1 (F := Ideal)) r k).trans ?_
    rw [k8_pay1_apply, zero_add]
    show addend8 V c (512 * (0 / 250) + r.val) k (0 % 250) = _
    rw [Finset.sum_range_one]
  | n + 1, hn, r, k => by
    by_cases h0 : (n + 1) % 250 = 0
    · refine (congrFun (acc8_reset V c ⟨n + 1, hn⟩ h0) (ix2 r k)).trans ?_
      refine (point8 V c ⟨n + 1, hn⟩ (k8_pay1 (F := Ideal)) r k).trans ?_
      rw [k8_pay1_apply, zero_add]
      show addend8 V c (512 * ((n + 1) / 250) + r.val) k ((n + 1) % 250) = _
      rw [h0, Finset.sum_range_one]
    · refine (congrFun (acc8_step V c ⟨n + 1, hn⟩ h0) (ix2 r k)).trans ?_
      refine (point8 V c ⟨n + 1, hn⟩ (acc8 V c n (Nat.lt_of_succ_lt hn)) r k).trans ?_
      show acc8 V c n (Nat.lt_of_succ_lt hn) (ix2 r k) + addend8 V c (512 * ((n + 1) / 250) + r.val) k ((n + 1) % 250) = _
      rw [acc8_apply c n (Nat.lt_of_succ_lt hn) r k]
      have e1 : (n + 1) / 250 = n / 250 := by omega
      have e2 : (n + 1) % 250 = n % 250 + 1 := by omega
      rw [e1, e2]
      exact (Finset.sum_range_succ _ _).symm

theorem sum_addend8 (c : Dev nD) (ρ : ℕ) (k : Fin 128) :
    ∑ e ∈ Finset.range (249 + 1), addend8 V c ρ k e = total8 V c ρ k := by
  show ∑ e ∈ Finset.range 250, addend8 V c ρ k e = total8 V c ρ k
  rw [Finset.sum_range]
  refine (Cert.LibScatterRows.sum_blocks 250 3200 (fun (e : Fin 250) (ee : Fin 3200) =>
    term8 V c ρ k ⟨3200 * (e.val % 250) + ee.val, by have := ee.isLt; omega⟩)).trans ?_
  refine Finset.sum_congr rfl fun g _ => ?_
  refine congrArg (term8 V c ρ k) (Fin.ext ?_)
  show 3200 * (g.val / 3200 % 250) + g.val % 3200 = g.val
  have := g.isLt
  omega

def out8 (c : Dev nD) : Vec Ideal S50176x128 .f32 := fun j => total8 V c (j 0).val (⟨(j 1).val, (j 1).isLt⟩ : Fin 128)

theorem out8_apply (c : Dev nD) (j : S50176x128.Idx) :
    out8 V c j = total8 V c (j 0).val (⟨(j 1).val, (j 1).isLt⟩ : Fin 128) := rfl

theorem acc8_last (c : Dev nD) (t : Fin cfg8.N) (hlast : t.val % 250 = 249) (p : Fin 512) (q : Fin 128) :
    acc8 V c t.val t.isLt (ix2 p q) = total8 V c (512 * (t.val / 250) + p.val) q := by
  rw [acc8_apply V c t.val t.isLt p q, hlast, sum_addend8]

theorem flushed8_eq (c : Dev nD) (t : Fin cfg8.N) (hf : (cfg8.win 2).flush t = true) :
    (dat8 V c).flushed 2 t = ((cfg8.win 2).blk t).view.read (Elt Ideal) (out8 V c) := by
  have hlast : t.val % 250 = 249 := (flush8_iff t).mp hf
  obtain ⟨-, -, -, -, e4, e5⟩ := idx_facts8 t
  show (cfg8.win 2).cut (grid8.coords t) ((dat8 V c).after 2 t) = _
  rw [after8_2]
  funext j
  obtain ⟨p, q, rfl⟩ : ∃ (p : Fin 512) (q : Fin 128), j = ix2 p q := ⟨j 0, j 1, eq_ix2 j⟩
  have hx : (cfg8.win 2).xinj (grid8.coords t) (ix2 p q) = ix2 p q := funext fun a => Fin.ext rfl
  refine ((congrArg (acc8 V c t.val t.isLt) hx).trans (acc8_last V c t hlast p q)).trans ?_
  have hread : ∀ G : Vec Ideal S50176x128 .f32,
      ((cfg8.win 2).blk t).view.read (Elt Ideal) G (ix2 p q) = G (((cfg8.win 2).blk t).view.emb (ix2 p q)) := fun G => rfl
  refine Eq.trans ?_ (hread (out8 V c)).symm
  refine Eq.trans ?_ (out8_apply V c (((cfg8.win 2).blk t).view.emb (ix2 p q))).symm
  have i0 : ((((cfg8.win 2).blk t).view.emb (ix2 p q)) 0).val = 512 * (t.val / 250) + p.val := by
    show win8_2.index t (0 : Fin 2) * 512 + 1 * p.val = _; omega
  have i1 : ((((cfg8.win 2).blk t).view.emb (ix2 p q)) 1).val = q.val := by
    show win8_2.index t (1 : Fin 2) * 128 + 1 * q.val = _; omega
  exact congrArg₂ (total8 V c) i0.symm (Fin.ext i1.symm)

theorem mem_blk8 (t : Fin cfg8.N) (i : S50176x128.Idx) :
    i ∈ ((cfg8.win 2).blk t).view.set ↔ ∀ a : Fin 2, win8_2.index t a * S512x128.size a ≤ (i a).val ∧ (i a).val < win8_2.index t a * S512x128.size a + S512x128.size a := by
  exact_verbatim mem_blk4 t i

theorem cover8 (i : S50176x128.Idx) :
    ∃ t : Fin cfg8.N, (cfg8.win 2).flush t = true ∧ i ∈ ((cfg8.win 2).blk t).view.set := by
  exact_verbatim cover4 i

theorem out8_final (c : Dev nD) : (dat8 V c).arrAt 2 cfg8.N = out8 V c :=
  (dat8 V c).arrAt_eq_of_cover 2 (out8 V c) (fun t hf => flushed8_eq V c t hf) cover8

theorem sca_final8 (c : Dev nD) (d : Fin 50176) (k : Fin 128) :
    ((dat8 (F := Ideal) V c).arrAt 2 cfg8.N : S50176x128.Idx → EReal) (ix2 d k)
      = ∑ e : Fin 800000, if (scaDst8 V c (ix2 0 e)).toInt = (d.val : ℤ) then scaMsg8 V c (ix2 e k) else 0 := by
  refine (congrFun (out8_final V c) (ix2 d k)).trans ?_
  rfl

end Cert.KernelIdeal.Gen

end
-- ==== Proof.Spec.lean ====
import Idealize.ShloMosaic.PureOps.Ideal
import Idealize.ShloMosaic.PureOps.Ideal.Laws
import Idealize.ShloMosaic.Lib.ValueIdx

-- The common value: each relation's linear layer, taken along the edges' sources, averaged over each destination's incoming edges; slab 0 adds relations 0 and 2, slab 1 is relation 1.

noncomputable section

namespace Cert.Spec

open Idealize.ShloMosaic

def one : EReal := Ideal.ofBits .f32 0x3F800000#32
def zero : EReal := Ideal.ofBits .f32 0x00000000#32

def lin (h : Fin 50000 → Fin 128 → EReal) (w : Fin 128 → Fin 128 → EReal) (b : Fin 128 → EReal)
    (r : Fin 50000) (k : Fin 128) : EReal :=
  (∑ j : Fin 128, h r j * w j k) + b k

def rowOf (s : BitVec 32) : Fin 50000 := ⟨min s.toInt.toNat 49999, by omega⟩

def cnt (dst : Fin 800000 → BitVec 32) (d : Fin 50000) : EReal :=
  zero + ∑ n : Fin 800000, if (dst n).toInt = (d.val : ℤ) then one else 0

def segsum (dst : Fin 800000 → BitVec 32) (msg : Fin 800000 → Fin 128 → EReal) (d : Fin 50000) (k : Fin 128) : EReal :=
  zero + ∑ n : Fin 800000, if (dst n).toInt = (d.val : ℤ) then msg n k else 0

def meanAt (c x : EReal) : EReal :=
  Scalar.select (Ideal.cmp .ogt c zero) (Ideal.div x (max c one)) zero

def agg (h : Fin 50000 → Fin 128 → EReal) (w : Fin 128 → Fin 128 → EReal) (b : Fin 128 → EReal)
    (src dst : Fin 800000 → BitVec 32) (d : Fin 50000) (k : Fin 128) : EReal :=
  meanAt (cnt dst d) (segsum dst (fun n k' => lin h w b (rowOf (src n)) k') d k)

def result (hu hi : Fin 50000 → Fin 128 → EReal)
    (src0 dst0 src1 dst1 src2 dst2 : Fin 800000 → BitVec 32)
    (w0 : Fin 128 → Fin 128 → EReal) (b0 : Fin 128 → EReal)
    (w1 : Fin 128 → Fin 128 → EReal) (b1 : Fin 128 → EReal)
    (w2 : Fin 128 → Fin 128 → EReal) (b2 : Fin 128 → EReal)
    (a : Fin 2) (d : Fin 50000) (k : Fin 128) : EReal :=
  if a.val = 0 then agg hu w0 b0 src0 dst0 d k + agg hi w2 b2 src2 dst2 d k
  else agg hu w1 b1 src1 dst1 d k

end Cert.Spec

end
-- ==== Proof.KI.Args.lean ====
import proofs.«425335_j13013750907176_1_alg».proof.KernelIdeal
import proofs.«425335_j13013750907176_1_alg».proof.Proof.Spec
import Idealize.ShloMosaic.Lib.ValueIdx

-- The argument arrays as functions of their coordinates, and the common value at them.

noncomputable section

namespace Cert.KernelIdeal.Args

open Idealize.ShloMosaic Idealize.ShloMosaic.TcCoe Idealize.SL.Sem Cert.KernelIdeal Idealize.ShloMosaic.ValueIdx

variable (m : (ℓ : Loc nD τ sig) → Buf (Elt Ideal) ℓ) (c : Dev nD)

def hu : Fin 50000 → Fin 128 → EReal := fun r j => (m ((c.tc : Thread nD τ).loc main_arg0) : S50000x128.Idx → EReal) (ix2 r j)
def hi : Fin 50000 → Fin 128 → EReal := fun r j => (m ((c.tc : Thread nD τ).loc main_arg1) : S50000x128.Idx → EReal) (ix2 r j)
def src0 : Fin 800000 → BitVec 32 := fun n => (m ((c.tc : Thread nD τ).loc main_arg2) : S800000.Idx → BitVec 32) (ix1 n)
def dst0 : Fin 800000 → BitVec 32 := fun n => (m ((c.tc : Thread nD τ).loc main_arg3) : S800000.Idx → BitVec 32) (ix1 n)
def src1 : Fin 800000 → BitVec 32 := fun n => (m ((c.tc : Thread nD τ).loc main_arg4) : S800000.Idx → BitVec 32) (ix1 n)
def dst1 : Fin 800000 → BitVec 32 := fun n => (m ((c.tc : Thread nD τ).loc main_arg5) : S800000.Idx → BitVec 32) (ix1 n)
def src2 : Fin 800000 → BitVec 32 := fun n => (m ((c.tc : Thread nD τ).loc main_arg6) : S800000.Idx → BitVec 32) (ix1 n)
def dst2 : Fin 800000 → BitVec 32 := fun n => (m ((c.tc : Thread nD τ).loc main_arg7) : S800000.Idx → BitVec 32) (ix1 n)
def w0 : Fin 128 → Fin 128 → EReal := fun j k => (m ((c.tc : Thread nD τ).loc main_arg8) : S128x128.Idx → EReal) (ix2 j k)
def b0 : Fin 128 → EReal := fun k => (m ((c.tc : Thread nD τ).loc main_arg9) : S128.Idx → EReal) (ix1 k)
def w1 : Fin 128 → Fin 128 → EReal := fun j k => (m ((c.tc : Thread nD τ).loc main_arg10) : S128x128.Idx → EReal) (ix2 j k)
def b1 : Fin 128 → EReal := fun k => (m ((c.tc : Thread nD τ).loc main_arg11) : S128.Idx → EReal) (ix1 k)
def w2 : Fin 128 → Fin 128 → EReal := fun j k => (m ((c.tc : Thread nD τ).loc main_arg12) : S128x128.Idx → EReal) (ix2 j k)
def b2 : Fin 128 → EReal := fun k => (m ((c.tc : Thread nD τ).loc main_arg13) : S128.Idx → EReal) (ix1 k)

def spec : Fin 2 → Fin 50000 → Fin 128 → EReal :=
  Cert.Spec.result (hu m c) (hi m c) (src0 m c) (dst0 m c) (src1 m c) (dst1 m c) (src2 m c) (dst2 m c)
    (w0 m c) (b0 m c) (w1 m c) (b1 m c) (w2 m c) (b2 m c)

def SrcInRange : Prop :=
  (∀ n, 0 ≤ (src0 m c n).toInt ∧ (src0 m c n).toInt < 50000)
  ∧ (∀ n, 0 ≤ (src1 m c n).toInt ∧ (src1 m c n).toInt < 50000)
  ∧ (∀ n, 0 ≤ (src2 m c n).toInt ∧ (src2 m c n).toInt < 50000)

end Cert.KernelIdeal.Args

end
-- ==== Proof.KI.HostA.lean ====
import proofs.«425335_j13013750907176_1_alg».proof.Proof.KI.Outs
import proofs.«425335_j13013750907176_1_alg».proof.Proof.KI.Lin0Val
import proofs.«425335_j13013750907176_1_alg».proof.Proof.KI.Lin1Val
import proofs.«425335_j13013750907176_1_alg».proof.Proof.KI.Lin2Val
import proofs.«425335_j13013750907176_1_alg».proof.Proof.KI.Gat3Val
import proofs.«425335_j13013750907176_1_alg».proof.Proof.KI.Gat5Val
import proofs.«425335_j13013750907176_1_alg».proof.Proof.KI.Gat7Val
import proofs.«425335_j13013750907176_1_alg».proof.Proof.KI.Sca4Val
import proofs.«425335_j13013750907176_1_alg».proof.Proof.KI.Sca6Val
import proofs.«425335_j13013750907176_1_alg».proof.Proof.KI.Sca8Val
import proofs.«425335_j13013750907176_1_alg».proof.Proof.KI.Args
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

-- Layer, zero padding, gather and scatter composed: row d, column k of a scatter's output is the sum of the transformed source rows over the edges into d.

set_option maxRecDepth 16384

noncomputable section

namespace Cert.KernelIdeal.Gen

open Idealize.ShloMosaic Idealize.ShloMosaic.TcCoe Idealize.ShloMosaic.ValueIdx
open Idealize.SL Idealize.SL.Sem
open Cert.KernelIdeal.Args

variable (m : (ℓ : Loc nD τ sig) → Buf (Elt Ideal) ℓ)

namespace HostA

section Arguments
variable (o : Outs (F := Ideal))

abbrev argRefs : List (Ref sig .tc) :=
  [main_arg0, main_arg1, main_arg2, main_arg3, main_arg4, main_arg5, main_arg6, main_arg7, main_arg8, main_arg9,
   main_arg10, main_arg11, main_arg12, main_arg13]

theorem V1_arg (c : Dev nD) (r : Ref sig .tc) (h : r ∈ (argRefs : List (Ref sig .tc))) : V1 m c r = V0 m c r :=
  V1_of m c r (fun hw => (by decide : ∀ x ∈ (hostOps0_W : List (Ref sig .tc)), x ∉ (argRefs : List (Ref sig .tc))) r hw h)
theorem V2_arg (c : Dev nD) (r : Ref sig .tc) (h : r ∈ (argRefs : List (Ref sig .tc))) : V2 m o c r = V0 m c r :=
  (V2_of m o c r (fun hw => (by decide : ∀ x ∈ ([main_v1] : List (Ref sig .tc)), x ∉ (argRefs : List (Ref sig .tc))) r hw h)).trans (V1_arg m c r h)
theorem V3_arg (c : Dev nD) (r : Ref sig .tc) (h : r ∈ (argRefs : List (Ref sig .tc))) : V3 m o c r = V0 m c r :=
  (V3_of m o c r (fun hw => (by decide : ∀ x ∈ (hostOps1_W : List (Ref sig .tc)), x ∉ (argRefs : List (Ref sig .tc))) r hw h)).trans (V2_arg m o c r h)
theorem V4_arg (c : Dev nD) (r : Ref sig .tc) (h : r ∈ (argRefs : List (Ref sig .tc))) : V4 m o c r = V0 m c r :=
  (V4_of m o c r (fun hw => (by decide : ∀ x ∈ ([main_v3] : List (Ref sig .tc)), x ∉ (argRefs : List (Ref sig .tc))) r hw h)).trans (V3_arg m o c r h)
theorem V5_arg (c : Dev nD) (r : Ref sig .tc) (h : r ∈ (argRefs : List (Ref sig .tc))) : V5 m o c r = V0 m c r :=
  (V5_of m o c r (fun hw => (by decide : ∀ x ∈ (hostOps2_W : List (Ref sig .tc)), x ∉ (argRefs : List (Ref sig .tc))) r hw h)).trans (V4_arg m o c r h)
theorem V6_arg (c : Dev nD) (r : Ref sig .tc) (h : r ∈ (argRefs : List (Ref sig .tc))) : V6 m o c r = V0 m c r :=
  (V6_of m o c r (fun hw => (by decide : ∀ x ∈ ([main_v5] : List (Ref sig .tc)), x ∉ (argRefs : List (Ref sig .tc))) r hw h)).trans (V5_arg m o c r h)
theorem V7_arg (c : Dev nD) (r : Ref sig .tc) (h : r ∈ (argRefs : List (Ref sig .tc))) : V7 m o c r = V0 m c r :=
  (V7_of m o c r (fun hw => (by decide : ∀ x ∈ (hostOps3_W : List (Ref sig .tc)), x ∉ (argRefs : List (Ref sig .tc))) r hw h)).trans (V6_arg m o c r h)
theorem V8_arg (c : Dev nD) (r : Ref sig .tc) (h : r ∈ (argRefs : List (Ref sig .tc))) : V8 m o c r = V0 m c r :=
  (V8_of m o c r (fun hw => (by decide : ∀ x ∈ (hostOps3_1_W : List (Ref sig .tc)), x ∉ (argRefs : List (Ref sig .tc))) r hw h)).trans (V7_arg m o c r h)
theorem V9_arg (c : Dev nD) (r : Ref sig .tc) (h : r ∈ (argRefs : List (Ref sig .tc))) : V9 m o c r = V0 m c r :=
  (V9_of m o c r (fun hw => (by decide : ∀ x ∈ (hostOps3_2_W : List (Ref sig .tc)), x ∉ (argRefs : List (Ref sig .tc))) r hw h)).trans (V8_arg m o c r h)
theorem V10_arg (c : Dev nD) (r : Ref sig .tc) (h : r ∈ (argRefs : List (Ref sig .tc))) : V10 m o c r = V0 m c r :=
  (V10_of m o c r (fun hw => (by decide : ∀ x ∈ ([main_v8] : List (Ref sig .tc)), x ∉ (argRefs : List (Ref sig .tc))) r hw h)).trans (V9_arg m o c r h)
theorem V11_arg (c : Dev nD) (r : Ref sig .tc) (h : r ∈ (argRefs : List (Ref sig .tc))) : V11 m o c r = V0 m c r :=
  (V11_of m o c r (fun hw => (by decide : ∀ x ∈ (hostOps4_W : List (Ref sig .tc)), x ∉ (argRefs : List (Ref sig .tc))) r hw h)).trans (V10_arg m o c r h)
theorem V12_arg (c : Dev nD) (r : Ref sig .tc) (h : r ∈ (argRefs : List (Ref sig .tc))) : V12 m o c r = V0 m c r :=
  (V12_of m o c r (fun hw => (by decide : ∀ x ∈ ([main_v10] : List (Ref sig .tc)), x ∉ (argRefs : List (Ref sig .tc))) r hw h)).trans (V11_arg m o c r h)
theorem V13_arg (c : Dev nD) (r : Ref sig .tc) (h : r ∈ (argRefs : List (Ref sig .tc))) : V13 m o c r = V0 m c r :=
  (V13_of m o c r (fun hw => (by decide : ∀ x ∈ (hostOps5_W : List (Ref sig .tc)), x ∉ (argRefs : List (Ref sig .tc))) r hw h)).trans (V12_arg m o c r h)
theorem V14_arg (c : Dev nD) (r : Ref sig .tc) (h : r ∈ (argRefs : List (Ref sig .tc))) : V14 m o c r = V0 m c r :=
  (V14_of m o c r (fun hw => (by decide : ∀ x ∈ (hostOps5_1_W : List (Ref sig .tc)), x ∉ (argRefs : List (Ref sig .tc))) r hw h)).trans (V13_arg m o c r h)
theorem V15_arg (c : Dev nD) (r : Ref sig .tc) (h : r ∈ (argRefs : List (Ref sig .tc))) : V15 m o c r = V0 m c r :=
  (V15_of m o c r (fun hw => (by decide : ∀ x ∈ (hostOps5_2_W : List (Ref sig .tc)), x ∉ (argRefs : List (Ref sig .tc))) r hw h)).trans (V14_arg m o c r h)
theorem V16_arg (c : Dev nD) (r : Ref sig .tc) (h : r ∈ (argRefs : List (Ref sig .tc))) : V16 m o c r = V0 m c r :=
  (V16_of m o c r (fun hw => (by decide : ∀ x ∈ (hostOps5_3_W : List (Ref sig .tc)), x ∉ (argRefs : List (Ref sig .tc))) r hw h)).trans (V15_arg m o c r h)
theorem V17_arg (c : Dev nD) (r : Ref sig .tc) (h : r ∈ (argRefs : List (Ref sig .tc))) : V17 m o c r = V0 m c r :=
  (V17_of m o c r (fun hw => (by decide : ∀ x ∈ (hostOps5_4_W : List (Ref sig .tc)), x ∉ (argRefs : List (Ref sig .tc))) r hw h)).trans (V16_arg m o c r h)
theorem V18_arg (c : Dev nD) (r : Ref sig .tc) (h : r ∈ (argRefs : List (Ref sig .tc))) : V18 m o c r = V0 m c r :=
  (V18_of m o c r (fun hw => (by decide : ∀ x ∈ ([main_v27] : List (Ref sig .tc)), x ∉ (argRefs : List (Ref sig .tc))) r hw h)).trans (V17_arg m o c r h)
theorem V19_arg (c : Dev nD) (r : Ref sig .tc) (h : r ∈ (argRefs : List (Ref sig .tc))) : V19 m o c r = V0 m c r :=
  (V19_of m o c r (fun hw => (by decide : ∀ x ∈ (hostOps6_W : List (Ref sig .tc)), x ∉ (argRefs : List (Ref sig .tc))) r hw h)).trans (V18_arg m o c r h)
theorem V20_arg (c : Dev nD) (r : Ref sig .tc) (h : r ∈ (argRefs : List (Ref sig .tc))) : V20 m o c r = V0 m c r :=
  (V20_of m o c r (fun hw => (by decide : ∀ x ∈ ([main_v29] : List (Ref sig .tc)), x ∉ (argRefs : List (Ref sig .tc))) r hw h)).trans (V19_arg m o c r h)
theorem V21_arg (c : Dev nD) (r : Ref sig .tc) (h : r ∈ (argRefs : List (Ref sig .tc))) : V21 m o c r = V0 m c r :=
  (V21_of m o c r (fun hw => (by decide : ∀ x ∈ (hostOps7_W : List (Ref sig .tc)), x ∉ (argRefs : List (Ref sig .tc))) r hw h)).trans (V20_arg m o c r h)
theorem V22_arg (c : Dev nD) (r : Ref sig .tc) (h : r ∈ (argRefs : List (Ref sig .tc))) : V22 m o c r = V0 m c r :=
  (V22_of m o c r (fun hw => (by decide : ∀ x ∈ (hostOps7_1_W : List (Ref sig .tc)), x ∉ (argRefs : List (Ref sig .tc))) r hw h)).trans (V21_arg m o c r h)
theorem V23_arg (c : Dev nD) (r : Ref sig .tc) (h : r ∈ (argRefs : List (Ref sig .tc))) : V23 m o c r = V0 m c r :=
  (V23_of m o c r (fun hw => (by decide : ∀ x ∈ (hostOps7_2_W : List (Ref sig .tc)), x ∉ (argRefs : List (Ref sig .tc))) r hw h)).trans (V22_arg m o c r h)
theorem V24_arg (c : Dev nD) (r : Ref sig .tc) (h : r ∈ (argRefs : List (Ref sig .tc))) : V24 m o c r = V0 m c r :=
  (V24_of m o c r (fun hw => (by decide : ∀ x ∈ (hostOps7_3_W : List (Ref sig .tc)), x ∉ (argRefs : List (Ref sig .tc))) r hw h)).trans (V23_arg m o c r h)
theorem V25_arg (c : Dev nD) (r : Ref sig .tc) (h : r ∈ (argRefs : List (Ref sig .tc))) : V25 m o c r = V0 m c r :=
  (V25_of m o c r (fun hw => (by decide : ∀ x ∈ (hostOps7_4_W : List (Ref sig .tc)), x ∉ (argRefs : List (Ref sig .tc))) r hw h)).trans (V24_arg m o c r h)
theorem V26_arg (c : Dev nD) (r : Ref sig .tc) (h : r ∈ (argRefs : List (Ref sig .tc))) : V26 m o c r = V0 m c r :=
  (V26_of m o c r (fun hw => (by decide : ∀ x ∈ ([main_v47] : List (Ref sig .tc)), x ∉ (argRefs : List (Ref sig .tc))) r hw h)).trans (V25_arg m o c r h)
end Arguments

section Layout
variable {α : Type}

theorem col_read (x : S800000.Idx → α) (h : S800000.ShapeCasts S800000x1) (e : Fin 800000) (u : Fin 1) :
    shapeCast S800000x1 x h (ix2 e u) = x (ix1 e) :=
  shapeCast_apply x h _ _ (by
    have hu : u.val = 0 := by omega
    rw [Shape.rowMajor_val_two, Shape.rowMajor_val_one]
    show e.val = e.val * 1 + u.val
    omega)

theorem pad_read (x : S50000x128.Idx → α) (v : S_.Idx → α)
    (h : S50000x128.Pads (![0, 0] : Fin 2 → Nat) ![176, 0] ![0, 0] S50176x128) (hu : 0 < S_.numel)
    (r : Fin 50000) (k : Fin 128) :
    pad S50176x128 ![0, 0] ![176, 0] ![0, 0] x v h hu (ix2 (Fin.castLE (by decide : 50000 ≤ 50176) r) k) = x (ix2 r k) :=
  pad_apply_of_inside _ _ _ x v h hu _ (ix2 r k) (fun a => match a with
    | ⟨0, _⟩ => by show r.val = 0 + r.val * (0 + 1); omega
    | ⟨1, _⟩ => by show k.val = 0 + k.val * (0 + 1); omega)

end Layout

section Reads
variable (o : Outs (F := Ideal))

theorem dstRow0 (c : Dev nD) (e : Fin 800000) (u : Fin 1) :
    (V11 m o c main_v9 : S1x800000.Idx → BitVec 32) (ix2 u e) = dst0 m c e := by
  have e1 : (V11 m o c main_v9 : S1x800000.Idx → BitVec 32)
      = shapeCast S1x800000 (V10 m o c main_arg3 : S800000.Idx → BitVec 32) shapeCasts_S800000_S1x800000 := by
    show StableHlo.after hostOps4 _ (Proc.devRef .tc main_v9) = _
    after_results; rfl
  rw [e1, shapeCast_a_1a_apply, V10_arg m o c main_arg3 (by decide)]
  rfl

theorem srcCol0 (c : Dev nD) (e : Fin 800000) (u : Fin 1) :
    (V9 m o c main_v7 : S800000x1.Idx → BitVec 32) (ix2 e u) = src0 m c e := by
  have e1 : (V9 m o c main_v7 : S800000x1.Idx → BitVec 32)
      = shapeCast S800000x1 (V8 m o c main_arg2 : S800000.Idx → BitVec 32) shapeCasts_S800000_S800000x1 := by
    show StableHlo.after hostOps3_2 _ (Proc.devRef .tc main_v7) = _
    after_results; rfl
  rw [e1, col_read, V8_arg m o c main_arg2 (by decide)]
  rfl

theorem tab0 (c : Dev nD) (r : Fin 50000) (k : Fin 128) :
    (V9 m o c main_v6 : S50176x128.Idx → EReal) (ix2 (Fin.castLE (by decide : 50000 ≤ 50176) r) k)
      = (V2 m o c main_v1 : S50000x128.Idx → EReal) (ix2 r k) := by
  obtain ⟨v, e1⟩ : ∃ v : S_.Idx → EReal, (V8 m o c main_v6 : S50176x128.Idx → EReal)
      = pad S50176x128 ![0, 0] ![176, 0] ![0, 0] (V7 m o c main_v1 : S50000x128.Idx → EReal) v
          pads_S50000x128_S50176x128_01760_000 h_S_ :=
    ⟨_, by show StableHlo.after hostOps3_1 _ (Proc.devRef .tc main_v6) = _; after_results; rfl⟩
  rw [V9_of m o c main_v6 (by decide), e1, pad_read,
    V7_of m o c main_v1 (by decide), V6_of m o c main_v1 (by decide), V5_of m o c main_v1 (by decide), V4_of m o c main_v1 (by decide), V3_of m o c main_v1 (by decide)]

theorem hRead0 (c : Dev nD) (r : Fin 50000) (j : Fin 128) :
    (V1 m c main_arg0 : S50000x128.Idx → EReal) (ix2 r j) = hu m c r j := by
  rw [V1_arg m c main_arg0 (by decide)]
  rfl

theorem wRead0 (c : Dev nD) (j k : Fin 128) :
    (V1 m c main_arg8 : S128x128.Idx → EReal) (ix2 j k) = w0 m c j k := by
  rw [V1_arg m c main_arg8 (by decide)]
  rfl

theorem bRead0 (c : Dev nD) (k : Fin 128) (u : Fin 1) :
    (V1 m c main_v0 : S1x128.Idx → EReal) (ix2 u k) = b0 m c k := by
  have e1 : (V1 m c main_v0 : S1x128.Idx → EReal)
      = shapeCast S1x128 (V0 m c main_arg9 : S128.Idx → EReal) shapeCasts_S128_S1x128 := by
    show StableHlo.after hostOps0 _ (Proc.devRef .tc main_v0) = _
    after_results; rfl
  rw [e1, shapeCast_a_1a_apply]
  rfl

theorem dstRow2 (c : Dev nD) (e : Fin 800000) (u : Fin 1) :
    (V19 m o c main_v28 : S1x800000.Idx → BitVec 32) (ix2 u e) = dst2 m c e := by
  have e1 : (V19 m o c main_v28 : S1x800000.Idx → BitVec 32)
      = shapeCast S1x800000 (V18 m o c main_arg7 : S800000.Idx → BitVec 32) shapeCasts_S800000_S1x800000 := by
    show StableHlo.after hostOps6 _ (Proc.devRef .tc main_v28) = _
    after_results; rfl
  rw [e1, shapeCast_a_1a_apply, V18_arg m o c main_arg7 (by decide)]
  rfl

theorem srcCol2 (c : Dev nD) (e : Fin 800000) (u : Fin 1) :
    (V17 m o c main_v26 : S800000x1.Idx → BitVec 32) (ix2 e u) = src2 m c e := by
  have e1 : (V17 m o c main_v26 : S800000x1.Idx → BitVec 32)
      = shapeCast S800000x1 (V16 m o c main_arg6 : S800000.Idx → BitVec 32) shapeCasts_S800000_S800000x1 := by
    show StableHlo.after hostOps5_4 _ (Proc.devRef .tc main_v26) = _
    after_results; rfl
  rw [e1, col_read, V16_arg m o c main_arg6 (by decide)]
  rfl

theorem tab2 (c : Dev nD) (r : Fin 50000) (k : Fin 128) :
    (V17 m o c main_v25 : S50176x128.Idx → EReal) (ix2 (Fin.castLE (by decide : 50000 ≤ 50176) r) k)
      = (V6 m o c main_v5 : S50000x128.Idx → EReal) (ix2 r k) := by
  obtain ⟨v, e1⟩ : ∃ v : S_.Idx → EReal, (V16 m o c main_v25 : S50176x128.Idx → EReal)
      = pad S50176x128 ![0, 0] ![176, 0] ![0, 0] (V15 m o c main_v5 : S50000x128.Idx → EReal) v
          pads_S50000x128_S50176x128_01760_000 h_S_ :=
    ⟨_, by show StableHlo.after hostOps5_3 _ (Proc.devRef .tc main_v25) = _; after_results; rfl⟩
  rw [V17_of m o c main_v25 (by decide), e1, pad_read,
    V15_of m o c main_v5 (by decide), V14_of m o c main_v5 (by decide), V13_of m o c main_v5 (by decide), V12_of m o c main_v5 (by decide), V11_of m o c main_v5 (by decide), V10_of m o c main_v5 (by decide), V9_of m o c main_v5 (by decide), V8_of m o c main_v5 (by decide), V7_of m o c main_v5 (by decide)]

theorem hRead2 (c : Dev nD) (r : Fin 50000) (j : Fin 128) :
    (V5 m o c main_arg1 : S50000x128.Idx → EReal) (ix2 r j) = hi m c r j := by
  rw [V5_arg m o c main_arg1 (by decide)]
  rfl

theorem wRead2 (c : Dev nD) (j k : Fin 128) :
    (V5 m o c main_arg12 : S128x128.Idx → EReal) (ix2 j k) = w2 m c j k := by
  rw [V5_arg m o c main_arg12 (by decide)]
  rfl

theorem bRead2 (c : Dev nD) (k : Fin 128) (u : Fin 1) :
    (V5 m o c main_v4 : S1x128.Idx → EReal) (ix2 u k) = b2 m c k := by
  have e1 : (V5 m o c main_v4 : S1x128.Idx → EReal)
      = shapeCast S1x128 (V4 m o c main_arg13 : S128.Idx → EReal) shapeCasts_S128_S1x128 := by
    show StableHlo.after hostOps2 _ (Proc.devRef .tc main_v4) = _
    after_results; rfl
  rw [e1, shapeCast_a_1a_apply, V4_arg m o c main_arg13 (by decide)]
  rfl

theorem dstRow1 (c : Dev nD) (e : Fin 800000) (u : Fin 1) :
    (V27 m o c main_v48 : S1x800000.Idx → BitVec 32) (ix2 u e) = dst1 m c e := by
  have e1 : (V27 m o c main_v48 : S1x800000.Idx → BitVec 32)
      = shapeCast S1x800000 (V26 m o c main_arg5 : S800000.Idx → BitVec 32) shapeCasts_S800000_S1x800000 := by
    show StableHlo.after hostOps8 _ (Proc.devRef .tc main_v48) = _
    after_results; rfl
  rw [e1, shapeCast_a_1a_apply, V26_arg m o c main_arg5 (by decide)]
  rfl

theorem srcCol1 (c : Dev nD) (e : Fin 800000) (u : Fin 1) :
    (V25 m o c main_v46 : S800000x1.Idx → BitVec 32) (ix2 e u) = src1 m c e := by
  have e1 : (V25 m o c main_v46 : S800000x1.Idx → BitVec 32)
      = shapeCast S800000x1 (V24 m o c main_arg4 : S800000.Idx → BitVec 32) shapeCasts_S800000_S800000x1 := by
    show StableHlo.after hostOps7_4 _ (Proc.devRef .tc main_v46) = _
    after_results; rfl
  rw [e1, col_read, V24_arg m o c main_arg4 (by decide)]
  rfl

theorem tab1 (c : Dev nD) (r : Fin 50000) (k : Fin 128) :
    (V25 m o c main_v45 : S50176x128.Idx → EReal) (ix2 (Fin.castLE (by decide : 50000 ≤ 50176) r) k)
      = (V4 m o c main_v3 : S50000x128.Idx → EReal) (ix2 r k) := by
  obtain ⟨v, e1⟩ : ∃ v : S_.Idx → EReal, (V24 m o c main_v45 : S50176x128.Idx → EReal)
      = pad S50176x128 ![0, 0] ![176, 0] ![0, 0] (V23 m o c main_v3 : S50000x128.Idx → EReal) v
          pads_S50000x128_S50176x128_01760_000 h_S_ :=
    ⟨_, by show StableHlo.after hostOps7_3 _ (Proc.devRef .tc main_v45) = _; after_results; rfl⟩
  rw [V25_of m o c main_v45 (by decide), e1, pad_read,
    V23_of m o c main_v3 (by decide), V22_of m o c main_v3 (by decide), V21_of m o c main_v3 (by decide), V20_of m o c main_v3 (by decide), V19_of m o c main_v3 (by decide), V18_of m o c main_v3 (by decide), V17_of m o c main_v3 (by decide), V16_of m o c main_v3 (by decide), V15_of m o c main_v3 (by decide), V14_of m o c main_v3 (by decide), V13_of m o c main_v3 (by decide), V12_of m o c main_v3 (by decide), V11_of m o c main_v3 (by decide), V10_of m o c main_v3 (by decide), V9_of m o c main_v3 (by decide), V8_of m o c main_v3 (by decide), V7_of m o c main_v3 (by decide), V6_of m o c main_v3 (by decide), V5_of m o c main_v3 (by decide)]

theorem hRead1 (c : Dev nD) (r : Fin 50000) (j : Fin 128) :
    (V3 m o c main_arg0 : S50000x128.Idx → EReal) (ix2 r j) = hu m c r j := by
  rw [V3_arg m o c main_arg0 (by decide)]
  rfl

theorem wRead1 (c : Dev nD) (j k : Fin 128) :
    (V3 m o c main_arg10 : S128x128.Idx → EReal) (ix2 j k) = w1 m c j k := by
  rw [V3_arg m o c main_arg10 (by decide)]
  rfl

theorem bRead1 (c : Dev nD) (k : Fin 128) (u : Fin 1) :
    (V3 m o c main_v2 : S1x128.Idx → EReal) (ix2 u k) = b1 m c k := by
  have e1 : (V3 m o c main_v2 : S1x128.Idx → EReal)
      = shapeCast S1x128 (V2 m o c main_arg11 : S128.Idx → EReal) shapeCasts_S128_S1x128 := by
    show StableHlo.after hostOps1 _ (Proc.devRef .tc main_v2) = _
    after_results; rfl
  rw [e1, shapeCast_a_1a_apply, V2_arg m o c main_arg11 (by decide)]
  rfl

end Reads

theorem gather_row (T : Fin 50176 → EReal) (L : Fin 50000 → EReal)
    (hT : ∀ r : Fin 50000, T (Fin.castLE (by decide : 50000 ≤ 50176) r) = L r)
    (s s' : BitVec 32) (hss : s' = s) (hs : 0 ≤ s.toInt ∧ s.toInt < 50000) :
    (∑ j : Fin 50176, if s'.toInt = (j.val : ℤ) then T j else 0) = L (Cert.Spec.rowOf s) := by
  subst hss
  have hlt : s'.toInt.toNat < 50000 := by omega
  rw [Finset.sum_eq_single (⟨s'.toInt.toNat, by omega⟩ : Fin 50176)]
  · rw [if_pos (by show s'.toInt = ((s'.toInt.toNat : ℕ) : ℤ); omega)]
    have e : (⟨s'.toInt.toNat, by omega⟩ : Fin 50176)
        = Fin.castLE (by decide : 50000 ≤ 50176) (Cert.Spec.rowOf s') := by
      apply Fin.ext
      show s'.toInt.toNat = min s'.toInt.toNat 49999
      omega
    rw [e, hT]
  · intro j _ hj
    rw [if_neg]
    intro h
    apply hj
    apply Fin.ext
    show j.val = s'.toInt.toNat
    omega
  · intro h; exact absurd (Finset.mem_univ _) h

theorem scatter_sum (D D' : Fin 800000 → BitVec 32) (M M' : Fin 800000 → EReal)
    (hD : ∀ n, D n = D' n) (hM : ∀ n, M n = M' n) (d : Fin 50000) :
    (∑ e : Fin 800000, if (D e).toInt = ((Fin.castLE (by decide : 50000 ≤ 50176) d).val : ℤ) then M e else 0)
      = ∑ n : Fin 800000, if (D' n).toInt = (d.val : ℤ) then M' n else 0 :=
  Finset.sum_congr rfl fun n _ => by rw [hD n, hM n]; rfl

theorem row0 (c : Dev nD) (r : Fin 50000) (k : Fin 128) :
    (E9 m c main_v6 : S50176x128.Idx → EReal) (ix2 (Fin.castLE (by decide : 50000 ≤ 50176) r) k)
      = Cert.Spec.lin (hu m c) (w0 m c) (b0 m c) r k := by
  have eE : (E9 m c main_v6 : S50176x128.Idx → EReal) = (V9 m (outs m) c main_v6 : S50176x128.Idx → EReal) :=
    (congrFun (ent3 m c) _).symm
  have e0 : (V2 m (outs m) c main_v1 : S50000x128.Idx → EReal)
      = ((dat0 (E1 m) c).arrAt 3 cfg0.N : S50000x128.Idx → EReal) := (hF0 m c 3).symm
  rw [eE, tab0 m (outs m) c r k, e0, lin_final0 (E1 m) c r k]
  show _ = (∑ j : Fin 128, hu m c r j * w0 m c j k) + b0 m c k
  refine congrArg₂ (· + ·) (Finset.sum_congr rfl fun j _ => congrArg₂ (· * ·) ?_ ?_) ?_
  · exact hRead0 m c r j
  · exact wRead0 m c j k
  · exact bRead0 m c k 0

theorem msg0 (c : Dev nD) (hs : ∀ n, 0 ≤ (src0 m c n).toInt ∧ (src0 m c n).toInt < 50000)
    (e : Fin 800000) (k : Fin 128) :
    (E11 m c main_v8 : S800000x128.Idx → EReal) (ix2 e k)
      = Cert.Spec.lin (hu m c) (w0 m c) (b0 m c) (Cert.Spec.rowOf (src0 m c e)) k := by
  have eE : (E11 m c main_v8 : S800000x128.Idx → EReal)
      = ((dat3 (E9 m) c).arrAt 2 cfg3.N : S800000x128.Idx → EReal) :=
    (congrFun (ent4 m c) _).symm.trans
      ((V11_of m (outs m) c main_v8 (by decide)).trans (hF3 m c 2).symm)
  rw [eE, gat_final3 (E9 m) c e k]
  exact gather_row (fun j => (E9 m c main_v6 : S50176x128.Idx → EReal) (ix2 j k)) (fun r => Cert.Spec.lin (hu m c) (w0 m c) (b0 m c) r k)
    (fun r => row0 m c r k) (src0 m c e) _ (srcCol0 m (o3 m) c e 0) (hs e)

theorem row2 (c : Dev nD) (r : Fin 50000) (k : Fin 128) :
    (E17 m c main_v25 : S50176x128.Idx → EReal) (ix2 (Fin.castLE (by decide : 50000 ≤ 50176) r) k)
      = Cert.Spec.lin (hi m c) (w2 m c) (b2 m c) r k := by
  have eE : (E17 m c main_v25 : S50176x128.Idx → EReal) = (V17 m (outs m) c main_v25 : S50176x128.Idx → EReal) :=
    (congrFun (ent5 m c) _).symm
  have e0 : (V6 m (outs m) c main_v5 : S50000x128.Idx → EReal)
      = ((dat2 (E5 m) c).arrAt 3 cfg2.N : S50000x128.Idx → EReal) := (hF2 m c 3).symm
  rw [eE, tab2 m (outs m) c r k, e0, lin_final2 (E5 m) c r k]
  exact congrArg₂ (· + ·)
    (Finset.sum_congr rfl fun j _ => congrArg₂ (· * ·) (hRead2 m (o2 m) c r j) (wRead2 m (o2 m) c j k))
    (bRead2 m (o2 m) c k 0)

theorem msg2 (c : Dev nD) (hs : ∀ n, 0 ≤ (src2 m c n).toInt ∧ (src2 m c n).toInt < 50000)
    (e : Fin 800000) (k : Fin 128) :
    (E19 m c main_v27 : S800000x128.Idx → EReal) (ix2 e k)
      = Cert.Spec.lin (hi m c) (w2 m c) (b2 m c) (Cert.Spec.rowOf (src2 m c e)) k := by
  have eE : (E19 m c main_v27 : S800000x128.Idx → EReal)
      = ((dat5 (E17 m) c).arrAt 2 cfg5.N : S800000x128.Idx → EReal) :=
    (congrFun (ent6 m c) _).symm.trans
      ((V19_of m (outs m) c main_v27 (by decide)).trans (hF5 m c 2).symm)
  rw [eE, gat_final5 (E17 m) c e k]
  exact gather_row (fun j => (E17 m c main_v25 : S50176x128.Idx → EReal) (ix2 j k)) (fun r => Cert.Spec.lin (hi m c) (w2 m c) (b2 m c) r k)
    (fun r => row2 m c r k) (src2 m c e) _ (srcCol2 m (o5 m) c e 0) (hs e)

theorem row1 (c : Dev nD) (r : Fin 50000) (k : Fin 128) :
    (E25 m c main_v45 : S50176x128.Idx → EReal) (ix2 (Fin.castLE (by decide : 50000 ≤ 50176) r) k)
      = Cert.Spec.lin (hu m c) (w1 m c) (b1 m c) r k := by
  have eE : (E25 m c main_v45 : S50176x128.Idx → EReal) = (V25 m (outs m) c main_v45 : S50176x128.Idx → EReal) :=
    (congrFun (ent7 m c) _).symm
  have e0 : (V4 m (outs m) c main_v3 : S50000x128.Idx → EReal)
      = ((dat1 (E3 m) c).arrAt 3 cfg1.N : S50000x128.Idx → EReal) := (hF1 m c 3).symm
  rw [eE, tab1 m (outs m) c r k, e0, lin_final1 (E3 m) c r k]
  exact congrArg₂ (· + ·)
    (Finset.sum_congr rfl fun j _ => congrArg₂ (· * ·) (hRead1 m (o1 m) c r j) (wRead1 m (o1 m) c j k))
    (bRead1 m (o1 m) c k 0)

theorem msg1 (c : Dev nD) (hs : ∀ n, 0 ≤ (src1 m c n).toInt ∧ (src1 m c n).toInt < 50000)
    (e : Fin 800000) (k : Fin 128) :
    (E27 m c main_v47 : S800000x128.Idx → EReal) (ix2 e k)
      = Cert.Spec.lin (hu m c) (w1 m c) (b1 m c) (Cert.Spec.rowOf (src1 m c e)) k := by
  have eE : (E27 m c main_v47 : S800000x128.Idx → EReal)
      = ((dat7 (E25 m) c).arrAt 2 cfg7.N : S800000x128.Idx → EReal) :=
    (congrFun (ent8 m c) _).symm.trans
      ((V27_of m (outs m) c main_v47 (by decide)).trans (hF7 m c 2).symm)
  rw [eE, gat_final7 (E25 m) c e k]
  exact gather_row (fun j => (E25 m c main_v45 : S50176x128.Idx → EReal) (ix2 j k)) (fun r => Cert.Spec.lin (hu m c) (w1 m c) (b1 m c) r k)
    (fun r => row1 m c r k) (src1 m c e) _ (srcCol1 m (o7 m) c e 0) (hs e)

end HostA

open HostA

theorem scat0 (c : Dev nD) (hsrc : SrcInRange m c) (d : Fin 50000) (k : Fin 128) :
    (V12 m (outs m) c main_v10 : S50176x128.Idx → EReal) (ix2 (Fin.castLE (by decide : 50000 ≤ 50176) d) k)
      = ∑ n : Fin 800000, if (dst0 m c n).toInt = (d.val : ℤ)
          then Cert.Spec.lin (hu m c) (w0 m c) (b0 m c) (Cert.Spec.rowOf (src0 m c n)) k else 0 := by
  have eE : (V12 m (outs m) c main_v10 : S50176x128.Idx → EReal)
      = ((dat4 (E11 m) c).arrAt 2 cfg4.N : S50176x128.Idx → EReal) := (hF4 m c 2).symm
  rw [eE, sca_final4 (E11 m) c _ k]
  exact scatter_sum (fun e => (E11 m c main_v9 : S1x800000.Idx → BitVec 32) (ix2 0 e)) (dst0 m c)
    (fun e => (E11 m c main_v8 : S800000x128.Idx → EReal) (ix2 e k))
    (fun n => Cert.Spec.lin (hu m c) (w0 m c) (b0 m c) (Cert.Spec.rowOf (src0 m c n)) k)
    (fun n => dstRow0 m (o4 m) c n 0) (fun n => msg0 m c hsrc.1 n k) d

theorem scat2 (c : Dev nD) (hsrc : SrcInRange m c) (d : Fin 50000) (k : Fin 128) :
    (V20 m (outs m) c main_v29 : S50176x128.Idx → EReal) (ix2 (Fin.castLE (by decide : 50000 ≤ 50176) d) k)
      = ∑ n : Fin 800000, if (dst2 m c n).toInt = (d.val : ℤ)
          then Cert.Spec.lin (hi m c) (w2 m c) (b2 m c) (Cert.Spec.rowOf (src2 m c n)) k else 0 := by
  have eE : (V20 m (outs m) c main_v29 : S50176x128.Idx → EReal)
      = ((dat6 (E19 m) c).arrAt 2 cfg6.N : S50176x128.Idx → EReal) := (hF6 m c 2).symm
  rw [eE, sca_final6 (E19 m) c _ k]
  exact scatter_sum (fun e => (E19 m c main_v28 : S1x800000.Idx → BitVec 32) (ix2 0 e)) (dst2 m c)
    (fun e => (E19 m c main_v27 : S800000x128.Idx → EReal) (ix2 e k))
    (fun n => Cert.Spec.lin (hi m c) (w2 m c) (b2 m c) (Cert.Spec.rowOf (src2 m c n)) k)
    (fun n => dstRow2 m (o6 m) c n 0) (fun n => msg2 m c hsrc.2.2 n k) d

theorem scat1 (c : Dev nD) (hsrc : SrcInRange m c) (d : Fin 50000) (k : Fin 128) :
    (V28 m (outs m) c main_v49 : S50176x128.Idx → EReal) (ix2 (Fin.castLE (by decide : 50000 ≤ 50176) d) k)
      = ∑ n : Fin 800000, if (dst1 m c n).toInt = (d.val : ℤ)
          then Cert.Spec.lin (hu m c) (w1 m c) (b1 m c) (Cert.Spec.rowOf (src1 m c n)) k else 0 := by
  have eE : (V28 m (outs m) c main_v49 : S50176x128.Idx → EReal)
      = ((dat8 (E27 m) c).arrAt 2 cfg8.N : S50176x128.Idx → EReal) := (hF8 m c 2).symm
  rw [eE, sca_final8 (E27 m) c _ k]
  exact scatter_sum (fun e => (E27 m c main_v48 : S1x800000.Idx → BitVec 32) (ix2 0 e)) (dst1 m c)
    (fun e => (E27 m c main_v47 : S800000x128.Idx → EReal) (ix2 e k))
    (fun n => Cert.Spec.lin (hu m c) (w1 m c) (b1 m c) (Cert.Spec.rowOf (src1 m c n)) k)
    (fun n => dstRow1 m (o8 m) c n 0) (fun n => msg1 m c hsrc.2.1 n k) d

end Cert.KernelIdeal.Gen

end
-- ==== Proof.KI.HostB.lean ====
import proofs.«425335_j13013750907176_1_alg».proof.Proof.KI.HostA
import proofs.«425335_j13013750907176_1_alg».proof.Proof.LibScatterRows
import Idealize.ShloMosaic.Lib.Pipeline.Value
import Idealize.ShloMosaic.Lib.IdealHost

-- The closing stretch (slice, in-degree, guarded quotient, sum of relations 0 and 2, the two slabs) gives the common value.

set_option maxRecDepth 16384

noncomputable section

open scoped BigOperators

namespace Cert.KernelIdeal.Gen

open Idealize.ShloMosaic Idealize.ShloMosaic.TcCoe Idealize.ShloMosaic.ValueIdx
open Idealize.SL Idealize.SL.Sem
open Cert.KernelIdeal.Args

namespace HostB

theorem bcol_apply {α : Type} (y : S50000.Idx → α) (d : Fin 50000) :
    broadcastInDim S50000x1 ![0] bcast_S50000_S50000x1_0 y (ix2 d (0 : Fin 1)) = y (ix1 d) :=
  broadcastInDim_apply _ _ y _ (ix1 d) fun a => by
    match a with
    | ⟨0, _⟩ => rfl

theorem bfull_apply {α : Type} (z : S50000x1.Idx → α) (d : Fin 50000) (k : Fin 128) :
    broadcastInDim S50000x128 ![0, 1] bcast_S50000x1_S50000x128_0_1 z (ix2 d k) = z (ix2 d (0 : Fin 1)) :=
  broadcastInDim_apply _ _ z _ (ix2 d (0 : Fin 1)) fun a => by
    match a with
    | ⟨0, _⟩ => rfl
    | ⟨1, _⟩ => rfl

theorem bids_apply {α : Type} (y : S800000.Idx → α) (n : Fin 800000) :
    broadcastInDim S800000x1 ![0] bcast_S800000_S800000x1_0 y (ix2 n (0 : Fin 1)) = y (ix1 n) :=
  broadcastInDim_apply _ _ y _ (ix1 n) fun a => by
    match a with
    | ⟨0, _⟩ => rfl

def cntArr (dst : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

theorem scatterAdd_ideal (x : FVec Ideal S50000 .f32) (idx : IVec S800000x1 32) (upd : FVec Ideal S800000 .f32) :
    Host.scatterAdd (F := Ideal) scatter_S50000_S800000x1_S800000_n_0_0_1 x idx upd
      = Ideal.hostScatterAdd scatter_S50000_S800000x1_S800000_n_0_0_1 x idx upd := rfl

theorem cnt_core (dst : IVec S800000 32) (d : Fin 50000) :
    Ideal.hostScatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)) (ix1 d)
      = Cert.Spec.cnt (fun n => dst (ix1 n)) d := by
  refine (Cert.LibScatterRows.hostScatterAdd_vec scatter_S50000_S800000x1_S800000_n_0_0_1 rfl rfl rfl rfl _ _ _ d).trans ?_
  show _ = Cert.Spec.zero + ∑ n : Fin 800000, if (dst (ix1 n)).toInt = (d.val : ℤ) then Cert.Spec.one else 0
  refine congrArg₂ (· + ·) ?_ (Finset.sum_congr rfl fun n _ => ?_)
  · exact broadcastInDim_scalar_apply _ _ _
  · rw [bids_apply]
    exact if_congr Iff.rfl (broadcastInDim_scalar_apply _ _ _) rfl

theorem cntArr_apply (dst : IVec S800000 32) (d : Fin 50000) :
    cntArr dst (ix1 d) = Cert.Spec.cnt (fun n => dst (ix1 n)) d :=
  (congrFun (scatterAdd_ideal _ _ _) (ix1 d)).trans (cnt_core dst d)

def meanArr (x : FVec Ideal S50176x128 .f32) (dst : IVec S800000 32) : FVec Ideal S50000x128 .f32 :=
  select
    (broadcastInDim S50000x128 ![0, 1] bcast_S50000x1_S50000x128_0_1
      (cmpf .ogt (broadcastInDim S50000x1 ![0] bcast_S50000_S50000x1_0 (cntArr dst))
                 (broadcastInDim S50000x1 ![] bcast_S_S50000x1 (constant (F := Ideal) S_ .f32 0x00000000#32))))
    (Host.divf (extractStridedSlice S50000x128 ![0, 0] x slices_S50176x128_S50000x128_0_0)
      (broadcastInDim S50000x128 ![0, 1] bcast_S50000x1_S50000x128_0_1
        (broadcastInDim S50000x1 ![0] bcast_S50000_S50000x1_0
          (maximumf (cntArr dst) (broadcastInDim S50000 ![] bcast_S_S50000 (constant (F := Ideal) S_ .f32 0x3F800000#32))))))
    (broadcastInDim S50000x128 ![] bcast_S_S50000x128 (constant (F := Ideal) S_ .f32 0x00000000#32))

theorem slice_apply (x : FVec Ideal S50176x128 .f32) (d : Fin 50000) (k : Fin 128) :
    extractStridedSlice S50000x128 ![0, 0] x slices_S50176x128_S50000x128_0_0 (ix2 d k)
      = x (ix2 (Fin.castLE (by decide : 50000 ≤ 50176) d) k) :=
  extractStridedSlice_apply _ x _ (ix2 d k) (ix2 (Fin.castLE (by decide : 50000 ≤ 50176) d) k) fun a => by
    match a with
    | ⟨0, _⟩ => exact (Nat.zero_add _).symm
    | ⟨1, _⟩ => exact (Nat.zero_add _).symm

theorem cmp_apply (dst : IVec S800000 32) (d : Fin 50000) (k : Fin 128) :
    broadcastInDim S50000x128 ![0, 1] bcast_S50000x1_S50000x128_0_1
      (cmpf .ogt (broadcastInDim S50000x1 ![0] bcast_S50000_S50000x1_0 (cntArr dst))
                 (broadcastInDim S50000x1 ![] bcast_S_S50000x1 (constant (F := Ideal) S_ .f32 0x00000000#32))) (ix2 d k)
      = Ideal.cmp .ogt (Cert.Spec.cnt (fun n => dst (ix1 n)) d) Cert.Spec.zero :=
  (bfull_apply _ d k).trans ((cmpf_apply _ _ _ _).trans ((Ideal.cmpf_def _ _ _).trans
    (congrArg₂ (Ideal.cmp .ogt) ((bcol_apply _ d).trans (cntArr_apply dst d)) (broadcastInDim_scalar_apply _ _ _))))

theorem max_apply (dst : IVec S800000 32) (d : Fin 50000) (k : Fin 128) :
    broadcastInDim S50000x128 ![0, 1] bcast_S50000x1_S50000x128_0_1
      (broadcastInDim S50000x1 ![0] bcast_S50000_S50000x1_0
        (maximumf (cntArr dst) (broadcastInDim S50000 ![] bcast_S_S50000 (constant (F := Ideal) S_ .f32 0x3F800000#32)))) (ix2 d k)
      = max (Cert.Spec.cnt (fun n => dst (ix1 n)) d) Cert.Spec.one :=
  (bfull_apply _ d k).trans ((bcol_apply _ d).trans ((maximumf_apply _ _ _).trans
    (congrArg₂ max (cntArr_apply dst d) (broadcastInDim_scalar_apply _ _ _))))

theorem meanArr_apply (x : FVec Ideal S50176x128 .f32) (dst : IVec S800000 32) (d : Fin 50000) (k : Fin 128) :
    meanArr x dst (ix2 d k)
      = Cert.Spec.meanAt (Cert.Spec.cnt (fun n => dst (ix1 n)) d)
          (x (ix2 (Fin.castLE (by decide : 50000 ≤ 50176) d) k)) := by
  unfold meanArr
  rw [select_apply, hostDivf_apply, cmp_apply, slice_apply, max_apply]
  exact congrArg (Scalar.select _ _) (broadcastInDim_scalar_apply _ _ _)

theorem segsum_eq (dst : Fin 800000 → BitVec 32) (msg : Fin 800000 → Fin 128 → EReal) (d : Fin 50000) (k : Fin 128) :
    Cert.Spec.segsum dst msg d k = ∑ n : Fin 800000, if (dst n).toInt = (d.val : ℤ) then msg n k else 0 := by
  show Cert.Spec.zero + _ = _
  rw [show Cert.Spec.zero = (0 : EReal) from Ideal.ofBits_zero_f32, zero_add]

section Stretch
variable (W : Valuation τ sig (Elt Ideal))

theorem where5 :
    (StableHlo.after hostOps5_1 W (Proc.devRef .tc main_v24) : S50000x128.Idx → EReal)
      = select (broadcastInDim S50000x128 ![0, 1] bcast_S50000x1_S50000x128_0_1
                  (W (Proc.devRef .tc main_v18) : S50000x1.Idx → BitVec 1))
          (W (Proc.devRef .tc main_v23) : S50000x128.Idx → EReal)
          (broadcastInDim S50000x128 ![] bcast_S_S50000x128 (W (Proc.devRef .tc main_cst_3) : S_.Idx → EReal)) := by
  after_results
  all_goals rfl

theorem zero5 :
    (StableHlo.after hostOps5 W (Proc.devRef .tc main_cst_3) : S_.Idx → EReal)
      = constant (F := Ideal) S_ .f32 0x00000000#32 := by
  after_results
  all_goals rfl

set_option maxHeartbeats 400000 in
theorem cmp5 :
    (StableHlo.after hostOps5 W (Proc.devRef .tc main_v18) : S50000x1.Idx → BitVec 1)
      = cmpf (F := Ideal) .ogt (broadcastInDim S50000x1 ![0] bcast_S50000_S50000x1_0 (cntArr (W (Proc.devRef .tc main_arg3))))
          (broadcastInDim S50000x1 ![] bcast_S_S50000x1 (constant (F := Ideal) S_ .f32 0x00000000#32)) := by
  after_results
  all_goals rfl

set_option maxHeartbeats 400000 in
theorem quot5 :
    (StableHlo.after hostOps5 W (Proc.devRef .tc main_v23) : S50000x128.Idx → EReal)
      = Host.divf (F := Ideal)
          (extractStridedSlice S50000x128 ![0, 0] (W (Proc.devRef .tc main_v10) : S50176x128.Idx → EReal) slices_S50176x128_S50000x128_0_0)
          (broadcastInDim S50000x128 ![0, 1] bcast_S50000x1_S50000x128_0_1
            (broadcastInDim S50000x1 ![0] bcast_S50000_S50000x1_0
              (maximumf (cntArr (W (Proc.devRef .tc main_arg3)))
                (broadcastInDim S50000 ![] bcast_S_S50000 (constant (F := Ideal) S_ .f32 0x3F800000#32))))) := by
  after_results
  all_goals rfl

theorem stretch5 :
    (StableHlo.after hostOps5_1 (StableHlo.after hostOps5 W) (Proc.devRef .tc main_v24) : S50000x128.Idx → EReal)
      = meanArr (W (Proc.devRef .tc main_v10)) (W (Proc.devRef .tc main_arg3)) := by
  rw [where5, cmp5, quot5, zero5]
  rfl

theorem where7 :
    (StableHlo.after hostOps7_1 W (Proc.devRef .tc main_v43) : S50000x128.Idx → EReal)
      = select (broadcastInDim S50000x128 ![0, 1] bcast_S50000x1_S50000x128_0_1
                  (W (Proc.devRef .tc main_v37) : S50000x1.Idx → BitVec 1))
          (W (Proc.devRef .tc main_v42) : S50000x128.Idx → EReal)
          (broadcastInDim S50000x128 ![] bcast_S_S50000x128 (W (Proc.devRef .tc main_cst_9) : S_.Idx → EReal)) := by
  after_results
  all_goals rfl

theorem zero7 :
    (StableHlo.after hostOps7 W (Proc.devRef .tc main_cst_9) : S_.Idx → EReal)
      = constant (F := Ideal) S_ .f32 0x00000000#32 := by
  after_results
  all_goals rfl

set_option maxHeartbeats 400000 in
theorem cmp7 :
    (StableHlo.after hostOps7 W (Proc.devRef .tc main_v37) : S50000x1.Idx → BitVec 1)
      = cmpf (F := Ideal) .ogt (broadcastInDim S50000x1 ![0] bcast_S50000_S50000x1_0 (cntArr (W (Proc.devRef .tc main_arg7))))
          (broadcastInDim S50000x1 ![] bcast_S_S50000x1 (constant (F := Ideal) S_ .f32 0x00000000#32)) := by
  after_results
  all_goals rfl

set_option maxHeartbeats 400000 in
theorem quot7 :
    (StableHlo.after hostOps7 W (Proc.devRef .tc main_v42) : S50000x128.Idx → EReal)
      = Host.divf (F := Ideal)
          (extractStridedSlice S50000x128 ![0, 0] (W (Proc.devRef .tc main_v29) : S50176x128.Idx → EReal) slices_S50176x128_S50000x128_0_0)
          (broadcastInDim S50000x128 ![0, 1] bcast_S50000x1_S50000x128_0_1
            (broadcastInDim S50000x1 ![0] bcast_S50000_S50000x1_0
              (maximumf (cntArr (W (Proc.devRef .tc main_arg7)))
                (broadcastInDim S50000 ![] bcast_S_S50000 (constant (F := Ideal) S_ .f32 0x3F800000#32))))) := by
  after_results
  all_goals rfl

theorem stretch7 :
    (StableHlo.after hostOps7_1 (StableHlo.after hostOps7 W) (Proc.devRef .tc main_v43) : S50000x128.Idx → EReal)
      = meanArr (W (Proc.devRef .tc main_v29)) (W (Proc.devRef .tc main_arg7)) := by
  rw [where7, cmp7, quot7, zero7]
  rfl

theorem where9 :
    (StableHlo.after hostOps9_1 W (Proc.devRef .tc main_v63) : S50000x128.Idx → EReal)
      = select (broadcastInDim S50000x128 ![0, 1] bcast_S50000x1_S50000x128_0_1
                  (W (Proc.devRef .tc main_v57) : S50000x1.Idx → BitVec 1))
          (W (Proc.devRef .tc main_v62) : S50000x128.Idx → EReal)
          (broadcastInDim S50000x128 ![] bcast_S_S50000x128 (W (Proc.devRef .tc main_cst_15) : S_.Idx → EReal)) := by
  after_results
  all_goals rfl

theorem zero9 :
    (StableHlo.after hostOps9 W (Proc.devRef .tc main_cst_15) : S_.Idx → EReal)
      = constant (F := Ideal) S_ .f32 0x00000000#32 := by
  after_results
  all_goals rfl

set_option maxHeartbeats 400000 in
theorem cmp9 :
    (StableHlo.after hostOps9 W (Proc.devRef .tc main_v57) : S50000x1.Idx → BitVec 1)
      = cmpf (F := Ideal) .ogt (broadcastInDim S50000x1 ![0] bcast_S50000_S50000x1_0 (cntArr (W (Proc.devRef .tc main_arg5))))
          (broadcastInDim S50000x1 ![] bcast_S_S50000x1 (constant (F := Ideal) S_ .f32 0x00000000#32)) := by
  after_results
  all_goals rfl

set_option maxHeartbeats 400000 in
theorem quot9 :
    (StableHlo.after hostOps9 W (Proc.devRef .tc main_v62) : S50000x128.Idx → EReal)
      = Host.divf (F := Ideal)
          (extractStridedSlice S50000x128 ![0, 0] (W (Proc.devRef .tc main_v49) : S50176x128.Idx → EReal) slices_S50176x128_S50000x128_0_0)
          (broadcastInDim S50000x128 ![0, 1] bcast_S50000x1_S50000x128_0_1
            (broadcastInDim S50000x1 ![0] bcast_S50000_S50000x1_0
              (maximumf (cntArr (W (Proc.devRef .tc main_arg5)))
                (broadcastInDim S50000 ![] bcast_S_S50000 (constant (F := Ideal) S_ .f32 0x3F800000#32))))) := by
  after_results
  all_goals rfl

theorem stretch9 :
    (StableHlo.after hostOps9_1 (StableHlo.after hostOps9 W) (Proc.devRef .tc main_v63) : S50000x128.Idx → EReal)
      = meanArr (W (Proc.devRef .tc main_v49)) (W (Proc.devRef .tc main_arg5)) := by
  rw [where9, cmp9, quot9, zero9]
  rfl

theorem sum7_apply (d : Fin 50000) (k : Fin 128) (u v : EReal)
    (hu' : (W (Proc.devRef .tc main_v24) : S50000x128.Idx → EReal) (ix2 d k) = u)
    (hv' : (W (Proc.devRef .tc main_v43) : S50000x128.Idx → EReal) (ix2 d k) = v) :
    (StableHlo.after hostOps7_2 W (Proc.devRef .tc main_v44) : S50000x128.Idx → EReal) (ix2 d k) = u + v := by
  after_results
  exact (addf_apply _ _ _).trans (congrArg₂ (· + ·) hu' hv')

theorem out9_apply0 (a : Fin 2) (h0 : a.val = 0) (d : Fin 50000) (k : Fin 128) :
    (StableHlo.after hostOps9_2 W (Proc.devRef .tc main_v66) : S2x50000x128.Idx → EReal) (ix3 a d k)
      = (W (Proc.devRef .tc main_v44) : S50000x128.Idx → EReal) (ix2 d k) := by
  after_results
  refine (concatenate_apply_piece _ _ _ (ix3 a d k) 0 (by exact Nat.zero_lt_two) S1x50000x128 _ rfl rfl 0 rfl
    (ix3 (0 : Fin 1) d k) ?_ ?_).trans ?_
  · intro b hb
    match b with
    | ⟨0, _⟩ => exact absurd (Fin.ext rfl) hb
    | ⟨1, _⟩ => rfl
    | ⟨2, _⟩ => rfl
  · exact (Nat.zero_add _).trans h0.symm
  · exact broadcastInDim_apply _ _ _ _ (ix2 d k) fun a' => by
      match a' with
      | ⟨0, _⟩ => rfl
      | ⟨1, _⟩ => rfl

theorem out9_apply1 (a : Fin 2) (h1 : a.val = 1) (d : Fin 50000) (k : Fin 128) :
    (StableHlo.after hostOps9_2 W (Proc.devRef .tc main_v66) : S2x50000x128.Idx → EReal) (ix3 a d k)
      = (W (Proc.devRef .tc main_v63) : S50000x128.Idx → EReal) (ix2 d k) := by
  after_results
  refine (concatenate_apply_piece _ _ _ (ix3 a d k) 1 (by exact Nat.one_lt_two) S1x50000x128 _ rfl rfl 1 rfl
    (ix3 (0 : Fin 1) d k) ?_ ?_).trans ?_
  · intro b hb
    match b with
    | ⟨0, _⟩ => exact absurd (Fin.ext rfl) hb
    | ⟨1, _⟩ => rfl
    | ⟨2, _⟩ => rfl
  · exact (Nat.add_zero _).trans h1.symm
  · exact broadcastInDim_apply _ _ _ _ (ix2 d k) fun a' => by
      match a' with
      | ⟨0, _⟩ => rfl
      | ⟨1, _⟩ => rfl

end Stretch

variable (m : (ℓ : Loc nD τ sig) → Buf (Elt Ideal) ℓ)

theorem V12_arg3 (c : Dev nD) : V12 m (outs m) c main_arg3 = m ((c : Thread nD τ).loc main_arg3) :=
  (V12_of m (outs m) c main_arg3 (by decide)).trans <|
    (V11_of m (outs m) c main_arg3 (by decide)).trans <|
    (V10_of m (outs m) c main_arg3 (by decide)).trans <|
    (V9_of m (outs m) c main_arg3 (by decide)).trans <|
    (V8_of m (outs m) c main_arg3 (by decide)).trans <|
    (V7_of m (outs m) c main_arg3 (by decide)).trans <|
    (V6_of m (outs m) c main_arg3 (by decide)).trans <|
    (V5_of m (outs m) c main_arg3 (by decide)).trans <|
    (V4_of m (outs m) c main_arg3 (by decide)).trans <|
    (V3_of m (outs m) c main_arg3 (by decide)).trans <|
    (V2_of m (outs m) c main_arg3 (by decide)).trans <|
    (V1_of m c main_arg3 (by decide)).trans rfl

theorem V20_arg7 (c : Dev nD) : V20 m (outs m) c main_arg7 = m ((c : Thread nD τ).loc main_arg7) :=
  ((V31_of m (outs m) c main_arg7 (by decide)).trans <|
    (V30_of m (outs m) c main_arg7 (by decide)).trans <|
    (V29_of m (outs m) c main_arg7 (by decide)).trans <|
    (V28_of m (outs m) c main_arg7 (by decide)).trans <|
    (V27_of m (outs m) c main_arg7 (by decide)).trans <|
    (V26_of m (outs m) c main_arg7 (by decide)).trans <|
    (V25_of m (outs m) c main_arg7 (by decide)).trans <|
    (V24_of m (outs m) c main_arg7 (by decide)).trans <|
    (V23_of m (outs m) c main_arg7 (by decide)).trans <|
    (V22_of m (outs m) c main_arg7 (by decide)).trans <|
    (V21_of m (outs m) c main_arg7 (by decide))).symm.trans (V31_main_arg7 m (outs m) c)

theorem V28_arg5 (c : Dev nD) : V28 m (outs m) c main_arg5 = m ((c : Thread nD τ).loc main_arg5) :=
  ((V31_of m (outs m) c main_arg5 (by decide)).trans <|
    (V30_of m (outs m) c main_arg5 (by decide)).trans <|
    (V29_of m (outs m) c main_arg5 (by decide))).symm.trans (V31_main_arg5 m (outs m) c)

theorem V22_v24 (c : Dev nD) : V22 m (outs m) c main_v24 = V14 m (outs m) c main_v24 :=
  (V22_of m (outs m) c main_v24 (by decide)).trans <|
    (V21_of m (outs m) c main_v24 (by decide)).trans <|
    (V20_of m (outs m) c main_v24 (by decide)).trans <|
    (V19_of m (outs m) c main_v24 (by decide)).trans <|
    (V18_of m (outs m) c main_v24 (by decide)).trans <|
    (V17_of m (outs m) c main_v24 (by decide)).trans <|
    (V16_of m (outs m) c main_v24 (by decide)).trans <|
    (V15_of m (outs m) c main_v24 (by decide))

theorem V30_v44 (c : Dev nD) : V30 m (outs m) c main_v44 = V23 m (outs m) c main_v44 :=
  (V30_of m (outs m) c main_v44 (by decide)).trans <|
    (V29_of m (outs m) c main_v44 (by decide)).trans <|
    (V28_of m (outs m) c main_v44 (by decide)).trans <|
    (V27_of m (outs m) c main_v44 (by decide)).trans <|
    (V26_of m (outs m) c main_v44 (by decide)).trans <|
    (V25_of m (outs m) c main_v44 (by decide)).trans <|
    (V24_of m (outs m) c main_v44 (by decide))

theorem agg0 (c : Dev nD) (hsrc : SrcInRange m c) (d : Fin 50000) (k : Fin 128) :
    (V14 m (outs m) c main_v24 : S50000x128.Idx → EReal) (ix2 d k)
      = Cert.Spec.agg (hu m c) (w0 m c) (b0 m c) (src0 m c) (dst0 m c) d k := by
  refine (congrFun (stretch5 (V12 m (outs m) c)) (ix2 d k)).trans ?_
  refine (meanArr_apply _ _ d k).trans ?_
  exact congrArg₂ Cert.Spec.meanAt
    (congrArg (fun f : Fin 800000 → BitVec 32 => Cert.Spec.cnt f d)
      (funext fun n => congrFun (V12_arg3 m c) (ix1 n)))
    ((scat0 m c hsrc d k).trans (segsum_eq _ _ d k).symm)

theorem agg2 (c : Dev nD) (hsrc : SrcInRange m c) (d : Fin 50000) (k : Fin 128) :
    (V22 m (outs m) c main_v43 : S50000x128.Idx → EReal) (ix2 d k)
      = Cert.Spec.agg (hi m c) (w2 m c) (b2 m c) (src2 m c) (dst2 m c) d k := by
  refine (congrFun (stretch7 (V20 m (outs m) c)) (ix2 d k)).trans ?_
  refine (meanArr_apply _ _ d k).trans ?_
  exact congrArg₂ Cert.Spec.meanAt
    (congrArg (fun f : Fin 800000 → BitVec 32 => Cert.Spec.cnt f d)
      (funext fun n => congrFun (V20_arg7 m c) (ix1 n)))
    ((scat2 m c hsrc d k).trans (segsum_eq _ _ d k).symm)

theorem agg1 (c : Dev nD) (hsrc : SrcInRange m c) (d : Fin 50000) (k : Fin 128) :
    (V30 m (outs m) c main_v63 : S50000x128.Idx → EReal) (ix2 d k)
      = Cert.Spec.agg (hu m c) (w1 m c) (b1 m c) (src1 m c) (dst1 m c) d k := by
  refine (congrFun (stretch9 (V28 m (outs m) c)) (ix2 d k)).trans ?_
  refine (meanArr_apply _ _ d k).trans ?_
  exact congrArg₂ Cert.Spec.meanAt
    (congrArg (fun f : Fin 800000 → BitVec 32 => Cert.Spec.cnt f d)
      (funext fun n => congrFun (V28_arg5 m c) (ix1 n)))
    ((scat1 m c hsrc d k).trans (segsum_eq _ _ d k).symm)

end HostB

variable (m : (ℓ : Loc nD τ sig) → Buf (Elt Ideal) ℓ)

theorem kernel_value (c : Dev nD) (hsrc : SrcInRange m c) (a : Fin 2) (d : Fin 50000) (k : Fin 128) :
    (V31 m (outs m) c main_v66 : S2x50000x128.Idx → EReal) (ix3 a d k) = spec m c a d k := by
  unfold Cert.KernelIdeal.Args.spec Cert.Spec.result
  by_cases h0 : a.val = 0
  · rw [if_pos h0]
    refine (HostB.out9_apply0 (V30 m (outs m) c) a h0 d k).trans ?_
    refine (congrFun (HostB.V30_v44 m c) (ix2 d k)).trans ?_
    refine HostB.sum7_apply (V22 m (outs m) c) d k _ _ ?_ ?_
    · exact (congrFun (HostB.V22_v24 m c) (ix2 d k)).trans (HostB.agg0 m c hsrc d k)
    · exact HostB.agg2 m c hsrc d k
  · rw [if_neg h0]
    have h1 : a.val = 1 := by have := a.isLt; omega
    exact (HostB.out9_apply1 (V30 m (outs m) c) a h1 d k).trans (HostB.agg1 m c hsrc d k)

end Cert.KernelIdeal.Gen

end
-- ==== Proof.KI.PreDecode.lean ====
import proofs.«425335_j13013750907176_1_alg».proof.Defs
import proofs.«425335_j13013750907176_1_alg».proof.Proof.KI.Args
import proofs.«425335_j13013750907176_1_alg».proof.Proof.Gen.Pre_finite_inputs
import Idealize.ShloMosaic.Lib.ReduceAll
import Idealize.ShloMosaic.Lib.ValueIdx

-- From "the stated predicate is all ones" to 0 ≤ src[n] < 50000 for the three source-id arrays.

noncomputable section

namespace Cert.KernelIdeal.PreDecode

open Idealize.ShloMosaic Idealize.ShloMosaic.TcCoe Idealize.SL.Sem Idealize.ShloMosaic.ValueIdx
open Cert.Pre_finite_inputs

instance subsingleton_scalar_idx : Subsingleton S_.Idx := ⟨fun a b => funext fun d => d.elim0⟩

variable [hPre : Cert.Pre_finite_inputs.Facts]

theorem and_at {x y : IVec S_ 1} {j : S_.Idx} (e : andi x y j = 1#1) : x j = 1#1 ∧ y j = 1#1 :=
  IntOp.andi_eq_one.1 e

theorem all_nonneg (src : IVec S800000 32) (init : IVec S_ 1) (j : S_.Idx)
    (e : Host.reduce IntOp.andi (cmpi .sge src (broadcastInDim S800000 ![] Facts.bcast_S_S800000 (constantI S_ 32 0#32)))
      init Facts.reducesTo_S800000_S_d0 Facts.h_S_ j = 1#1) (n : Fin 800000) : 0 ≤ (src (ix1 n)).toInt := by
  have h := Host.reduce_andi_all _ init _ _ j e (ix1 n)

  have h' : IntOp.cmpi .sge (src (ix1 n)) 0#32 = 1#1 := h
  have h2 := IntOp.cmpi_sge.1 h'
  rwa [show (0#32 : BitVec 32).toInt = 0 from by decide] at h2

theorem all_lt (src : IVec S800000 32) (init : IVec S_ 1) (j : S_.Idx)
    (e : Host.reduce IntOp.andi (cmpi .slt src (broadcastInDim S800000 ![] Facts.bcast_S_S800000 (constantI S_ 32 50000#32)))
      init Facts.reducesTo_S800000_S_d0 Facts.h_S_ j = 1#1) (n : Fin 800000) : (src (ix1 n)).toInt < 50000 := by
  have h := Host.reduce_andi_all _ init _ _ j e (ix1 n)
  have h' : IntOp.cmpi .slt (src (ix1 n)) 50000#32 = 1#1 := h
  have h2 := IntOp.cmpi_slt.1 h'
  rwa [show (50000#32 : BitVec 32).toInt = 50000 from by decide] at h2

theorem part3_decode {F : FTy → Type} [FloatOps F] (a4 a6 : IVec S800000 32) (v46 v49 : IVec S_ 1) (j : S_.Idx)
    (e : fn_part3 (F := F) a4 a6 v46 v49 j = 1#1) :
    v46 j = 1#1 ∧ v49 j = 1#1 ∧ (∀ n, (a4 (ix1 n)).toInt < 50000)
      ∧ (∀ n, 0 ≤ (a6 (ix1 n)).toInt) ∧ (∀ n, (a6 (ix1 n)).toInt < 50000) := by
  dsimp only [fn_part3] at e
  obtain ⟨e, r3⟩ := and_at e
  obtain ⟨e, r2⟩ := and_at e
  obtain ⟨e, r1⟩ := and_at e
  obtain ⟨e46, e49⟩ := and_at e
  exact ⟨e46, e49, all_lt a4 _ j r1, all_nonneg a6 _ j r2, all_lt a6 _ j r3⟩

theorem part2_decode {F : FTy → Type} [FloatOps F] (a2 a4 a6 : IVec S800000 32) (a13 : FVec F S128 .f32) (v33 : IVec S_ 1)
    (j : S_.Idx) (e : fn_part2 (F := F) a2 a4 a6 a13 v33 j = 1#1) :
    ((∀ n, 0 ≤ (a2 (ix1 n)).toInt) ∧ (∀ n, (a2 (ix1 n)).toInt < 50000))
      ∧ ((∀ n, 0 ≤ (a4 (ix1 n)).toInt) ∧ (∀ n, (a4 (ix1 n)).toInt < 50000))
      ∧ ((∀ n, 0 ≤ (a6 (ix1 n)).toInt) ∧ (∀ n, (a6 (ix1 n)).toInt < 50000)) := by
  dsimp only [fn_part2] at e
  obtain ⟨e46, e49, h4lt, h6ge, h6lt⟩ := part3_decode (F := F) a4 a6 _ _ j e
  obtain ⟨e42, r45⟩ := and_at e46
  obtain ⟨-, r41⟩ := and_at e42
  exact ⟨⟨all_nonneg a2 _ j r41, all_lt a2 _ j r45⟩, ⟨all_nonneg a4 _ j e49, h4lt⟩, ⟨h6ge, h6lt⟩⟩

theorem part1_decode {F : FTy → Type} [FloatOps F] (a2 a4 a6 : IVec S800000 32) (a10 : FVec F S128x128 .f32)
    (a11 : FVec F S128 .f32) (a12 : FVec F S128x128 .f32) (a13 : FVec F S128 .f32) (v13 : IVec S_ 1) (v16 : IVec S128 1)
    (j : S_.Idx) (e : fn_part1 (F := F) a2 a4 a6 a10 a11 a12 a13 v13 v16 j = 1#1) :
    ((∀ n, 0 ≤ (a2 (ix1 n)).toInt) ∧ (∀ n, (a2 (ix1 n)).toInt < 50000))
      ∧ ((∀ n, 0 ≤ (a4 (ix1 n)).toInt) ∧ (∀ n, (a4 (ix1 n)).toInt < 50000))
      ∧ ((∀ n, 0 ≤ (a6 (ix1 n)).toInt) ∧ (∀ n, (a6 (ix1 n)).toInt < 50000)) := by
  dsimp only [fn_part1] at e
  exact part2_decode (F := F) a2 a4 a6 a13 _ j e

theorem fn_decode {F : FTy → Type} [FloatOps F] (a0 a1 : FVec F S50000x128 .f32) (a2 a3 a4 a5 a6 a7 : IVec S800000 32)
    (a8 : FVec F S128x128 .f32) (a9 : FVec F S128 .f32) (a10 : FVec F S128x128 .f32) (a11 : FVec F S128 .f32)
    (a12 : FVec F S128x128 .f32) (a13 : FVec F S128 .f32) (j : S_.Idx)
    (e : fn (F := F) a0 a1 a2 a3 a4 a5 a6 a7 a8 a9 a10 a11 a12 a13 j = 1#1) :
    ((∀ n, 0 ≤ (a2 (ix1 n)).toInt) ∧ (∀ n, (a2 (ix1 n)).toInt < 50000))
      ∧ ((∀ n, 0 ≤ (a4 (ix1 n)).toInt) ∧ (∀ n, (a4 (ix1 n)).toInt < 50000))
      ∧ ((∀ n, 0 ≤ (a6 (ix1 n)).toInt) ∧ (∀ n, (a6 (ix1 n)).toInt < 50000)) := by
  dsimp only [fn] at e
  exact part1_decode (F := F) a2 a4 a6 a10 a11 a12 a13 _ _ j e

theorem srcInRange_of_pre
    (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Args.SrcInRange m c := by
  have e := congrFun (h c) ix0
  obtain ⟨⟨h0a, h0b⟩, ⟨h1a, h1b⟩, ⟨h2a, h2b⟩⟩ := fn_decode (F := Ideal) _ _ _ _ _ _ _ _ _ _ _ _ _ _ ix0 e
  exact ⟨fun n => ⟨h0a n, h0b n⟩, fun n => ⟨h1a n, h1b n⟩, fun n => ⟨h2a n, h2b n⟩⟩

end Cert.KernelIdeal.PreDecode

end
-- ==== Proof.Ref.ReadP.lean ====
import proofs.«425335_j13013750907176_1_alg».proof.Proof.Ref.RunP
import Idealize.ShloMosaic.Lib.Pipeline.Value
import Idealize.ShloMosaic.Lib.ValueIdx
import Idealize.ShloMosaic.PureOps.Ideal.Laws

-- The reference's operations read at an entry, one operation at a time: the stages and the entry lemmas the value proof cites.

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S50000x128, .f32⟩ : BufTy).Contents (Elt F)) (x8 : (⟨S128x128, .f32⟩ : BufTy).Contents (Elt F)) : (⟨S50000x128, .f32⟩ : BufTy).Contents (Elt F) :=
  Host.dotGeneral dot_S50000x128_S128x128_S50000x128_1_0_0_1_n_n none (x0) (x8)
theorem lhs_main_v0_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v0_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v0_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v0_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v0 (i : S50000x128.Idx) (k : Fin 128) : S50000x128.Idx := fun a => match a with
  | ⟨0, _⟩ => ⟨(i 0).val, (i 0).isLt⟩
  | ⟨1, _⟩ => ⟨k.val, k.isLt⟩
abbrev ridx_main_v0 (i : S50000x128.Idx) (k : Fin 128) : S128x128.Idx := fun a => match a with
  | ⟨0, _⟩ => ⟨k.val, k.isLt⟩
  | ⟨1, _⟩ => ⟨(i 1).val, (i 1).isLt⟩

theorem val_main_v0_apply (x0 : (⟨S50000x128, .f32⟩ : BufTy).Contents (Elt Ideal)) (x8 : (⟨S128x128, .f32⟩ : BufTy).Contents (Elt Ideal)) (i : S50000x128.Idx) :
    val_main_v0 (F := Ideal) x0 x8 i = ∑ k : Fin 128, x0 (lidx_main_v0 i k) * x8 (ridx_main_v0 i k) := by
  unfold val_main_v0
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v0 i k := funext fun a => Fin.ext (by
    match a with
    | ⟨0, _⟩ => exact lhs_main_v0_0 _ _
    | ⟨1, _⟩ => exact (lhs_main_v0_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v0 i k := funext fun a => Fin.ext (by
    match a with
    | ⟨0, _⟩ => exact (rhs_main_v0_0 _ _).trans hk
    | ⟨1, _⟩ => exact rhs_main_v0_1 _ _)
  rw [el, er]

def val_main_v1 (x9 : (⟨S128, .f32⟩ : BufTy).Contents (Elt F)) : (⟨S1x128, .f32⟩ : BufTy).Contents (Elt F) :=
  broadcastInDim S1x128 ![1] bcast_S128_S1x128_1 (x9)
abbrev idx_main_v1 (i : S1x128.Idx) : S128.Idx := fun a => match a with
  | ⟨0, _⟩ => ⟨(i 1).val, (i 1).isLt⟩
theorem val_main_v1_apply (x9 : (⟨S128, .f32⟩ : BufTy).Contents (Elt F)) (i : S1x128.Idx) :
    val_main_v1 (F := F) x9 i = x9 (idx_main_v1 i) := by
  unfold val_main_v1
  exact broadcastInDim_apply _ bcast_S128_S1x128_1 x9 i (idx_main_v1 i) (fun a => match a with
    | ⟨0, _⟩ => by show (i 1).val = if (128 : Nat) = 1 then 0 else (i 1).val; rw [if_neg (by decide)])

def val_main_v2 (x9 : (⟨S128, .f32⟩ : BufTy).Contents (Elt F)) : (⟨S50000x128, .f32⟩ : BufTy).Contents (Elt F) :=
  broadcastInDim S50000x128 ![0, 1] bcast_S1x128_S50000x128_0_1 (val_main_v1 (F := F) x9)
abbrev idx_main_v2 (i : S50000x128.Idx) : S1x128.Idx := fun a => match a with
  | ⟨0, _⟩ => ⟨0, Nat.one_pos⟩
  | ⟨1, _⟩ => ⟨(i 1).val, (i 1).isLt⟩
theorem val_main_v2_apply (x9 : (⟨S128, .f32⟩ : BufTy).Contents (Elt F)) (i : S50000x128.Idx) :
    val_main_v2 (F := F) x9 i = val_main_v1 (F := F) x9 (idx_main_v2 i) := by
  unfold val_main_v2
  generalize val_main_v1 (F := F) x9 = y
  exact broadcastInDim_apply _ bcast_S1x128_S50000x128_0_1 y i (idx_main_v2 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v3 (x0 : (⟨S50000x128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  addf (val_main_v0 (F := F) x0 x8) (val_main_v2 (F := F) x9)
theorem val_main_v3_apply (x0 : (⟨S50000x128, .f32⟩ : BufTy).Contents (Elt F)) (x8 : (⟨S128x128, .f32⟩ : BufTy).Contents (Elt F)) (x9 : (⟨S128, .f32⟩ : BufTy).Contents (Elt F)) (i : S50000x128.Idx) :
    val_main_v3 (F := F) x0 x8 x9 i = FloatOps.addf (val_main_v0 (F := F) x0 x8 i) (val_main_v2 (F := F) x9 i) := rfl

def val_main_v4 (x0 : (⟨S50000x128, .f32⟩ : BufTy).Contents (Elt F)) (x10 : (⟨S128x128, .f32⟩ : BufTy).Contents (Elt F)) : (⟨S50000x128, .f32⟩ : BufTy).Contents (Elt F) :=
  Host.dotGeneral dot_S50000x128_S128x128_S50000x128_1_0_0_1_n_n none (x0) (x10)
def val_main_v5 (x11 : (⟨S128, .f32⟩ : BufTy).Contents (Elt F)) : (⟨S1x128, .f32⟩ : BufTy).Contents (Elt F) :=
  broadcastInDim S1x128 ![1] bcast_S128_S1x128_1 (x11)
def val_main_v6 (x11 : (⟨S128, .f32⟩ : BufTy).Contents (Elt F)) : (⟨S50000x128, .f32⟩ : BufTy).Contents (Elt F) :=
  broadcastInDim S50000x128 ![0, 1] bcast_S1x128_S50000x128_0_1 (val_main_v5 (F := F) x11)
def val_main_v7 (x0 : (⟨S50000x128, .f32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  addf (val_main_v4 (F := F) x0 x10) (val_main_v6 (F := F) x11)
def val_main_v8 (x1 : (⟨S50000x128, .f32⟩ : BufTy).Contents (Elt F)) (x12 : (⟨S128x128, .f32⟩ : BufTy).Contents (Elt F)) : (⟨S50000x128, .f32⟩ : BufTy).Contents (Elt F) :=
  Host.dotGeneral dot_S50000x128_S128x128_S50000x128_1_0_0_1_n_n none (x1) (x12)
def val_main_v9 (x13 : (⟨S128, .f32⟩ : BufTy).Contents (Elt F)) : (⟨S1x128, .f32⟩ : BufTy).Contents (Elt F) :=
  broadcastInDim S1x128 ![1] bcast_S128_S1x128_1 (x13)
def val_main_v10 (x13 : (⟨S128, .f32⟩ : BufTy).Contents (Elt F)) : (⟨S50000x128, .f32⟩ : BufTy).Contents (Elt F) :=
  broadcastInDim S50000x128 ![0, 1] bcast_S1x128_S50000x128_0_1 (val_main_v9 (F := F) x13)
def val_main_v11 (x1 : (⟨S50000x128, .f32⟩ : BufTy).Contents (Elt F)) (x12 : (⟨S128x128, .f32⟩ : BufTy).Contents (Elt F)) (x13 : (⟨S128, .f32⟩ : BufTy).Contents (Elt F)) : (⟨S50000x128, .f32⟩ : BufTy).Contents (Elt F) :=
  addf (val_main_v8 (F := F) x1 x12) (val_main_v10 (F := F) x13)
def val_main_c : (⟨S_, .i32⟩ : BufTy).Contents (Elt F) :=
  constantI S_ 32 0#32
theorem val_main_c_apply (i : S_.Idx) :
    val_main_c (F := F) i = 0#32 := rfl

def val_main_v12 : (⟨S800000, .i32⟩ : BufTy).Contents (Elt F) :=
  broadcastInDim S800000 ![] bcast_S_S800000 (val_main_c (F := F))
abbrev idx_main_v12 (i : S800000.Idx) : S_.Idx := fun a => a.elim0
theorem val_main_v12_apply (i : S800000.Idx) :
    val_main_v12 (F := F) i = val_main_c (F := F) (idx_main_v12 i) := by
  unfold val_main_v12
  generalize val_main_c (F := F) = y
  exact broadcastInDim_apply _ bcast_S_S800000 y i (idx_main_v12 i) (fun a => a.elim0)

def val_main_v13 (x2 : (⟨S800000, .i32⟩ : BufTy).Contents (Elt F)) : (⟨S800000, .i1⟩ : BufTy).Contents (Elt F) :=
  cmpi .slt (x2) (val_main_v12 (F := F))
theorem val_main_v13_apply (x2 : (⟨S800000, .i32⟩ : BufTy).Contents (Elt F)) (i : S800000.Idx) :
    val_main_v13 (F := F) x2 i = IntOp.cmpi .slt (x2 i) (val_main_v12 (F := F) i) := rfl

def val_main_c_0 : (⟨S_, .i32⟩ : BufTy).Contents (Elt F) :=
  constantI S_ 32 50000#32
theorem val_main_c_0_apply (i : S_.Idx) :
    val_main_c_0 (F := F) i = 50000#32 := rfl

def val_main_v14 : (⟨S800000, .i32⟩ : BufTy).Contents (Elt F) :=
  broadcastInDim S800000 ![] bcast_S_S800000 (val_main_c_0 (F := F))
abbrev idx_main_v14 (i : S800000.Idx) : S_.Idx := fun a => a.elim0
theorem val_main_v14_apply (i : S800000.Idx) :
    val_main_v14 (F := F) i = val_main_c_0 (F := F) (idx_main_v14 i) := by
  unfold val_main_v14
  generalize val_main_c_0 (F := F) = y
  exact broadcastInDim_apply _ bcast_S_S800000 y i (idx_main_v14 i) (fun a => a.elim0)

def val_main_v15 (x2 : (⟨S800000, .i32⟩ : BufTy).Contents (Elt F)) : (⟨S800000, .i32⟩ : BufTy).Contents (Elt F) :=
  addi (x2) (val_main_v14 (F := F))
theorem val_main_v15_apply (x2 : (⟨S800000, .i32⟩ : BufTy).Contents (Elt F)) (i : S800000.Idx) :
    val_main_v15 (F := F) x2 i = IntOp.addi (x2 i) (val_main_v14 (F := F) i) := rfl

def val_main_v16 (x2 : (⟨S800000, .i32⟩ : BufTy).Contents (Elt F)) : (⟨S800000, .i32⟩ : BufTy).Contents (Elt F) :=
  select (val_main_v13 (F := F) x2) (val_main_v15 (F := F) x2) (x2)
theorem val_main_v16_apply (x2 : (⟨S800000, .i32⟩ : BufTy).Contents (Elt F)) (i : S800000.Idx) :
    val_main_v16 (F := F) x2 i = Scalar.select (val_main_v13 (F := F) x2 i) (val_main_v15 (F := F) x2 i) (x2 i) := rfl

def val_main_v17 (x2 : (⟨S800000, .i32⟩ : BufTy).Contents (Elt F)) : (⟨S800000x1, .i32⟩ : BufTy).Contents (Elt F) :=
  broadcastInDim S800000x1 ![0] bcast_S800000_S800000x1_0 (val_main_v16 (F := F) x2)
abbrev idx_main_v17 (i : S800000x1.Idx) : S800000.Idx := fun a => match a with
  | ⟨0, _⟩ => ⟨(i 0).val, (i 0).isLt⟩
theorem val_main_v17_apply (x2 : (⟨S800000, .i32⟩ : BufTy).Contents (Elt F)) (i : S800000x1.Idx) :
    val_main_v17 (F := F) x2 i = val_main_v16 (F := F) x2 (idx_main_v17 i) := by
  unfold val_main_v17
  generalize val_main_v16 (F := F) x2 = y
  exact broadcastInDim_apply _ bcast_S800000_S800000x1_0 y i (idx_main_v17 i) (fun a => match a with
    | ⟨0, _⟩ => by show (i 0).val = if (800000 : Nat) = 1 then 0 else (i 0).val; rw [if_neg (by decide)])

def val_main_v18 (x0 : (⟨S50000x128, .f32⟩ : BufTy).Contents (Elt F)) (x2 : (⟨S800000, .i32⟩ : BufTy).Contents (Elt F)) (x8 : (⟨S128x128, .f32⟩ : BufTy).Contents (Elt F)) (x9 : (⟨S128, .f32⟩ : BufTy).Contents (Elt F)) : (⟨S800000x128, .f32⟩ : BufTy).Contents (Elt F) :=
  Host.gather gather_S50000x128_S800000x1_S800000x128_1_0_n_n_0_1_1128 (val_main_v3 (F := F) x0 x8 x9) (val_main_v17 (F := F) x2)

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v19 : (⟨S50000x128, .f32⟩ : BufTy).Contents (Elt F) :=
  broadcastInDim S50000x128 ![] bcast_S_S50000x128 (val_main_cst (F := F))
abbrev idx_main_v19 (i : S50000x128.Idx) : S_.Idx := fun a => a.elim0
theorem val_main_v19_apply (i : S50000x128.Idx) :
    val_main_v19 (F := F) i = val_main_cst (F := F) (idx_main_v19 i) := by
  unfold val_main_v19
  generalize val_main_cst (F := F) = y
  exact broadcastInDim_apply _ bcast_S_S50000x128 y i (idx_main_v19 i) (fun a => a.elim0)

def val_main_v20 (x3 : (⟨S800000, .i32⟩ : BufTy).Contents (Elt F)) : (⟨S800000x1, .i32⟩ : BufTy).Contents (Elt F) :=
  broadcastInDim S800000x1 ![0] bcast_S800000_S800000x1_0 (x3)
abbrev idx_main_v20 (i : S800000x1.Idx) : S800000.Idx := fun a => match a with
  | ⟨0, _⟩ => ⟨(i 0).val, (i 0).isLt⟩
theorem val_main_v20_apply (x3 : (⟨S800000, .i32⟩ : BufTy).Contents (Elt F)) (i : S800000x1.Idx) :
    val_main_v20 (F := F) x3 i = x3 (idx_main_v20 i) := by
  unfold val_main_v20
  exact broadcastInDim_apply _ bcast_S800000_S800000x1_0 x3 i (idx_main_v20 i) (fun a => match a with
    | ⟨0, _⟩ => by show (i 0).val = if (800000 : Nat) = 1 then 0 else (i 0).val; rw [if_neg (by decide)])

def val_main_v21 (x0 : (⟨S50000x128, .f32⟩ : BufTy).Contents (Elt F)) (x2 x3 : (⟨S800000, .i32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  Host.scatterAdd scatter_S50000x128_S800000x1_S800000x128_1_0_0_1 (val_main_v19 (F := F)) (val_main_v20 (F := F) x3) (val_main_v18 (F := F) x0 x2 x8 x9)

def val_main_cst_1 : (⟨S_, .f32⟩ : BufTy).Contents (Elt F) :=
  constant S_ .f32 0x3F800000#32
theorem val_main_cst_1_apply (i : S_.Idx) :
    val_main_cst_1 (F := F) i = FloatOps.ofBits .f32 0x3F800000#32 := rfl

def val_main_v22 : (⟨S800000, .f32⟩ : BufTy).Contents (Elt F) :=
  broadcastInDim S800000 ![] bcast_S_S800000 (val_main_cst_1 (F := F))
abbrev idx_main_v22 (i : S800000.Idx) : S_.Idx := fun a => a.elim0
theorem val_main_v22_apply (i : S800000.Idx) :
    val_main_v22 (F := F) i = val_main_cst_1 (F := F) (idx_main_v22 i) := by
  unfold val_main_v22
  generalize val_main_cst_1 (F := F) = y
  exact broadcastInDim_apply _ bcast_S_S800000 y i (idx_main_v22 i) (fun a => a.elim0)

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_v23 : (⟨S50000, .f32⟩ : BufTy).Contents (Elt F) :=
  broadcastInDim S50000 ![] bcast_S_S50000 (val_main_cst_2 (F := F))
abbrev idx_main_v23 (i : S50000.Idx) : S_.Idx := fun a => a.elim0
theorem val_main_v23_apply (i : S50000.Idx) :
    val_main_v23 (F := F) i = val_main_cst_2 (F := F) (idx_main_v23 i) := by
  unfold val_main_v23
  generalize val_main_cst_2 (F := F) = y
  exact broadcastInDim_apply _ bcast_S_S50000 y i (idx_main_v23 i) (fun a => a.elim0)

def val_main_v24 (x3 : (⟨S800000, .i32⟩ : BufTy).Contents (Elt F)) : (⟨S800000x1, .i32⟩ : BufTy).Contents (Elt F) :=
  broadcastInDim S800000x1 ![0] bcast_S800000_S800000x1_0 (x3)
abbrev idx_main_v24 (i : S800000x1.Idx) : S800000.Idx := fun a => match a with
  | ⟨0, _⟩ => ⟨(i 0).val, (i 0).isLt⟩
theorem val_main_v24_apply (x3 : (⟨S800000, .i32⟩ : BufTy).Contents (Elt F)) (i : S800000x1.Idx) :
    val_main_v24 (F := F) x3 i = x3 (idx_main_v24 i) := by
  unfold val_main_v24
  exact broadcastInDim_apply _ bcast_S800000_S800000x1_0 x3 i (idx_main_v24 i) (fun a => match a with
    | ⟨0, _⟩ => by show (i 0).val = if (800000 : Nat) = 1 then 0 else (i 0).val; rw [if_neg (by decide)])

def val_main_v25 (x3 : (⟨S800000, .i32⟩ : BufTy).Contents (Elt F)) : (⟨S50000, .f32⟩ : BufTy).Contents (Elt F) :=
  Host.scatterAdd scatter_S50000_S800000x1_S800000_n_0_0_1 (val_main_v23 (F := F)) (val_main_v24 (F := F) x3) (val_main_v22 (F := F))

def val_main_v26 (x3 : (⟨S800000, .i32⟩ : BufTy).Contents (Elt F)) : (⟨S50000x1, .f32⟩ : BufTy).Contents (Elt F) :=
  broadcastInDim S50000x1 ![0] bcast_S50000_S50000x1_0 (val_main_v25 (F := F) x3)
abbrev idx_main_v26 (i : S50000x1.Idx) : S50000.Idx := fun a => match a with
  | ⟨0, _⟩ => ⟨(i 0).val, (i 0).isLt⟩
theorem val_main_v26_apply (x3 : (⟨S800000, .i32⟩ : BufTy).Contents (Elt F)) (i : S50000x1.Idx) :
    val_main_v26 (F := F) x3 i = val_main_v25 (F := F) x3 (idx_main_v26 i) := by
  unfold val_main_v26
  generalize val_main_v25 (F := F) x3 = y
  exact broadcastInDim_apply _ bcast_S50000_S50000x1_0 y i (idx_main_v26 i) (fun a => match a with
    | ⟨0, _⟩ => by show (i 0).val = if (50000 : Nat) = 1 then 0 else (i 0).val; rw [if_neg (by decide)])

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v27 : (⟨S50000x1, .f32⟩ : BufTy).Contents (Elt F) :=
  broadcastInDim S50000x1 ![] bcast_S_S50000x1 (val_main_cst_3 (F := F))
abbrev idx_main_v27 (i : S50000x1.Idx) : S_.Idx := fun a => a.elim0
theorem val_main_v27_apply (i : S50000x1.Idx) :
    val_main_v27 (F := F) i = val_main_cst_3 (F := F) (idx_main_v27 i) := by
  unfold val_main_v27
  generalize val_main_cst_3 (F := F) = y
  exact broadcastInDim_apply _ bcast_S_S50000x1 y i (idx_main_v27 i) (fun a => a.elim0)

def val_main_v28 (x3 : (⟨S800000, .i32⟩ : BufTy).Contents (Elt F)) : (⟨S50000x1, .i1⟩ : BufTy).Contents (Elt F) :=
  cmpf .ogt (val_main_v26 (F := F) x3) (val_main_v27 (F := F))
theorem val_main_v28_apply (x3 : (⟨S800000, .i32⟩ : BufTy).Contents (Elt F)) (i : S50000x1.Idx) :
    val_main_v28 (F := F) x3 i = FloatOps.cmpf .ogt (val_main_v26 (F := F) x3 i) (val_main_v27 (F := F) i) := rfl

def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

def val_main_v29 : (⟨S50000, .f32⟩ : BufTy).Contents (Elt F) :=
  broadcastInDim S50000 ![] bcast_S_S50000 (val_main_cst_4 (F := F))
abbrev idx_main_v29 (i : S50000.Idx) : S_.Idx := fun a => a.elim0
theorem val_main_v29_apply (i : S50000.Idx) :
    val_main_v29 (F := F) i = val_main_cst_4 (F := F) (idx_main_v29 i) := by
  unfold val_main_v29
  generalize val_main_cst_4 (F := F) = y
  exact broadcastInDim_apply _ bcast_S_S50000 y i (idx_main_v29 i) (fun a => a.elim0)

def val_main_v30 (x3 : (⟨S800000, .i32⟩ : BufTy).Contents (Elt F)) : (⟨S50000, .f32⟩ : BufTy).Contents (Elt F) :=
  maximumf (val_main_v25 (F := F) x3) (val_main_v29 (F := F))
theorem val_main_v30_apply (x3 : (⟨S800000, .i32⟩ : BufTy).Contents (Elt F)) (i : S50000.Idx) :
    val_main_v30 (F := F) x3 i = FloatOps.maximumf (val_main_v25 (F := F) x3 i) (val_main_v29 (F := F) i) := rfl

def val_main_v31 (x3 : (⟨S800000, .i32⟩ : BufTy).Contents (Elt F)) : (⟨S50000x1, .f32⟩ : BufTy).Contents (Elt F) :=
  broadcastInDim S50000x1 ![0] bcast_S50000_S50000x1_0 (val_main_v30 (F := F) x3)
abbrev idx_main_v31 (i : S50000x1.Idx) : S50000.Idx := fun a => match a with
  | ⟨0, _⟩ => ⟨(i 0).val, (i 0).isLt⟩
theorem val_main_v31_apply (x3 : (⟨S800000, .i32⟩ : BufTy).Contents (Elt F)) (i : S50000x1.Idx) :
    val_main_v31 (F := F) x3 i = val_main_v30 (F := F) x3 (idx_main_v31 i) := by
  unfold val_main_v31
  generalize val_main_v30 (F := F) x3 = y
  exact broadcastInDim_apply _ bcast_S50000_S50000x1_0 y i (idx_main_v31 i) (fun a => match a with
    | ⟨0, _⟩ => by show (i 0).val = if (50000 : Nat) = 1 then 0 else (i 0).val; rw [if_neg (by decide)])

def val_main_v32 (x3 : (⟨S800000, .i32⟩ : BufTy).Contents (Elt F)) : (⟨S50000x128, .f32⟩ : BufTy).Contents (Elt F) :=
  broadcastInDim S50000x128 ![0, 1] bcast_S50000x1_S50000x128_0_1 (val_main_v31 (F := F) x3)
abbrev idx_main_v32 (i : S50000x128.Idx) : S50000x1.Idx := fun a => match a with
  | ⟨0, _⟩ => ⟨(i 0).val, (i 0).isLt⟩
  | ⟨1, _⟩ => ⟨0, Nat.one_pos⟩
theorem val_main_v32_apply (x3 : (⟨S800000, .i32⟩ : BufTy).Contents (Elt F)) (i : S50000x128.Idx) :
    val_main_v32 (F := F) x3 i = val_main_v31 (F := F) x3 (idx_main_v32 i) := by
  unfold val_main_v32
  generalize val_main_v31 (F := F) x3 = y
  exact broadcastInDim_apply _ bcast_S50000x1_S50000x128_0_1 y i (idx_main_v32 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v33 (x0 : (⟨S50000x128, .f32⟩ : BufTy).Contents (Elt F)) (x2 x3 : (⟨S800000, .i32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  Host.divf (val_main_v21 (F := F) x0 x2 x3 x8 x9) (val_main_v32 (F := F) x3)
theorem val_main_v33_apply (x0 : (⟨S50000x128, .f32⟩ : BufTy).Contents (Elt F)) (x2 x3 : (⟨S800000, .i32⟩ : BufTy).Contents (Elt F)) (x8 : (⟨S128x128, .f32⟩ : BufTy).Contents (Elt F)) (x9 : (⟨S128, .f32⟩ : BufTy).Contents (Elt F)) (i : S50000x128.Idx) :
    val_main_v33 (F := F) x0 x2 x3 x8 x9 i = FloatOps.hostDivf (val_main_v21 (F := F) x0 x2 x3 x8 x9 i) (val_main_v32 (F := F) x3 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_call0_v0 (x3 : (⟨S800000, .i32⟩ : BufTy).Contents (Elt F)) : (⟨S50000x128, .i1⟩ : BufTy).Contents (Elt F) :=
  broadcastInDim S50000x128 ![0, 1] bcast_S50000x1_S50000x128_0_1 (val_main_v28 (F := F) x3)
abbrev idx_main_call0_v0 (i : S50000x128.Idx) : S50000x1.Idx := fun a => match a with
  | ⟨0, _⟩ => ⟨(i 0).val, (i 0).isLt⟩
  | ⟨1, _⟩ => ⟨0, Nat.one_pos⟩
theorem val_main_call0_v0_apply (x3 : (⟨S800000, .i32⟩ : BufTy).Contents (Elt F)) (i : S50000x128.Idx) :
    val_main_call0_v0 (F := F) x3 i = val_main_v28 (F := F) x3 (idx_main_call0_v0 i) := by
  unfold val_main_call0_v0
  generalize val_main_v28 (F := F) x3 = y
  exact broadcastInDim_apply _ bcast_S50000x1_S50000x128_0_1 y i (idx_main_call0_v0 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_call0_v1 : (⟨S50000x128, .f32⟩ : BufTy).Contents (Elt F) :=
  broadcastInDim S50000x128 ![] bcast_S_S50000x128 (val_main_cst_5 (F := F))
abbrev idx_main_call0_v1 (i : S50000x128.Idx) : S_.Idx := fun a => a.elim0
theorem val_main_call0_v1_apply (i : S50000x128.Idx) :
    val_main_call0_v1 (F := F) i = val_main_cst_5 (F := F) (idx_main_call0_v1 i) := by
  unfold val_main_call0_v1
  generalize val_main_cst_5 (F := F) = y
  exact broadcastInDim_apply _ bcast_S_S50000x128 y i (idx_main_call0_v1 i) (fun a => a.elim0)

def val_main_v34 (x0 : (⟨S50000x128, .f32⟩ : BufTy).Contents (Elt F)) (x2 x3 : (⟨S800000, .i32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  select (val_main_call0_v0 (F := F) x3) (val_main_v33 (F := F) x0 x2 x3 x8 x9) (val_main_call0_v1 (F := F))
theorem val_main_v34_apply (x0 : (⟨S50000x128, .f32⟩ : BufTy).Contents (Elt F)) (x2 x3 : (⟨S800000, .i32⟩ : BufTy).Contents (Elt F)) (x8 : (⟨S128x128, .f32⟩ : BufTy).Contents (Elt F)) (x9 : (⟨S128, .f32⟩ : BufTy).Contents (Elt F)) (i : S50000x128.Idx) :
    val_main_v34 (F := F) x0 x2 x3 x8 x9 i = Scalar.select (val_main_call0_v0 (F := F) x3 i) (val_main_v33 (F := F) x0 x2 x3 x8 x9 i) (val_main_call0_v1 (F := F) i) := rfl

def val_main_c_6 : (⟨S_, .i32⟩ : BufTy).Contents (Elt F) :=
  constantI S_ 32 0#32
def val_main_v35 : (⟨S800000, .i32⟩ : BufTy).Contents (Elt F) :=
  broadcastInDim S800000 ![] bcast_S_S800000 (val_main_c_6 (F := F))
def val_main_v36 (x6 : (⟨S800000, .i32⟩ : BufTy).Contents (Elt F)) : (⟨S800000, .i1⟩ : BufTy).Contents (Elt F) :=
  cmpi .slt (x6) (val_main_v35 (F := F))
def val_main_c_7 : (⟨S_, .i32⟩ : BufTy).Contents (Elt F) :=
  constantI S_ 32 50000#32
def val_main_v37 : (⟨S800000, .i32⟩ : BufTy).Contents (Elt F) :=
  broadcastInDim S800000 ![] bcast_S_S800000 (val_main_c_7 (F := F))
def val_main_v38 (x6 : (⟨S800000, .i32⟩ : BufTy).Contents (Elt F)) : (⟨S800000, .i32⟩ : BufTy).Contents (Elt F) :=
  addi (x6) (val_main_v37 (F := F))
def val_main_v39 (x6 : (⟨S800000, .i32⟩ : BufTy).Contents (Elt F)) : (⟨S800000, .i32⟩ : BufTy).Contents (Elt F) :=
  select (val_main_v36 (F := F) x6) (val_main_v38 (F := F) x6) (x6)
def val_main_v40 (x6 : (⟨S800000, .i32⟩ : BufTy).Contents (Elt F)) : (⟨S800000x1, .i32⟩ : BufTy).Contents (Elt F) :=
  broadcastInDim S800000x1 ![0] bcast_S800000_S800000x1_0 (val_main_v39 (F := F) x6)
def val_main_v41 (x1 : (⟨S50000x128, .f32⟩ : BufTy).Contents (Elt F)) (x6 : (⟨S800000, .i32⟩ : BufTy).Contents (Elt F)) (x12 : (⟨S128x128, .f32⟩ : BufTy).Contents (Elt F)) (x13 : (⟨S128, .f32⟩ : BufTy).Contents (Elt F)) : (⟨S800000x128, .f32⟩ : BufTy).Contents (Elt F) :=
  Host.gather gather_S50000x128_S800000x1_S800000x128_1_0_n_n_0_1_1128 (val_main_v11 (F := F) x1 x12 x13) (val_main_v40 (F := F) x6)

def val_main_cst_8 : (⟨S_, .f32⟩ : BufTy).Contents (Elt F) :=
  constant S_ .f32 0x00000000#32
def val_main_v42 : (⟨S50000x128, .f32⟩ : BufTy).Contents (Elt F) :=
  broadcastInDim S50000x128 ![] bcast_S_S50000x128 (val_main_cst_8 (F := F))
def val_main_v43 (x7 : (⟨S800000, .i32⟩ : BufTy).Contents (Elt F)) : (⟨S800000x1, .i32⟩ : BufTy).Contents (Elt F) :=
  broadcastInDim S800000x1 ![0] bcast_S800000_S800000x1_0 (x7)
def val_main_v44 (x1 : (⟨S50000x128, .f32⟩ : BufTy).Contents (Elt F)) (x6 x7 : (⟨S800000, .i32⟩ : BufTy).Contents (Elt F)) (x12 : (⟨S128x128, .f32⟩ : BufTy).Contents (Elt F)) (x13 : (⟨S128, .f32⟩ : BufTy).Contents (Elt F)) : (⟨S50000x128, .f32⟩ : BufTy).Contents (Elt F) :=
  Host.scatterAdd scatter_S50000x128_S800000x1_S800000x128_1_0_0_1 (val_main_v42 (F := F)) (val_main_v43 (F := F) x7) (val_main_v41 (F := F) x1 x6 x12 x13)

def val_main_cst_9 : (⟨S_, .f32⟩ : BufTy).Contents (Elt F) :=
  constant S_ .f32 0x3F800000#32
def val_main_v45 : (⟨S800000, .f32⟩ : BufTy).Contents (Elt F) :=
  broadcastInDim S800000 ![] bcast_S_S800000 (val_main_cst_9 (F := F))
def val_main_cst_10 : (⟨S_, .f32⟩ : BufTy).Contents (Elt F) :=
  constant S_ .f32 0x00000000#32
def val_main_v46 : (⟨S50000, .f32⟩ : BufTy).Contents (Elt F) :=
  broadcastInDim S50000 ![] bcast_S_S50000 (val_main_cst_10 (F := F))
def val_main_v47 (x7 : (⟨S800000, .i32⟩ : BufTy).Contents (Elt F)) : (⟨S800000x1, .i32⟩ : BufTy).Contents (Elt F) :=
  broadcastInDim S800000x1 ![0] bcast_S800000_S800000x1_0 (x7)
def val_main_v48 (x7 : (⟨S800000, .i32⟩ : BufTy).Contents (Elt F)) : (⟨S50000, .f32⟩ : BufTy).Contents (Elt F) :=
  Host.scatterAdd scatter_S50000_S800000x1_S800000_n_0_0_1 (val_main_v46 (F := F)) (val_main_v47 (F := F) x7) (val_main_v45 (F := F))

def val_main_v49 (x7 : (⟨S800000, .i32⟩ : BufTy).Contents (Elt F)) : (⟨S50000x1, .f32⟩ : BufTy).Contents (Elt F) :=
  broadcastInDim S50000x1 ![0] bcast_S50000_S50000x1_0 (val_main_v48 (F := F) x7)
def val_main_cst_11 : (⟨S_, .f32⟩ : BufTy).Contents (Elt F) :=
  constant S_ .f32 0x00000000#32
def val_main_v50 : (⟨S50000x1, .f32⟩ : BufTy).Contents (Elt F) :=
  broadcastInDim S50000x1 ![] bcast_S_S50000x1 (val_main_cst_11 (F := F))
def val_main_v51 (x7 : (⟨S800000, .i32⟩ : BufTy).Contents (Elt F)) : (⟨S50000x1, .i1⟩ : BufTy).Contents (Elt F) :=
  cmpf .ogt (val_main_v49 (F := F) x7) (val_main_v50 (F := F))
def val_main_cst_12 : (⟨S_, .f32⟩ : BufTy).Contents (Elt F) :=
  constant S_ .f32 0x3F800000#32
def val_main_v52 : (⟨S50000, .f32⟩ : BufTy).Contents (Elt F) :=
  broadcastInDim S50000 ![] bcast_S_S50000 (val_main_cst_12 (F := F))
def val_main_v53 (x7 : (⟨S800000, .i32⟩ : BufTy).Contents (Elt F)) : (⟨S50000, .f32⟩ : BufTy).Contents (Elt F) :=
  maximumf (val_main_v48 (F := F) x7) (val_main_v52 (F := F))
def val_main_v54 (x7 : (⟨S800000, .i32⟩ : BufTy).Contents (Elt F)) : (⟨S50000x1, .f32⟩ : BufTy).Contents (Elt F) :=
  broadcastInDim S50000x1 ![0] bcast_S50000_S50000x1_0 (val_main_v53 (F := F) x7)
def val_main_v55 (x7 : (⟨S800000, .i32⟩ : BufTy).Contents (Elt F)) : (⟨S50000x128, .f32⟩ : BufTy).Contents (Elt F) :=
  broadcastInDim S50000x128 ![0, 1] bcast_S50000x1_S50000x128_0_1 (val_main_v54 (F := F) x7)
def val_main_v56 (x1 : (⟨S50000x128, .f32⟩ : BufTy).Contents (Elt F)) (x6 x7 : (⟨S800000, .i32⟩ : BufTy).Contents (Elt F)) (x12 : (⟨S128x128, .f32⟩ : BufTy).Contents (Elt F)) (x13 : (⟨S128, .f32⟩ : BufTy).Contents (Elt F)) : (⟨S50000x128, .f32⟩ : BufTy).Contents (Elt F) :=
  Host.divf (val_main_v44 (F := F) x1 x6 x7 x12 x13) (val_main_v55 (F := F) x7)
def val_main_cst_13 : (⟨S_, .f32⟩ : BufTy).Contents (Elt F) :=
  constant S_ .f32 0x00000000#32
def val_main_call1_v0 (x7 : (⟨S800000, .i32⟩ : BufTy).Contents (Elt F)) : (⟨S50000x128, .i1⟩ : BufTy).Contents (Elt F) :=
  broadcastInDim S50000x128 ![0, 1] bcast_S50000x1_S50000x128_0_1 (val_main_v51 (F := F) x7)
def val_main_call1_v1 : (⟨S50000x128, .f32⟩ : BufTy).Contents (Elt F) :=
  broadcastInDim S50000x128 ![] bcast_S_S50000x128 (val_main_cst_13 (F := F))
def val_main_v57 (x1 : (⟨S50000x128, .f32⟩ : BufTy).Contents (Elt F)) (x6 x7 : (⟨S800000, .i32⟩ : BufTy).Contents (Elt F)) (x12 : (⟨S128x128, .f32⟩ : BufTy).Contents (Elt F)) (x13 : (⟨S128, .f32⟩ : BufTy).Contents (Elt F)) : (⟨S50000x128, .f32⟩ : BufTy).Contents (Elt F) :=
  select (val_main_call1_v0 (F := F) x7) (val_main_v56 (F := F) x1 x6 x7 x12 x13) (val_main_call1_v1 (F := F))
def val_main_v58 (x0 x1 : (⟨S50000x128, .f32⟩ : BufTy).Contents (Elt F)) (x2 x3 x6 x7 : (⟨S800000, .i32⟩ : BufTy).Contents (Elt F)) (x8 : (⟨S128x128, .f32⟩ : BufTy).Contents (Elt F)) (x9 : (⟨S128, .f32⟩ : BufTy).Contents (Elt F)) (x12 : (⟨S128x128, .f32⟩ : BufTy).Contents (Elt F)) (x13 : (⟨S128, .f32⟩ : BufTy).Contents (Elt F)) : (⟨S50000x128, .f32⟩ : BufTy).Contents (Elt F) :=
  addf (val_main_v34 (F := F) x0 x2 x3 x8 x9) (val_main_v57 (F := F) x1 x6 x7 x12 x13)
theorem val_main_v58_apply (x0 x1 : (⟨S50000x128, .f32⟩ : BufTy).Contents (Elt F)) (x2 x3 x6 x7 : (⟨S800000, .i32⟩ : BufTy).Contents (Elt F)) (x8 : (⟨S128x128, .f32⟩ : BufTy).Contents (Elt F)) (x9 : (⟨S128, .f32⟩ : BufTy).Contents (Elt F)) (x12 : (⟨S128x128, .f32⟩ : BufTy).Contents (Elt F)) (x13 : (⟨S128, .f32⟩ : BufTy).Contents (Elt F)) (i : S50000x128.Idx) :
    val_main_v58 (F := F) x0 x1 x2 x3 x6 x7 x8 x9 x12 x13 i = FloatOps.addf (val_main_v34 (F := F) x0 x2 x3 x8 x9 i) (val_main_v57 (F := F) x1 x6 x7 x12 x13 i) := rfl

def val_main_c_14 : (⟨S_, .i32⟩ : BufTy).Contents (Elt F) :=
  constantI S_ 32 0#32
def val_main_v59 : (⟨S800000, .i32⟩ : BufTy).Contents (Elt F) :=
  broadcastInDim S800000 ![] bcast_S_S800000 (val_main_c_14 (F := F))
def val_main_v60 (x4 : (⟨S800000, .i32⟩ : BufTy).Contents (Elt F)) : (⟨S800000, .i1⟩ : BufTy).Contents (Elt F) :=
  cmpi .slt (x4) (val_main_v59 (F := F))
def val_main_c_15 : (⟨S_, .i32⟩ : BufTy).Contents (Elt F) :=
  constantI S_ 32 50000#32
def val_main_v61 : (⟨S800000, .i32⟩ : BufTy).Contents (Elt F) :=
  broadcastInDim S800000 ![] bcast_S_S800000 (val_main_c_15 (F := F))
def val_main_v62 (x4 : (⟨S800000, .i32⟩ : BufTy).Contents (Elt F)) : (⟨S800000, .i32⟩ : BufTy).Contents (Elt F) :=
  addi (x4) (val_main_v61 (F := F))
def val_main_v63 (x4 : (⟨S800000, .i32⟩ : BufTy).Contents (Elt F)) : (⟨S800000, .i32⟩ : BufTy).Contents (Elt F) :=
  select (val_main_v60 (F := F) x4) (val_main_v62 (F := F) x4) (x4)
def val_main_v64 (x4 : (⟨S800000, .i32⟩ : BufTy).Contents (Elt F)) : (⟨S800000x1, .i32⟩ : BufTy).Contents (Elt F) :=
  broadcastInDim S800000x1 ![0] bcast_S800000_S800000x1_0 (val_main_v63 (F := F) x4)
def val_main_v65 (x0 : (⟨S50000x128, .f32⟩ : BufTy).Contents (Elt F)) (x4 : (⟨S800000, .i32⟩ : BufTy).Contents (Elt F)) (x10 : (⟨S128x128, .f32⟩ : BufTy).Contents (Elt F)) (x11 : (⟨S128, .f32⟩ : BufTy).Contents (Elt F)) : (⟨S800000x128, .f32⟩ : BufTy).Contents (Elt F) :=
  Host.gather gather_S50000x128_S800000x1_S800000x128_1_0_n_n_0_1_1128 (val_main_v7 (F := F) x0 x10 x11) (val_main_v64 (F := F) x4)

def val_main_cst_16 : (⟨S_, .f32⟩ : BufTy).Contents (Elt F) :=
  constant S_ .f32 0x00000000#32
def val_main_v66 : (⟨S50000x128, .f32⟩ : BufTy).Contents (Elt F) :=
  broadcastInDim S50000x128 ![] bcast_S_S50000x128 (val_main_cst_16 (F := F))
def val_main_v67 (x5 : (⟨S800000, .i32⟩ : BufTy).Contents (Elt F)) : (⟨S800000x1, .i32⟩ : BufTy).Contents (Elt F) :=
  broadcastInDim S800000x1 ![0] bcast_S800000_S800000x1_0 (x5)
def val_main_v68 (x0 : (⟨S50000x128, .f32⟩ : BufTy).Contents (Elt F)) (x4 x5 : (⟨S800000, .i32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  Host.scatterAdd scatter_S50000x128_S800000x1_S800000x128_1_0_0_1 (val_main_v66 (F := F)) (val_main_v67 (F := F) x5) (val_main_v65 (F := F) x0 x4 x10 x11)

def val_main_cst_17 : (⟨S_, .f32⟩ : BufTy).Contents (Elt F) :=
  constant S_ .f32 0x3F800000#32
def val_main_v69 : (⟨S800000, .f32⟩ : BufTy).Contents (Elt F) :=
  broadcastInDim S800000 ![] bcast_S_S800000 (val_main_cst_17 (F := F))
def val_main_cst_18 : (⟨S_, .f32⟩ : BufTy).Contents (Elt F) :=
  constant S_ .f32 0x00000000#32
def val_main_v70 : (⟨S50000, .f32⟩ : BufTy).Contents (Elt F) :=
  broadcastInDim S50000 ![] bcast_S_S50000 (val_main_cst_18 (F := F))
def val_main_v71 (x5 : (⟨S800000, .i32⟩ : BufTy).Contents (Elt F)) : (⟨S800000x1, .i32⟩ : BufTy).Contents (Elt F) :=
  broadcastInDim S800000x1 ![0] bcast_S800000_S800000x1_0 (x5)
def val_main_v72 (x5 : (⟨S800000, .i32⟩ : BufTy).Contents (Elt F)) : (⟨S50000, .f32⟩ : BufTy).Contents (Elt F) :=
  Host.scatterAdd scatter_S50000_S800000x1_S800000_n_0_0_1 (val_main_v70 (F := F)) (val_main_v71 (F := F) x5) (val_main_v69 (F := F))

def val_main_v73 (x5 : (⟨S800000, .i32⟩ : BufTy).Contents (Elt F)) : (⟨S50000x1, .f32⟩ : BufTy).Contents (Elt F) :=
  broadcastInDim S50000x1 ![0] bcast_S50000_S50000x1_0 (val_main_v72 (F := F) x5)
def val_main_cst_19 : (⟨S_, .f32⟩ : BufTy).Contents (Elt F) :=
  constant S_ .f32 0x00000000#32
def val_main_v74 : (⟨S50000x1, .f32⟩ : BufTy).Contents (Elt F) :=
  broadcastInDim S50000x1 ![] bcast_S_S50000x1 (val_main_cst_19 (F := F))
def val_main_v75 (x5 : (⟨S800000, .i32⟩ : BufTy).Contents (Elt F)) : (⟨S50000x1, .i1⟩ : BufTy).Contents (Elt F) :=
  cmpf .ogt (val_main_v73 (F := F) x5) (val_main_v74 (F := F))
def val_main_cst_20 : (⟨S_, .f32⟩ : BufTy).Contents (Elt F) :=
  constant S_ .f32 0x3F800000#32
def val_main_v76 : (⟨S50000, .f32⟩ : BufTy).Contents (Elt F) :=
  broadcastInDim S50000 ![] bcast_S_S50000 (val_main_cst_20 (F := F))
def val_main_v77 (x5 : (⟨S800000, .i32⟩ : BufTy).Contents (Elt F)) : (⟨S50000, .f32⟩ : BufTy).Contents (Elt F) :=
  maximumf (val_main_v72 (F := F) x5) (val_main_v76 (F := F))
def val_main_v78 (x5 : (⟨S800000, .i32⟩ : BufTy).Contents (Elt F)) : (⟨S50000x1, .f32⟩ : BufTy).Contents (Elt F) :=
  broadcastInDim S50000x1 ![0] bcast_S50000_S50000x1_0 (val_main_v77 (F := F) x5)
def val_main_v79 (x5 : (⟨S800000, .i32⟩ : BufTy).Contents (Elt F)) : (⟨S50000x128, .f32⟩ : BufTy).Contents (Elt F) :=
  broadcastInDim S50000x128 ![0, 1] bcast_S50000x1_S50000x128_0_1 (val_main_v78 (F := F) x5)
def val_main_v80 (x0 : (⟨S50000x128, .f32⟩ : BufTy).Contents (Elt F)) (x4 x5 : (⟨S800000, .i32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  Host.divf (val_main_v68 (F := F) x0 x4 x5 x10 x11) (val_main_v79 (F := F) x5)
def val_main_cst_21 : (⟨S_, .f32⟩ : BufTy).Contents (Elt F) :=
  constant S_ .f32 0x00000000#32
def val_main_call2_v0 (x5 : (⟨S800000, .i32⟩ : BufTy).Contents (Elt F)) : (⟨S50000x128, .i1⟩ : BufTy).Contents (Elt F) :=
  broadcastInDim S50000x128 ![0, 1] bcast_S50000x1_S50000x128_0_1 (val_main_v75 (F := F) x5)
def val_main_call2_v1 : (⟨S50000x128, .f32⟩ : BufTy).Contents (Elt F) :=
  broadcastInDim S50000x128 ![] bcast_S_S50000x128 (val_main_cst_21 (F := F))
def val_main_v81 (x0 : (⟨S50000x128, .f32⟩ : BufTy).Contents (Elt F)) (x4 x5 : (⟨S800000, .i32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  select (val_main_call2_v0 (F := F) x5) (val_main_v80 (F := F) x0 x4 x5 x10 x11) (val_main_call2_v1 (F := F))
def val_main_v82 (x0 x1 : (⟨S50000x128, .f32⟩ : BufTy).Contents (Elt F)) (x2 x3 x6 x7 : (⟨S800000, .i32⟩ : BufTy).Contents (Elt F)) (x8 : (⟨S128x128, .f32⟩ : BufTy).Contents (Elt F)) (x9 : (⟨S128, .f32⟩ : BufTy).Contents (Elt F)) (x12 : (⟨S128x128, .f32⟩ : BufTy).Contents (Elt F)) (x13 : (⟨S128, .f32⟩ : BufTy).Contents (Elt F)) : (⟨S1x50000x128, .f32⟩ : BufTy).Contents (Elt F) :=
  broadcastInDim S1x50000x128 ![1, 2] bcast_S50000x128_S1x50000x128_1_2 (val_main_v58 (F := F) x0 x1 x2 x3 x6 x7 x8 x9 x12 x13)
abbrev idx_main_v82 (i : S1x50000x128.Idx) : S50000x128.Idx := fun a => match a with
  | ⟨0, _⟩ => ⟨(i 1).val, (i 1).isLt⟩
  | ⟨1, _⟩ => ⟨(i 2).val, (i 2).isLt⟩
theorem val_main_v82_apply (x0 x1 : (⟨S50000x128, .f32⟩ : BufTy).Contents (Elt F)) (x2 x3 x6 x7 : (⟨S800000, .i32⟩ : BufTy).Contents (Elt F)) (x8 : (⟨S128x128, .f32⟩ : BufTy).Contents (Elt F)) (x9 : (⟨S128, .f32⟩ : BufTy).Contents (Elt F)) (x12 : (⟨S128x128, .f32⟩ : BufTy).Contents (Elt F)) (x13 : (⟨S128, .f32⟩ : BufTy).Contents (Elt F)) (i : S1x50000x128.Idx) :
    val_main_v82 (F := F) x0 x1 x2 x3 x6 x7 x8 x9 x12 x13 i = val_main_v58 (F := F) x0 x1 x2 x3 x6 x7 x8 x9 x12 x13 (idx_main_v82 i) := by
  unfold val_main_v82
  generalize val_main_v58 (F := F) x0 x1 x2 x3 x6 x7 x8 x9 x12 x13 = y
  exact broadcastInDim_apply _ bcast_S50000x128_S1x50000x128_1_2 y i (idx_main_v82 i) (fun a => match a with
    | ⟨0, _⟩ => by show (i 1).val = if (50000 : Nat) = 1 then 0 else (i 1).val; rw [if_neg (by decide)]
    | ⟨1, _⟩ => by show (i 2).val = if (128 : Nat) = 1 then 0 else (i 2).val; rw [if_neg (by decide)])

def val_main_v83 (x0 : (⟨S50000x128, .f32⟩ : BufTy).Contents (Elt F)) (x4 x5 : (⟨S800000, .i32⟩ : BufTy).Contents (Elt F)) (x10 : (⟨S128x128, .f32⟩ : BufTy).Contents (Elt F)) (x11 : (⟨S128, .f32⟩ : BufTy).Contents (Elt F)) : (⟨S1x50000x128, .f32⟩ : BufTy).Contents (Elt F) :=
  broadcastInDim S1x50000x128 ![1, 2] bcast_S50000x128_S1x50000x128_1_2 (val_main_v81 (F := F) x0 x4 x5 x10 x11)
abbrev idx_main_v83 (i : S1x50000x128.Idx) : S50000x128.Idx := fun a => match a with
  | ⟨0, _⟩ => ⟨(i 1).val, (i 1).isLt⟩
  | ⟨1, _⟩ => ⟨(i 2).val, (i 2).isLt⟩
theorem val_main_v83_apply (x0 : (⟨S50000x128, .f32⟩ : BufTy).Contents (Elt F)) (x4 x5 : (⟨S800000, .i32⟩ : BufTy).Contents (Elt F)) (x10 : (⟨S128x128, .f32⟩ : BufTy).Contents (Elt F)) (x11 : (⟨S128, .f32⟩ : BufTy).Contents (Elt F)) (i : S1x50000x128.Idx) :
    val_main_v83 (F := F) x0 x4 x5 x10 x11 i = val_main_v81 (F := F) x0 x4 x5 x10 x11 (idx_main_v83 i) := by
  unfold val_main_v83
  generalize val_main_v81 (F := F) x0 x4 x5 x10 x11 = y
  exact broadcastInDim_apply _ bcast_S50000x128_S1x50000x128_1_2 y i (idx_main_v83 i) (fun a => match a with
    | ⟨0, _⟩ => by show (i 1).val = if (50000 : Nat) = 1 then 0 else (i 1).val; rw [if_neg (by decide)]
    | ⟨1, _⟩ => by show (i 2).val = if (128 : Nat) = 1 then 0 else (i 2).val; rw [if_neg (by decide)])

def val_main_v84 (x0 x1 : (⟨S50000x128, .f32⟩ : BufTy).Contents (Elt F)) (x2 x3 x4 x5 x6 x7 : (⟨S800000, .i32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : (⟨S2x50000x128, .f32⟩ : BufTy).Contents (Elt F) :=
  concatenate S2x50000x128 0 [⟨S1x50000x128, (val_main_v82 (F := F) x0 x1 x2 x3 x6 x7 x8 x9 x12 x13)⟩, ⟨S1x50000x128, (val_main_v83 (F := F) x0 x4 x5 x10 x11)⟩] concatenates_S1x50000x128_S1x50000x128_S2x50000x128_d0

theorem val_main_v84_eq (m : (ℓ : Loc nD τ sig) → Buf (Elt F) ℓ) (c : Dev nD) :
    Cert.ReferenceIdeal.Value.res_main_v84 m c = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.Value.res_main_v84; rfl

end Cert.ReferenceIdeal.Read

end
-- ==== Proof.Ref.Args.lean ====
import proofs.«425335_j13013750907176_1_alg».proof.ReferenceIdeal
import proofs.«425335_j13013750907176_1_alg».proof.Proof.Spec
import Idealize.ShloMosaic.Lib.ValueIdx

-- The argument arrays as functions of their coordinates, and the common value at them.

noncomputable section

namespace Cert.ReferenceIdeal.Args

open Idealize.ShloMosaic Idealize.ShloMosaic.TcCoe Idealize.SL.Sem Cert.ReferenceIdeal Idealize.ShloMosaic.ValueIdx

variable (m : (ℓ : Loc nD τ sig) → Buf (Elt Ideal) ℓ) (c : Dev nD)

def hu : Fin 50000 → Fin 128 → EReal := fun r j => (m ((c.tc : Thread nD τ).loc main_arg0) : S50000x128.Idx → EReal) (ix2 r j)
def hi : Fin 50000 → Fin 128 → EReal := fun r j => (m ((c.tc : Thread nD τ).loc main_arg1) : S50000x128.Idx → EReal) (ix2 r j)
def src0 : Fin 800000 → BitVec 32 := fun n => (m ((c.tc : Thread nD τ).loc main_arg2) : S800000.Idx → BitVec 32) (ix1 n)
def dst0 : Fin 800000 → BitVec 32 := fun n => (m ((c.tc : Thread nD τ).loc main_arg3) : S800000.Idx → BitVec 32) (ix1 n)
def src1 : Fin 800000 → BitVec 32 := fun n => (m ((c.tc : Thread nD τ).loc main_arg4) : S800000.Idx → BitVec 32) (ix1 n)
def dst1 : Fin 800000 → BitVec 32 := fun n => (m ((c.tc : Thread nD τ).loc main_arg5) : S800000.Idx → BitVec 32) (ix1 n)
def src2 : Fin 800000 → BitVec 32 := fun n => (m ((c.tc : Thread nD τ).loc main_arg6) : S800000.Idx → BitVec 32) (ix1 n)
def dst2 : Fin 800000 → BitVec 32 := fun n => (m ((c.tc : Thread nD τ).loc main_arg7) : S800000.Idx → BitVec 32) (ix1 n)
def w0 : Fin 128 → Fin 128 → EReal := fun j k => (m ((c.tc : Thread nD τ).loc main_arg8) : S128x128.Idx → EReal) (ix2 j k)
def b0 : Fin 128 → EReal := fun k => (m ((c.tc : Thread nD τ).loc main_arg9) : S128.Idx → EReal) (ix1 k)
def w1 : Fin 128 → Fin 128 → EReal := fun j k => (m ((c.tc : Thread nD τ).loc main_arg10) : S128x128.Idx → EReal) (ix2 j k)
def b1 : Fin 128 → EReal := fun k => (m ((c.tc : Thread nD τ).loc main_arg11) : S128.Idx → EReal) (ix1 k)
def w2 : Fin 128 → Fin 128 → EReal := fun j k => (m ((c.tc : Thread nD τ).loc main_arg12) : S128x128.Idx → EReal) (ix2 j k)
def b2 : Fin 128 → EReal := fun k => (m ((c.tc : Thread nD τ).loc main_arg13) : S128.Idx → EReal) (ix1 k)

def spec : Fin 2 → Fin 50000 → Fin 128 → EReal :=
  Cert.Spec.result (hu m c) (hi m c) (src0 m c) (dst0 m c) (src1 m c) (dst1 m c) (src2 m c) (dst2 m c)
    (w0 m c) (b0 m c) (w1 m c) (b1 m c) (w2 m c) (b2 m c)

def SrcInRange : Prop :=
  (∀ n, 0 ≤ (src0 m c n).toInt ∧ (src0 m c n).toInt < 50000)
  ∧ (∀ n, 0 ≤ (src1 m c n).toInt ∧ (src1 m c n).toInt < 50000)
  ∧ (∀ n, 0 ≤ (src2 m c n).toInt ∧ (src2 m c n).toInt < 50000)

end Cert.ReferenceIdeal.Args

end
-- ==== Proof.LibGatherRows.lean ====
import Idealize.ShloMosaic.PureOps
import Idealize.ShloMosaic.Lib.ValueIdx

-- A row gather read at an entry: where the index word is a row number of the table, the entry is the table's at that row.

noncomputable section

open Idealize.ShloMosaic Idealize.ShloMosaic.ValueIdx

namespace Cert.GatherRows

variable {α : Type}

abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

end Cert.GatherRows

end
-- ==== Proof.Ref.Value.lean ====
import proofs.«425335_j13013750907176_1_alg».proof.Proof.Ref.ReadP
import proofs.«425335_j13013750907176_1_alg».proof.Proof.Ref.Args
import proofs.«425335_j13013750907176_1_alg».proof.Proof.LibGatherRows
import proofs.«425335_j13013750907176_1_alg».proof.Proof.LibScatterRows
import Idealize.ShloMosaic.Lib.Pipeline.Value
import Idealize.ShloMosaic.Lib.ValueIdx
import Idealize.ShloMosaic.PureOps.Ideal.Laws

-- The reference's result, entry by entry, is the common value: layer, gather, two segment sums and the guarded quotient for each relation.

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

abbrev tab (x : (⟨S50000x128, .f32⟩ : BufTy).Contents (Elt Ideal)) : Fin 50000 → Fin 128 → EReal := fun r j => x (ix2 r j)

abbrev wts (x : (⟨S128x128, .f32⟩ : BufTy).Contents (Elt Ideal)) : Fin 128 → Fin 128 → EReal := fun j k => x (ix2 j k)

abbrev bias (x : (⟨S128, .f32⟩ : BufTy).Contents (Elt Ideal)) : Fin 128 → EReal := fun k => x (ix1 k)

abbrev ids (x : (⟨S800000, .i32⟩ : BufTy).Contents (Elt Ideal)) : Fin 800000 → BitVec 32 := fun n => x (ix1 n)

theorem lin_apply (x0 : (⟨S50000x128, .f32⟩ : BufTy).Contents (Elt Ideal)) (x8 : (⟨S128x128, .f32⟩ : BufTy).Contents (Elt Ideal)) (x9 : (⟨S128, .f32⟩ : BufTy).Contents (Elt Ideal)) (r : Fin 50000) (k : Fin 128) :
    val_main_v3 (F := Ideal) x0 x8 x9 (ix2 r k) = Cert.Spec.lin (tab x0) (wts x8) (bias x9) r k := by
  have e1 : ∀ j : Fin 128, lidx_main_v0 (ix2 r k) j = ix2 r j := fun j => funext fun a => by
    match a with | ⟨0, _⟩ => rfl | ⟨1, _⟩ => rfl
  have e2 : ∀ j : Fin 128, ridx_main_v0 (ix2 r k) j = ix2 j k := fun j => funext fun a => by
    match a with | ⟨0, _⟩ => rfl | ⟨1, _⟩ => rfl
  have e3 : idx_main_v1 (idx_main_v2 (ix2 r k)) = ix1 k := funext fun a => by
    match a with | ⟨0, _⟩ => rfl
  rw [val_main_v3_apply, val_main_v0_apply, val_main_v2_apply, val_main_v1_apply, e3]
  simp only [e1, e2]
  rfl

theorem wrap_nonneg (s : BitVec 32) (h : 0 ≤ s.toInt) :
    Scalar.select (IntOp.cmpi .slt s 0#32) (IntOp.addi s 50000#32) s = s := by
  unfold Scalar.select
  rw [if_neg]
  intro hc
  have hlt := IntOp.cmpi_slt.1 hc
  have hz : (0#32 : BitVec 32).toInt = 0 := by decide
  omega

theorem srcidx_apply (x2 : (⟨S800000, .i32⟩ : BufTy).Contents (Elt Ideal)) (n : Fin 800000) (h : 0 ≤ (ids x2 n).toInt) :
    val_main_v17 (F := Ideal) x2 (ix2 n (0 : Fin 1)) = ids x2 n := by
  have e : idx_main_v17 (ix2 n (0 : Fin 1)) = ix1 n := funext fun a => by
    match a with | ⟨0, _⟩ => rfl
  rw [val_main_v17_apply, e, val_main_v16_apply, val_main_v13_apply, val_main_v15_apply, val_main_v12_apply,
    val_main_v14_apply, val_main_c_apply, val_main_c_0_apply]
  exact wrap_nonneg _ h

theorem msg_apply (x0 : (⟨S50000x128, .f32⟩ : BufTy).Contents (Elt Ideal)) (x2 : (⟨S800000, .i32⟩ : BufTy).Contents (Elt Ideal)) (x8 : (⟨S128x128, .f32⟩ : BufTy).Contents (Elt Ideal)) (x9 : (⟨S128, .f32⟩ : BufTy).Contents (Elt Ideal)) (n : Fin 800000) (k : Fin 128)
    (h : 0 ≤ (ids x2 n).toInt) :
    val_main_v18 (F := Ideal) x0 x2 x8 x9 (ix2 n k)
      = Cert.Spec.lin (tab x0) (wts x8) (bias x9) (Cert.Spec.rowOf (ids x2 n)) k := by
  unfold val_main_v18
  refine (Cert.GatherRows.gather_rows_apply (T := 50000) (C := 128) (N := 800000) (w := 32) (by decide)
    gather_S50000x128_S800000x1_S800000x128_1_0_n_n_0_1_1128 rfl rfl rfl rfl rfl rfl rfl
    (val_main_v3 (F := Ideal) x0 x8 x9) (val_main_v17 (F := Ideal) x2) n k).trans ?_
  have hrow : ∀ p, (⟨min (val_main_v17 (F := Ideal) x2 (ix2 n (0 : Fin 1))).toInt.toNat (50000 - 1), p⟩ : Fin 50000)
      = Cert.Spec.rowOf (ids x2 n) := fun p => Fin.ext (by
    show min (val_main_v17 (F := Ideal) x2 (ix2 n (0 : Fin 1))).toInt.toNat (50000 - 1)
      = min (ids x2 n).toInt.toNat (50000 - 1)
    rw [srcidx_apply x2 n h])
  rw [hrow]
  exact lin_apply x0 x8 x9 (Cert.Spec.rowOf (ids x2 n)) k

theorem scatter_rows_apply (x : S50000x128.Idx → EReal) (idx : IVec S800000x1 32) (u : S800000x128.Idx → EReal)
    (g : Fin 50000) (j : Fin 128) :
    Host.scatterAdd (F := Ideal) (φ := .f32) scatter_S50000x128_S800000x1_S800000x128_1_0_0_1 x idx u (ix2 g j)
      = x (ix2 g j) + ∑ n : Fin 800000, if (idx (ix2 n 0)).toInt = (g.val : ℤ) then u (ix2 n j) else 0 := by
  rw [show Host.scatterAdd (F := Ideal) (φ := .f32) scatter_S50000x128_S800000x1_S800000x128_1_0_0_1 x idx u
      = Ideal.hostScatterAdd scatter_S50000x128_S800000x1_S800000x128_1_0_0_1 x idx u from Ideal.hostScatterAdd_def _ _ x idx u]
  exact Cert.LibScatterRows.hostScatterAdd_rows (G := 50000) (D := 128) (N := 800000) (w := 32)
    scatter_S50000x128_S800000x1_S800000x128_1_0_0_1 rfl rfl rfl rfl x idx u g j

theorem scatter_vec_apply (x : S50000.Idx → EReal) (idx : IVec S800000x1 32) (u : S800000.Idx → EReal)
    (g : Fin 50000) :
    Host.scatterAdd (F := Ideal) (φ := .f32) scatter_S50000_S800000x1_S800000_n_0_0_1 x idx u (ix1 g)
      = x (ix1 g) + ∑ n : Fin 800000, if (idx (ix2 n 0)).toInt = (g.val : ℤ) then u (ix1 n) else 0 := by
  rw [show Host.scatterAdd (F := Ideal) (φ := .f32) scatter_S50000_S800000x1_S800000_n_0_0_1 x idx u
      = Ideal.hostScatterAdd scatter_S50000_S800000x1_S800000_n_0_0_1 x idx u from Ideal.hostScatterAdd_def _ _ x idx u]
  exact Cert.LibScatterRows.hostScatterAdd_vec (G := 50000) (N := 800000) (w := 32)
    scatter_S50000_S800000x1_S800000_n_0_0_1 rfl rfl rfl rfl x idx u g

theorem segsum_stage (x0 : (⟨S50000x128, .f32⟩ : BufTy).Contents (Elt Ideal)) (x2 x3 : (⟨S800000, .i32⟩ : BufTy).Contents (Elt Ideal)) (x8 : (⟨S128x128, .f32⟩ : BufTy).Contents (Elt Ideal)) (x9 : (⟨S128, .f32⟩ : BufTy).Contents (Elt Ideal)) :
    val_main_v21 (F := Ideal) x0 x2 x3 x8 x9
      = Host.scatterAdd (F := Ideal) (φ := .f32) scatter_S50000x128_S800000x1_S800000x128_1_0_0_1 (val_main_v19 (F := Ideal))
          (val_main_v20 (F := Ideal) x3) (val_main_v18 (F := Ideal) x0 x2 x8 x9) := rfl

theorem cnt_stage (x3 : (⟨S800000, .i32⟩ : BufTy).Contents (Elt Ideal)) :
    val_main_v25 (F := Ideal) x3
      = Host.scatterAdd (F := Ideal) (φ := .f32) scatter_S50000_S800000x1_S800000_n_0_0_1 (val_main_v23 (F := Ideal))
          (val_main_v24 (F := Ideal) x3) (val_main_v22 (F := Ideal)) := rfl

theorem segsum_apply (x0 : (⟨S50000x128, .f32⟩ : BufTy).Contents (Elt Ideal)) (x2 x3 : (⟨S800000, .i32⟩ : BufTy).Contents (Elt Ideal)) (x8 : (⟨S128x128, .f32⟩ : BufTy).Contents (Elt Ideal)) (x9 : (⟨S128, .f32⟩ : BufTy).Contents (Elt Ideal))
    (hsrc : ∀ n, 0 ≤ (ids x2 n).toInt) (d : Fin 50000) (k : Fin 128) :
    val_main_v21 (F := Ideal) x0 x2 x3 x8 x9 (ix2 d k)
      = Cert.Spec.segsum (ids x3)
          (fun n k' => Cert.Spec.lin (tab x0) (wts x8) (bias x9) (Cert.Spec.rowOf (ids x2 n)) k') d k := by
  rw [segsum_stage, scatter_rows_apply]
  have ez : val_main_v19 (F := Ideal) (ix2 d k) = Cert.Spec.zero := by
    rw [val_main_v19_apply, val_main_cst_apply]; rfl
  unfold Cert.Spec.segsum
  rw [ez]
  refine congrArg (Cert.Spec.zero + ·) (Finset.sum_congr rfl fun n _ => ?_)
  have e : idx_main_v20 (ix2 n (0 : Fin 1)) = ix1 n := funext fun a => by
    match a with | ⟨0, _⟩ => rfl
  rw [val_main_v20_apply, e, msg_apply x0 x2 x8 x9 n k (hsrc n)]

theorem cnt_apply (x3 : (⟨S800000, .i32⟩ : BufTy).Contents (Elt Ideal)) (d : Fin 50000) :
    val_main_v25 (F := Ideal) x3 (ix1 d) = Cert.Spec.cnt (ids x3) d := by
  rw [cnt_stage, scatter_vec_apply]
  have ez : val_main_v23 (F := Ideal) (ix1 d) = Cert.Spec.zero := by
    rw [val_main_v23_apply, val_main_cst_2_apply]; rfl
  unfold Cert.Spec.cnt
  rw [ez]
  refine congrArg (Cert.Spec.zero + ·) (Finset.sum_congr rfl fun n _ => ?_)
  have e : idx_main_v24 (ix2 n (0 : Fin 1)) = ix1 n := funext fun a => by
    match a with | ⟨0, _⟩ => rfl
  have eo : val_main_v22 (F := Ideal) (ix1 n) = Cert.Spec.one := by
    rw [val_main_v22_apply, val_main_cst_1_apply]; rfl
  rw [val_main_v24_apply, e, eo]

theorem agg_apply (x0 : (⟨S50000x128, .f32⟩ : BufTy).Contents (Elt Ideal)) (x2 x3 : (⟨S800000, .i32⟩ : BufTy).Contents (Elt Ideal)) (x8 : (⟨S128x128, .f32⟩ : BufTy).Contents (Elt Ideal)) (x9 : (⟨S128, .f32⟩ : BufTy).Contents (Elt Ideal))
    (hsrc : ∀ n, 0 ≤ (ids x2 n).toInt) (d : Fin 50000) (k : Fin 128) :
    val_main_v34 (F := Ideal) x0 x2 x3 x8 x9 (ix2 d k)
      = Cert.Spec.agg (tab x0) (wts x8) (bias x9) (ids x2) (ids x3) d k := by
  have e0 : idx_main_call0_v0 (ix2 d k) = ix2 d (0 : Fin 1) := funext fun a => by
    match a with | ⟨0, _⟩ => rfl | ⟨1, _⟩ => rfl
  have e1 : idx_main_v26 (ix2 d (0 : Fin 1)) = ix1 d := funext fun a => by
    match a with | ⟨0, _⟩ => rfl
  have e2 : idx_main_v32 (ix2 d k) = ix2 d (0 : Fin 1) := funext fun a => by
    match a with | ⟨0, _⟩ => rfl | ⟨1, _⟩ => rfl
  have e3 : idx_main_v31 (ix2 d (0 : Fin 1)) = ix1 d := funext fun a => by
    match a with | ⟨0, _⟩ => rfl
  rw [val_main_v34_apply, val_main_call0_v0_apply, e0, val_main_v28_apply, val_main_v26_apply, e1, val_main_v27_apply,
    val_main_cst_3_apply, val_main_v33_apply, val_main_v32_apply, e2, val_main_v31_apply, e3, val_main_v30_apply,
    val_main_v29_apply, val_main_cst_4_apply, val_main_call0_v1_apply, val_main_cst_5_apply,
    segsum_apply x0 x2 x3 x8 x9 hsrc d k, cnt_apply x3 d, Ideal.cmpf_def, Ideal.hostDivf_def, Ideal.maximumf_def]
  unfold Cert.Spec.agg Cert.Spec.meanAt
  rfl

theorem rel2_eq (x1 : (⟨S50000x128, .f32⟩ : BufTy).Contents (Elt Ideal)) (x6 x7 : (⟨S800000, .i32⟩ : BufTy).Contents (Elt Ideal)) (x12 : (⟨S128x128, .f32⟩ : BufTy).Contents (Elt Ideal)) (x13 : (⟨S128, .f32⟩ : BufTy).Contents (Elt Ideal)) :
    val_main_v57 (F := Ideal) x1 x6 x7 x12 x13 = val_main_v34 (F := Ideal) x1 x6 x7 x12 x13 := rfl

theorem rel1_eq (x0 : (⟨S50000x128, .f32⟩ : BufTy).Contents (Elt Ideal)) (x4 x5 : (⟨S800000, .i32⟩ : BufTy).Contents (Elt Ideal)) (x10 : (⟨S128x128, .f32⟩ : BufTy).Contents (Elt Ideal)) (x11 : (⟨S128, .f32⟩ : BufTy).Contents (Elt Ideal)) :
    val_main_v81 (F := Ideal) x0 x4 x5 x10 x11 = val_main_v34 (F := Ideal) x0 x4 x5 x10 x11 := rfl

theorem result_stage (x0 x1 : (⟨S50000x128, .f32⟩ : BufTy).Contents (Elt Ideal)) (x2 x3 x4 x5 x6 x7 : (⟨S800000, .i32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) :
    val_main_v84 (F := Ideal) x0 x1 x2 x3 x4 x5 x6 x7 x8 x9 x10 x11 x12 x13
      = concatenate S2x50000x128 0
          [⟨S1x50000x128, val_main_v82 (F := Ideal) x0 x1 x2 x3 x6 x7 x8 x9 x12 x13⟩,
           ⟨S1x50000x128, val_main_v83 (F := Ideal) x0 x4 x5 x10 x11⟩]
          concatenates_S1x50000x128_S1x50000x128_S2x50000x128_d0 := rfl

theorem ref_value (m : (ℓ : Loc nD τ sig) → Buf (Elt Ideal) ℓ) (c : Dev nD)
    (hsrc : Cert.ReferenceIdeal.Args.SrcInRange m c) (a : Fin 2) (d : Fin 50000) (k : Fin 128) :
    (Cert.ReferenceIdeal.Value.res_main_v84 m c : S2x50000x128.Idx → EReal) (ix3 a d k)
      = Cert.ReferenceIdeal.Args.spec m c a d k := by
  have h0 : ∀ n, 0 ≤ (ids (m ((c.tc : Thread nD τ).loc main_arg2)) n).toInt := fun n => (hsrc.1 n).1
  have h1 : ∀ n, 0 ≤ (ids (m ((c.tc : Thread nD τ).loc main_arg4)) n).toInt := fun n => (hsrc.2.1 n).1
  have h2 : ∀ n, 0 ≤ (ids (m ((c.tc : Thread nD τ).loc main_arg6)) n).toInt := fun n => (hsrc.2.2 n).1
  have e : idx_main_v82 (ix3 (0 : Fin 1) d k) = ix2 d k := funext fun b => by
    match b with | ⟨0, _⟩ => rfl | ⟨1, _⟩ => rfl
  have e' : idx_main_v83 (ix3 (0 : Fin 1) d k) = ix2 d k := funext fun b => by
    match b with | ⟨0, _⟩ => rfl | ⟨1, _⟩ => rfl
  rw [Read.val_main_v84_eq, result_stage]
  match a with
  | ⟨0, _⟩ =>
    refine (concatenate_pair_apply_left (t := S2x50000x128) (s₁ := S1x50000x128) (s₂ := S1x50000x128) (0 : Fin 3) _ _ _ _ rfl (ix3 (0 : Fin 1) d k) (fun b => by
      match b with | ⟨0, _⟩ => rfl | ⟨1, _⟩ => rfl | ⟨2, _⟩ => rfl)).trans ?_
    rw [val_main_v82_apply, e, val_main_v58_apply, rel2_eq, agg_apply _ _ _ _ _ h0 d k, agg_apply _ _ _ _ _ h2 d k]
    unfold Cert.ReferenceIdeal.Args.spec Cert.Spec.result
    rw [if_pos rfl]
    rfl
  | ⟨1, _⟩ =>
    refine (concatenate_pair_apply_right (t := S2x50000x128) (s₁ := S1x50000x128) (s₂ := S1x50000x128) (0 : Fin 3) _ _ _ _ rfl rfl (ix3 (0 : Fin 1) d k) (fun b hb => by
      match b with
      | ⟨0, _⟩ => exact absurd rfl hb
      | ⟨1, _⟩ => rfl
      | ⟨2, _⟩ => rfl) rfl).trans ?_
    rw [val_main_v83_apply, e', rel1_eq, agg_apply _ _ _ _ _ h1 d k]
    unfold Cert.ReferenceIdeal.Args.spec Cert.Spec.result
    rw [if_neg Nat.one_ne_zero]
    rfl

end Cert.ReferenceIdeal.RefValue

end
-- ==== Proof.lean ====
import proofs.«425335_j13013750907176_1_alg».proof.Defs
import proofs.«425335_j13013750907176_1_alg».proof.Proof.Gen.Kernel
import proofs.«425335_j13013750907176_1_alg».proof.Proof.Gen.KernelIdeal
import proofs.«425335_j13013750907176_1_alg».proof.Proof.Gen.ReferenceIdeal
import proofs.«425335_j13013750907176_1_alg».proof.Proof.Gen.Pre_finite_inputs
import proofs.«425335_j13013750907176_1_alg».proof.Proof.Ref.RunP
import proofs.«425335_j13013750907176_1_alg».proof.Proof.KI.Run
import proofs.«425335_j13013750907176_1_alg».proof.Proof.KI.HostB
import proofs.«425335_j13013750907176_1_alg».proof.Proof.KI.PreDecode
import proofs.«425335_j13013750907176_1_alg».proof.Proof.Ref.Value
import proofs.«425335_j13013750907176_1_alg».proof.Proof.Verbatim
import Idealize.ShloMosaic.Adequacy
import Idealize.ShloMosaic.Init

-- Three relations of a graph layer: linear layer, rows taken along the edges' sources, mean over each destination's incoming edges.
-- The kernel programs select and sum by one-hot products (0 · x = 0 and 1 · x = x on every extended real), the reference gathers and scatter-adds;
-- where every source id is a row number of its table both give the common value of Spec.

noncomputable section

namespace Cert.Proof

open Idealize.ShloMosaic Idealize.ShloMosaic.TcCoe Idealize.SL.Sem Idealize.ShloMosaic.ValueIdx

-- Memories that agree on the arguments give both programs the same common value and the same range condition.
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Args.spec m' c = Cert.KernelIdeal.Args.spec m c
    ∧ (Cert.KernelIdeal.Args.SrcInRange m c → Cert.ReferenceIdeal.Args.SrcInRange m' c) := by
  obtain ⟨h0, h1, h2, h3, h4, h5, h6, h7, h8, h9, h10, h11, h12, h13⟩ := h
  constructor
  · unfold Cert.ReferenceIdeal.Args.spec Cert.KernelIdeal.Args.spec
      Cert.ReferenceIdeal.Args.hu Cert.ReferenceIdeal.Args.hi Cert.ReferenceIdeal.Args.src0 Cert.ReferenceIdeal.Args.dst0
      Cert.ReferenceIdeal.Args.src1 Cert.ReferenceIdeal.Args.dst1 Cert.ReferenceIdeal.Args.src2 Cert.ReferenceIdeal.Args.dst2
      Cert.ReferenceIdeal.Args.w0 Cert.ReferenceIdeal.Args.b0 Cert.ReferenceIdeal.Args.w1 Cert.ReferenceIdeal.Args.b1
      Cert.ReferenceIdeal.Args.w2 Cert.ReferenceIdeal.Args.b2
    rw [h0, h1, h2, h3, h4, h5, h6, h7, h8, h9, h10, h11, h12, h13]
    rfl
  · unfold Cert.ReferenceIdeal.Args.SrcInRange Cert.KernelIdeal.Args.SrcInRange
      Cert.ReferenceIdeal.Args.src0 Cert.ReferenceIdeal.Args.src1 Cert.ReferenceIdeal.Args.src2
    rw [h2, h4, h6]
    exact id

-- The word-level program and the idealized one are one text under two names, so the frame proved of the second at every float family is the first's.
theorem frame_k : Cert.frame_Kernel (hKernel := Cert.Kernel.Gen.facts) (hPre_finite_inputs := Cert.Pre_finite_inputs.Gen.facts) := by
  intro m ρ _
  exact_verbatim Cert.KernelIdeal.Gen.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

-- Both runs end with the result array at the common value of the agreeing arguments.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V31 m (Cert.KernelIdeal.Gen.outs m) c Cert.KernelIdeal.main_v66,
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  have hsrc := Cert.KernelIdeal.PreDecode.srcInRange_of_pre (hPre := Cert.Pre_finite_inputs.Gen.facts) m hpre c
  obtain ⟨hspec, hsrc'⟩ := args_agree m m' c (hagree c)
  funext i
  obtain ⟨a, d, k, rfl⟩ : ∃ (a : Fin 2) (d : Fin 50000) (k : Fin 128), i = ix3 a d k := ⟨i 0, i 1, i 2, eq_ix3 i⟩
  exact (Cert.ReferenceIdeal.RefValue.ref_value m' c (hsrc' hsrc) a d k).trans
    ((congrFun (congrFun (congrFun hspec a) d) k).trans (Cert.KernelIdeal.Gen.kernel_value m c hsrc a d k).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
